-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v46) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_v235) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x8x512 : Shape := ⟨3, ![1024, 8, 512]⟩
abbrev S4x512x512 : Shape := ⟨3, ![4, 512, 512]⟩
abbrev S4x512 : Shape := ⟨2, ![4, 512]⟩
abbrev S2048x512 : Shape := ⟨2, ![2048, 512]⟩
abbrev S2048 : Shape := ⟨1, ![2048]⟩
abbrev S512x2048 : Shape := ⟨2, ![512, 2048]⟩
abbrev S512 : Shape := ⟨1, ![512]⟩
abbrev S_ : Shape := ⟨0, ![]⟩

class Facts : Prop where
  bcast_S_S1024x8x512 : S_.BroadcastsInDim S1024x8x512 (![] : Fin 0 → Fin S1024x8x512.rank)
  reducesTo_S1024x8x512_S_d0_1_2 : S1024x8x512.ReducesTo [0, 1, 2] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_
  bcast_S_S4x512 : S_.BroadcastsInDim S4x512 (![] : Fin 0 → Fin S4x512.rank)
  reducesTo_S4x512_S_d0_1 : S4x512.ReducesTo [0, 1] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_arg14 : FVec F S512 .f32) (main_arg15 : FVec F S4x512 .f32) (main_arg16 : FVec F S4x512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S4x512 .f32 := Host.absf main_arg15
  let main_cst_28 : FVec F S_ .f32 := constant S_ .f32 0x7F800000#32
  let main_v75 : FVec F S4x512 .f32 := broadcastInDim S4x512 ![] bcast_S_S4x512 main_cst_28
  let main_v76 : IVec S4x512 1 := cmpf .olt main_v74 main_v75
  let main_c_29 : IVec S_ 1 := constantI S_ 1 1#1
  let main_v77 : IVec S_ 1 := (fun x v => Host.reduce IntOp.andi x v reducesTo_S4x512_S_d0_1 h_S_) main_v76 main_c_29
  let main_v78 : IVec S_ 1 := andi main_v73 main_v77
  let main_v79 : FVec F S4x512 .f32 := Host.absf main_arg16
  let main_cst_30 : FVec F S_ .f32 := constant S_ .f32 0x7F800000#32
  let main_v80 : FVec F S4x512 .f32 := broadcastInDim S4x512 ![] bcast_S_S4x512 main_cst_30
  let main_v81 : IVec S4x512 1 := cmpf .olt main_v79 main_v80
  let main_c_31 : IVec S_ 1 := constantI S_ 1 1#1
  let main_v82 : IVec S_ 1 := (fun x v => Host.reduce IntOp.andi x v reducesTo_S4x512_S_d0_1 h_S_) main_v81 main_c_31
  let main_v83 : IVec S_ 1 := andi main_v78 main_v82
  main_v83

def fn_part3 {F : FTy → Type} [FloatOps F] (main_arg11 : FVec F S2048x512 .f32) (main_arg12 : FVec F S2048 .f32) (main_arg13 : FVec F S512x2048 .f32) (main_arg14 : FVec F S512 .f32) (main_arg15 : FVec F S4x512 .f32) (main_arg16 : FVec F S4x512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S2048x512 .f32 := Host.absf main_arg11
  let main_cst_20 : FVec F S_ .f32 := constant S_ .f32 0x7F800000#32
  let main_v55 : FVec F S2048x512 .f32 := broadcastInDim S2048x512 ![] bcast_S_S2048x512 main_cst_20
  let main_v56 : IVec S2048x512 1 := cmpf .olt main_v54 main_v55
  let main_c_21 : IVec S_ 1 := constantI S_ 1 1#1
  let main_v57 : IVec S_ 1 := (fun x v => Host.reduce IntOp.andi x v reducesTo_S2048x512_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S512x2048 .f32 := Host.absf main_arg13
  let main_cst_24 : FVec F S_ .f32 := constant S_ .f32 0x7F800000#32
  let main_v65 : FVec F S512x2048 .f32 := broadcastInDim S512x2048 ![] bcast_S_S512x2048 main_cst_24
  let main_v66 : IVec S512x2048 1 := cmpf .olt main_v64 main_v65
  let main_c_25 : IVec S_ 1 := constantI S_ 1 1#1
  let main_v67 : IVec S_ 1 := (fun x v => Host.reduce IntOp.andi x v reducesTo_S512x2048_S_d0_1 h_S_) main_v66 main_c_25
  fn_part4 (F := F) main_arg14 main_arg15 main_arg16 main_v63 main_v67

def fn_part2 {F : FTy → Type} [FloatOps F] (main_arg7 : FVec F S2048x512 .f32) (main_arg8 : FVec F S2048 .f32) (main_arg9 : FVec F S512x2048 .f32) (main_arg10 : FVec F S512 .f32) (main_arg11 : FVec F S2048x512 .f32) (main_arg12 : FVec F S2048 .f32) (main_arg13 : FVec F S512x2048 .f32) (main_arg14 : FVec F S512 .f32) (main_arg15 : FVec F S4x512 .f32) (main_arg16 : FVec F S4x512 .f32) (main_v33 : IVec S_ 1) : IVec S_ 1 :=
  let main_v34 : FVec F S2048x512 .f32 := Host.absf main_arg7
  let main_cst_12 : FVec F S_ .f32 := constant S_ .f32 0x7F800000#32
  let main_v35 : FVec F S2048x512 .f32 := broadcastInDim S2048x512 ![] bcast_S_S2048x512 main_cst_12
  let main_v36 : IVec S2048x512 1 := cmpf .olt main_v34 main_v35
  let main_c_13 : IVec S_ 1 := constantI S_ 1 1#1
  let main_v37 : IVec S_ 1 := (fun x v => Host.reduce IntOp.andi x v reducesTo_S2048x512_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S512x2048 .f32 := Host.absf main_arg9
  let main_cst_16 : FVec F S_ .f32 := constant S_ .f32 0x7F800000#32
  let main_v45 : FVec F S512x2048 .f32 := broadcastInDim S512x2048 ![] bcast_S_S512x2048 main_cst_16
  let main_v46 : IVec S512x2048 1 := cmpf .olt main_v44 main_v45
  let main_c_17 : IVec S_ 1 := constantI S_ 1 1#1
  let main_v47 : IVec S_ 1 := (fun x v => Host.reduce IntOp.andi x v reducesTo_S512x2048_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_v48 main_v49 main_v50

def fn_part1 {F : FTy → Type} [FloatOps F] (main_arg4 : FVec F S4x512 .f32) (main_arg5 : FVec F S4x512x512 .f32) (main_arg6 : FVec F S4x512 .f32) (main_arg7 : FVec F S2048x512 .f32) (main_arg8 : FVec F S2048 .f32) (main_arg9 : FVec F S512x2048 .f32) (main_arg10 : FVec F S512 .f32) (main_arg11 : FVec F S2048x512 .f32) (main_arg12 : FVec F S2048 .f32) (main_arg13 : FVec F S512x2048 .f32) (main_arg14 : FVec F S512 .f32) (main_arg15 : FVec F S4x512 .f32) (main_arg16 : FVec F S4x512 .f32) (main_v13 : IVec S_ 1) (main_v16 : IVec S4x512x512 1) : IVec S_ 1 :=
  let main_c_5 : IVec S_ 1 := constantI S_ 1 1#1
  let main_v17 : IVec S_ 1 := (fun x v => Host.reduce IntOp.andi x v reducesTo_S4x512x512_S_d0_1_2 h_S_) main_v16 main_c_5
  let main_v18 : IVec S_ 1 := andi main_v13 main_v17
  let main_v19 : FVec F S4x512 .f32 := Host.absf main_arg4
  let main_cst_6 : FVec F S_ .f32 := constant S_ .f32 0x7F800000#32
  let main_v20 : FVec F S4x512 .f32 := broadcastInDim S4x512 ![] bcast_S_S4x512 main_cst_6
  let main_v21 : IVec S4x512 1 := cmpf .olt main_v19 main_v20
  let main_c_7 : IVec S_ 1 := constantI S_ 1 1#1
  let main_v22 : IVec S_ 1 := (fun x v => Host.reduce IntOp.andi x v reducesTo_S4x512_S_d0_1 h_S_) main_v21 main_c_7
  let main_v23 : IVec S_ 1 := andi main_v18 main_v22
  let main_v24 : FVec F S4x512x512 .f32 := Host.absf main_arg5
  let main_cst_8 : FVec F S_ .f32 := constant S_ .f32 0x7F800000#32
  let main_v25 : FVec F S4x512x512 .f32 := broadcastInDim S4x512x512 ![] bcast_S_S4x512x512 main_cst_8
  let main_v26 : IVec S4x512x512 1 := cmpf .olt main_v24 main_v25
  let main_c_9 : IVec S_ 1 := constantI S_ 1 1#1
  let main_v27 : IVec S_ 1 := (fun x v => Host.reduce IntOp.andi x v reducesTo_S4x512x512_S_d0_1_2 h_S_) main_v26 main_c_9
  let main_v28 : IVec S_ 1 := andi main_v23 main_v27
  let main_v29 : FVec F S4x512 .f32 := Host.absf main_arg6
  let main_cst_10 : FVec F S_ .f32 := constant S_ .f32 0x7F800000#32
  let main_v30 : FVec F S4x512 .f32 := broadcastInDim S4x512 ![] bcast_S_S4x512 main_cst_10
  let main_v31 : IVec S4x512 1 := cmpf .olt main_v29 main_v30
  let main_c_11 : IVec S_ 1 := constantI S_ 1 1#1
  let main_v32 : IVec S_ 1 := (fun x v => Host.reduce IntOp.andi x v reducesTo_S4x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S1024x8x512 .f32) (main_arg1 : FVec F S1024x8x512 .f32) (main_arg2 : FVec F S1024x8x512 .f32) (main_arg3 : FVec F S4x512x512 .f32) (main_arg4 : FVec F S4x512 .f32) (main_arg5 : FVec F S4x512x512 .f32) (main_arg6 : FVec F S4x512 .f32) (main_arg7 : FVec F S2048x512 .f32) (main_arg8 : FVec F S2048 .f32) (main_arg9 : FVec F S512x2048 .f32) (main_arg10 : FVec F S512 .f32) (main_arg11 : FVec F S2048x512 .f32) (main_arg12 : FVec F S2048 .f32) (main_arg13 : FVec F S512x2048 .f32) (main_arg14 : FVec F S512 .f32) (main_arg15 : FVec F S4x512 .f32) (main_arg16 : FVec F S4x512 .f32) : IVec S_ 1 :=
  let main_v0 : FVec F S1024x8x512 .f32 := Host.absf main_arg0
  let main_cst : FVec F S_ .f32 := constant S_ .f32 0x7F800000#32
  let main_v1 : FVec F S1024x8x512 .f32 := broadcastInDim S1024x8x512 ![] bcast_S_S1024x8x512 main_cst
  let main_v2 : IVec S1024x8x512 1 := cmpf .olt main_v0 main_v1
  let main_c : IVec S_ 1 := constantI S_ 1 1#1
  let main_v3 : IVec S_ 1 := (fun x v => Host.reduce IntOp.andi x v reducesTo_S1024x8x512_S_d0_1_2 h_S_) main_v2 main_c
  let main_v4 : FVec F S1024x8x512 .f32 := Host.absf main_arg1
  let main_cst_0 : FVec F S_ .f32 := constant S_ .f32 0x7F800000#32
  let main_v5 : FVec F S1024x8x512 .f32 := broadcastInDim S1024x8x512 ![] bcast_S_S1024x8x512 main_cst_0
  let main_v6 : IVec S1024x8x512 1 := cmpf .olt main_v4 main_v5
  let main_c_1 : IVec S_ 1 := constantI S_ 1 1#1
  let main_v7 : IVec S_ 1 := (fun x v => Host.reduce IntOp.andi x v reducesTo_S1024x8x512_S_d0_1_2 h_S_) main_v6 main_c_1
  let main_v8 : IVec S_ 1 := andi main_v3 main_v7
  let main_v9 : FVec F S1024x8x512 .f32 := Host.absf main_arg2
  let main_cst_2 : FVec F S_ .f32 := constant S_ .f32 0x7F800000#32
  let main_v10 : FVec F S1024x8x512 .f32 := broadcastInDim S1024x8x512 ![] bcast_S_S1024x8x512 main_cst_2
  let main_v11 : IVec S1024x8x512 1 := cmpf .olt main_v9 main_v10
  let main_c_3 : IVec S_ 1 := constantI S_ 1 1#1
  let main_v12 : IVec S_ 1 := (fun x v => Host.reduce IntOp.andi x v reducesTo_S1024x8x512_S_d0_1_2 h_S_) main_v11 main_c_3
  let main_v13 : IVec S_ 1 := andi main_v8 main_v12
  let main_v14 : FVec F S4x512x512 .f32 := Host.absf main_arg3
  let main_cst_4 : FVec F S_ .f32 := constant S_ .f32 0x7F800000#32
  let main_v15 : FVec F S4x512x512 .f32 := broadcastInDim S4x512x512 ![] bcast_S_S4x512x512 main_cst_4
  let main_v16 : IVec S4x512x512 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S1024x8x512 : Shape := ⟨3, ![1024, 8, 512]⟩
abbrev S4x512x512 : Shape := ⟨3, ![4, 512, 512]⟩
abbrev S4x512 : Shape := ⟨2, ![4, 512]⟩
abbrev S2048x512 : Shape := ⟨2, ![2048, 512]⟩
abbrev S2048 : Shape := ⟨1, ![2048]⟩
abbrev S512x2048 : Shape := ⟨2, ![512, 2048]⟩
abbrev S512 : Shape := ⟨1, ![512]⟩
abbrev S8x1024x512 : Shape := ⟨3, ![8, 1024, 512]⟩
abbrev S1x512x512 : Shape := ⟨3, ![1, 512, 512]⟩
abbrev S512x512 : Shape := ⟨2, ![512, 512]⟩
abbrev S1x1024x512 : Shape := ⟨3, ![1, 1024, 512]⟩
abbrev S1024x512 : Shape := ⟨2, ![1024, 512]⟩
abbrev S1024x1024 : Shape := ⟨2, ![1024, 1024]⟩
abbrev S1x512 : Shape := ⟨2, ![1, 512]⟩
abbrev S1024x128 : Shape := ⟨2, ![1024, 128]⟩
abbrev S1024x64 : Shape := ⟨2, ![1024, 64]⟩
abbrev S64x1024 : Shape := ⟨2, ![64, 1024]⟩
abbrev S1024 : Shape := ⟨1, ![1024]⟩
abbrev S1024x1 : Shape := ⟨2, ![1024, 1]⟩
abbrev S1024x2048 : Shape := ⟨2, ![1024, 2048]⟩
abbrev S1x2048 : Shape := ⟨2, ![1, 2048]⟩

abbrev nBuf : Space → Nat
  | .hbm => 66
  | .vmem => 49
  | .smem => 0
  | _ => 0

abbrev bufTy : (tb : Table) → Fin (tcTables nBuf tb) → BufTy
  | .hbm, ⟨0, _⟩ => ⟨S1024x8x512, .f32⟩
  | .hbm, ⟨1, _⟩ => ⟨S1024x8x512, .f32⟩
  | .hbm, ⟨2, _⟩ => ⟨S1024x8x512, .f32⟩
  | .hbm, ⟨3, _⟩ => ⟨S4x512x512, .f32⟩
  | .hbm, ⟨4, _⟩ => ⟨S4x512, .f32⟩
  | .hbm, ⟨5, _⟩ => ⟨S4x512x512, .f32⟩
  | .hbm, ⟨6, _⟩ => ⟨S4x512, .f32⟩
  | .hbm, ⟨7, _⟩ => ⟨S2048x512, .f32⟩
  | .hbm, ⟨8, _⟩ => ⟨S2048, .f32⟩
  | .hbm, ⟨9, _⟩ => ⟨S512x2048, .f32⟩
  | .hbm, ⟨10, _⟩ => ⟨S512, .f32⟩
  | .hbm, ⟨11, _⟩ => ⟨S2048x512, .f32⟩
  | .hbm, ⟨12, _⟩ => ⟨S2048, .f32⟩
  | .hbm, ⟨13, _⟩ => ⟨S512x2048, .f32⟩
  | .hbm, ⟨14, _⟩ => ⟨S512, .f32⟩
  | .hbm, ⟨15, _⟩ => ⟨S4x512, .f32⟩
  | .hbm, ⟨16, _⟩ => ⟨S4x512, .f32⟩
  | .hbm, ⟨17, _⟩ => ⟨S8x1024x512, .f32⟩
  | .hbm, ⟨18, _⟩ => ⟨S8x1024x512, .f32⟩
  | .hbm, ⟨19, _⟩ => ⟨S8x1024x512, .f32⟩
  | .hbm, ⟨20, _⟩ => ⟨S1x512x512, .f32⟩
  | .hbm, ⟨21, _⟩ => ⟨S512x512, .f32⟩
  | .hbm, ⟨22, _⟩ => ⟨S512x512, .f32⟩
  | .hbm, ⟨23, _⟩ => ⟨S512x512, .bf16⟩
  | .hbm, ⟨24, _⟩ => ⟨S1x512x512, .f32⟩
  | .hbm, ⟨25, _⟩ => ⟨S512x512, .f32⟩
  | .hbm, ⟨26, _⟩ => ⟨S512x512, .f32⟩
  | .hbm, ⟨27, _⟩ => ⟨S512x512, .bf16⟩
  | .hbm, ⟨28, _⟩ => ⟨S1x512x512, .f32⟩
  | .hbm, ⟨29, _⟩ => ⟨S512x512, .f32⟩
  | .hbm, ⟨30, _⟩ => ⟨S512x512, .f32⟩
  | .hbm, ⟨31, _⟩ => ⟨S512x512, .bf16⟩
  | .hbm, ⟨32, _⟩ => ⟨S1x512x512, .f32⟩
  | .hbm, ⟨33, _⟩ => ⟨S512x512, .f32⟩
  | .hbm, ⟨34, _⟩ => ⟨S512x512, .f32⟩
  | .hbm, ⟨35, _⟩ => ⟨S512x512, .bf16⟩
  | .hbm, ⟨36, _⟩ => ⟨S1x512x512, .f32⟩
  | .hbm, ⟨37, _⟩ => ⟨S512x512, .f32⟩
  | .hbm, ⟨38, _⟩ => ⟨S512x512, .f32⟩
  | .hbm, ⟨39, _⟩ => ⟨S512x512, .bf16⟩
  | .hbm, ⟨40, _⟩ => ⟨S1x512x512, .f32⟩
  | .hbm, ⟨41, _⟩ => ⟨S512x512, .f32⟩
  | .hbm, ⟨42, _⟩ => ⟨S512x512, .f32⟩
  | .hbm, ⟨43, _⟩ => ⟨S512x512, .bf16⟩
  | .hbm, ⟨44, _⟩ => ⟨S1x512x512, .f32⟩
  | .hbm, ⟨45, _⟩ => ⟨S512x512, .f32⟩
  | .hbm, ⟨46, _⟩ => ⟨S512x512, .f32⟩
  | .hbm, ⟨47, _⟩ => ⟨S512x512, .bf16⟩
  | .hbm, ⟨48, _⟩ => ⟨S1x512x512, .f32⟩
  | .hbm, ⟨49, _⟩ => ⟨S512x512, .f32⟩
  | .hbm, ⟨50, _⟩ => ⟨S512x512, .f32⟩
  | .hbm, ⟨51, _⟩ => ⟨S512x512, .bf16⟩
  | .hbm, ⟨52, _⟩ => ⟨S8x1024x512, .f32⟩
  | .hbm, ⟨53, _⟩ => ⟨S8x1024x512, .f32⟩
  | .hbm, ⟨54, _⟩ => ⟨S512x2048, .f32⟩
  | .hbm, ⟨55, _⟩ => ⟨S512x2048, .bf16⟩
  | .hbm, ⟨56, _⟩ => ⟨S2048x512, .f32⟩
  | .hbm, ⟨57, _⟩ => ⟨S2048x512, .bf16⟩
  | .hbm, ⟨58, _⟩ => ⟨S512x2048, .f32⟩
  | .hbm, ⟨59, _⟩ => ⟨S512x2048, .bf16⟩
  | .hbm, ⟨60, _⟩ => ⟨S2048x512, .f32⟩
  | .hbm, ⟨61, _⟩ => ⟨S2048x512, .bf16⟩
  | .hbm, ⟨62, _⟩ => ⟨S8x1024x512, .f32⟩
  | .hbm, ⟨63, _⟩ => ⟨S8x1024x512, .f32⟩
  | .hbm, ⟨64, _⟩ => ⟨S1024x8x512, .f32⟩
  | .hbm, ⟨65, _⟩ => ⟨S1024x8x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S4x512, .f32⟩
  | .local _ .vmem, ⟨15, _⟩ => ⟨S4x512, .f32⟩
  | .local _ .vmem, ⟨16, _⟩ => ⟨S4x512, .f32⟩
  | .local _ .vmem, ⟨17, _⟩ => ⟨S4x512, .f32⟩
  | .local _ .vmem, ⟨18, _⟩ => ⟨S1x1024x512, .f32⟩
  | .local _ .vmem, ⟨19, _⟩ => ⟨S1x1024x512, .f32⟩
  | .local _ .vmem, ⟨20, _⟩ => ⟨S1x1024x512, .f32⟩
  | .local _ .vmem, ⟨21, _⟩ => ⟨S1x1024x512, .f32⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1024x512, .bf16⟩
  | .local _ .vmem, ⟨26, _⟩ => ⟨S1024x512, .bf16⟩
  | .local _ .vmem, ⟨27, _⟩ => ⟨S1024x512, .bf16⟩
  | .local _ .vmem, ⟨28, _⟩ => ⟨S1024x512, .bf16⟩
  | .local _ .vmem, ⟨29, _⟩ => ⟨S1024x512, .bf16⟩
  | .local _ .vmem, ⟨30, _⟩ => ⟨S1024x1024, .f32⟩
  | .local _ .vmem, ⟨31, _⟩ => ⟨S1x1024x512, .f32⟩
  | .local _ .vmem, ⟨32, _⟩ => ⟨S1x1024x512, .f32⟩
  | .local _ .vmem, ⟨33, _⟩ => ⟨S1x1024x512, .f32⟩
  | .local _ .vmem, ⟨34, _⟩ => ⟨S1x1024x512, .f32⟩
  | .local _ .vmem, ⟨35, _⟩ => ⟨S512x2048, .bf16⟩
  | .local _ .vmem, ⟨36, _⟩ => ⟨S2048, .f32⟩
  | .local _ .vmem, ⟨37, _⟩ => ⟨S2048x512, .bf16⟩
  | .local _ .vmem, ⟨38, _⟩ => ⟨S512, .f32⟩
  | .local _ .vmem, ⟨39, _⟩ => ⟨S512x2048, .bf16⟩
  | .local _ .vmem, ⟨40, _⟩ => ⟨S2048, .f32⟩
  | .local _ .vmem, ⟨41, _⟩ => ⟨S2048x512, .bf16⟩
  | .local _ .vmem, ⟨42, _⟩ => ⟨S512, .f32⟩
  | .local _ .vmem, ⟨43, _⟩ => ⟨S4x512, .f32⟩
  | .local _ .vmem, ⟨44, _⟩ => ⟨S4x512, .f32⟩
  | .local _ .vmem, ⟨45, _⟩ => ⟨S1x1024x512, .f32⟩
  | .local _ .vmem, ⟨46, _⟩ => ⟨S1x1024x512, .f32⟩
  | .local _ .vmem, ⟨47, _⟩ => ⟨S1x1024x512, .f32⟩
  | .local _ .vmem, ⟨48, _⟩ => ⟨S1x1024x512, .f32⟩
  | _, _ => ⟨S1024x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35_0 : Ref sig .tc := ⟨.hbm, 52, rfl⟩
abbrev main_v35_1 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44_0 : Ref sig .tc := ⟨.hbm, 62, rfl⟩
abbrev main_v44_1 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc1_stg0_0 : Ref sig .tc := ⟨.vmem, 31, rfl⟩
abbrev cc1_stg0_1 : Ref sig .tc := ⟨.vmem, 32, rfl⟩
abbrev cc1_stg1_0 : Ref sig .tc := ⟨.vmem, 33, rfl⟩
abbrev cc1_stg1_1 : Ref sig .tc := ⟨.vmem, 34, rfl⟩
abbrev cc1_stg2_0 : Ref sig .tc := ⟨.vmem, 35, rfl⟩
abbrev cc1_stg3_0 : Ref sig .tc := ⟨.vmem, 36, rfl⟩
abbrev cc1_stg4_0 : Ref sig .tc := ⟨.vmem, 37, rfl⟩
abbrev cc1_stg5_0 : Ref sig .tc := ⟨.vmem, 38, rfl⟩
abbrev cc1_stg6_0 : Ref sig .tc := ⟨.vmem, 39, rfl⟩
abbrev cc1_stg7_0 : Ref sig .tc := ⟨.vmem, 40, rfl⟩
abbrev cc1_stg8_0 : Ref sig .tc := ⟨.vmem, 41, rfl⟩
abbrev cc1_stg9_0 : Ref sig .tc := ⟨.vmem, 42, rfl⟩
abbrev cc1_stg10_0 : Ref sig .tc := ⟨.vmem, 43, rfl⟩
abbrev cc1_stg11_0 : Ref sig .tc := ⟨.vmem, 44, rfl⟩
abbrev cc1_stg12_0 : Ref sig .tc := ⟨.vmem, 45, rfl⟩
abbrev cc1_stg12_1 : Ref sig .tc := ⟨.vmem, 46, rfl⟩
abbrev cc1_stg13_0 : Ref sig .tc := ⟨.vmem, 47, rfl⟩
abbrev cc1_stg13_1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem3_0 : DmaSem sig := 27
abbrev cc1_sem4_0 : DmaSem sig := 28
abbrev cc1_sem5_0 : DmaSem sig := 29
abbrev cc1_sem6_0 : DmaSem sig := 30
abbrev cc1_sem7_0 : DmaSem sig := 31
abbrev cc1_sem8_0 : DmaSem sig := 32
abbrev cc1_sem9_0 : DmaSem sig := 33
abbrev cc1_sem10_0 : DmaSem sig := 34
abbrev cc1_sem11_0 : DmaSem sig := 35
abbrev cc1_sem12_0 : DmaSem sig := 36
abbrev cc1_sem12_1 : DmaSem sig := 37
abbrev cc1_sem13_0 : DmaSem sig := 38
abbrev cc1_sem13_1 : DmaSem sig := 39

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v86 : BitVec 32 := Scalar.addi c0_i32 c4_i32
  let c1_i32 : BitVec 32 := 1#32
  ⟨c0_i32, v86, c1_i32⟩
def k0_mult1 (k0_t1 : Fin k0_t1_loop.trips) : BitVec 32 :=
  let c0_i32 : BitVec 32 := 0#32
  let c1_i32 : BitVec 32 := 1#32
  let arg27 : BitVec 32 := Scf.iv c0_i32 c1_i32 k0_t1
  let c128_i32 : BitVec 32 := 128#32
  let v169 : BitVec 32 := Scalar.muli arg27 c128_i32
  v169
def k0_off1 (k0_t1 : Fin k0_t1_loop.trips) : Fin 2 → Nat :=
  let c0_85 : Index := 0#32
  let c0_i32 : BitVec 32 := 0#32
  let c1_i32 : BitVec 32 := 1#32
  let arg27 : BitVec 32 := Scf.iv c0_i32 c1_i32 k0_t1
  let c128_i32 : BitVec 32 := 128#32
  let v169 : BitVec 32 := Scalar.muli arg27 c128_i32
  let v170 : BitVec 32 := v169
  let v171 : Index := Scalar.indexCast v170
  ![0, v171.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x1024x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1024x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x2048 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2048x512 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S4x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S4x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S1x1024x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x1024x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  transposes_S1024x8x512_S8x1024x512_1_0_2 : S1024x8x512.Transposes [1, 0, 2] S8x1024x512
  slices_S4x512x512_S1x512x512_0_0_0 : S4x512x512.Slices ![0, 0, 0] S1x512x512
  shapeCasts_S1x512x512_S512x512 : S1x512x512.ShapeCasts S512x512
  transposes_S512x512_S512x512_1_0 : S512x512.Transposes [1, 0] S512x512
  bitsLt_bf16_f32 : FTy.bits .bf16 < FTy.bits .f32
  slices_S4x512x512_S1x512x512_1_0_0 : S4x512x512.Slices ![1, 0, 0] S1x512x512
  slices_S4x512x512_S1x512x512_2_0_0 : S4x512x512.Slices ![2, 0, 0] S1x512x512
  slices_S4x512x512_S1x512x512_3_0_0 : S4x512x512.Slices ![3, 0, 0] S1x512x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S4x512_S1x512_0_0 : ∀ a, (![0, 0] : Fin 2 → Nat) a + S1x512.size a ≤ S4x512.size a
  h_S1x512 : 0 < S1x512.numel
  shapeCasts_S1x512_S512 : S1x512.ShapeCasts S512
  inb_S4x512_S1x512_1_0 : ∀ a, (![1, 0] : Fin 2 → Nat) a + S1x512.size a ≤ S4x512.size a
  inb_S4x512_S1x512_2_0 : ∀ a, (![2, 0] : Fin 2 → Nat) a + S1x512.size a ≤ S4x512.size a
  inb_S4x512_S1x512_3_0 : ∀ a, (![3, 0] : Fin 2 → Nat) a + S1x512.size a ≤ S4x512.size a
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S512_S1x512 : S512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  packedbf16_S1024x512_S1024x512_0_0 : (Rect.unit (s := S1024x512) ![0, 0] S1024x512.size inb_S1024x512_S1024x512_0_0).PackedRows (EltTy.packing .bf16)
  h_S1024x128 : 0 < S1024x128.numel
  slices_S1024x128_o0_0_S1024x64 : S1024x128.Slices ![0, 0] S1024x64
  concatenates_S1024x64_S1024x64_S1024x128_d1 : Shape.Concatenates [S1024x64, S1024x64] S1024x128 1
  transposes_S1024x64_p1_0_S64x1024 : S1024x64.Transposes [1, 0] S64x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  slices_S1024x128_o0_64_S1024x64 : S1024x128.Slices ![0, 64] S1024x64
  shapeCasts_S1024x128_S1024x128 : S1024x128.ShapeCasts S1024x128
  reduces_S1024x512_S1024 : S1024x512.Reduces [1] S1024
  broadcasts_S1024x1_S1024x512 : S1024x1.Broadcasts S1024x512
  shapeCasts_S1024x512_S1x1024x512 : S1024x512.ShapeCasts S1x1024x512
  transposes_S2048x512_S512x2048_1_0 : S2048x512.Transposes [1, 0] S512x2048
  transposes_S512x2048_S2048x512_1_0 : S512x2048.Transposes [1, 0] S2048x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048_S2048_0 : ∀ a, (![0] : Fin 1 → Nat) a + S2048.size a ≤ S2048.size a
  h_S2048 : 0 < S2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512_S512_0 : ∀ a, (![0] : Fin 1 → Nat) a + S512.size a ≤ S512.size a
  h_S512 : 0 < S512.numel
  shapeCasts_S2048_S1x2048 : S2048.ShapeCasts S1x2048
  broadcasts_S1x2048_S1024x2048 : S1x2048.Broadcasts S1024x2048
  transposes_S8x1024x512_S1024x8x512_1_0_2 : S8x1024x512.Transposes [1, 0, 2] S1024x8x512
  dot_S1024x512_S512x512_S1024x512_1_0_0_1_n_n_wf : DotDims.WF S1024x512 S512x512 S1024x512 [1] [0] [0] [1] [] []
  dot_S1024x64_S64x1024_S1024x1024_1_0_0_1_n_n_wf : DotDims.WF S1024x64 S64x1024 S1024x1024 [1] [0] [0] [1] [] []
  dot_S1024x1024_S1024x128_S1024x128_1_0_0_1_n_n_wf : DotDims.WF S1024x1024 S1024x128 S1024x128 [1] [0] [0] [1] [] []
  dot_S1024x512_S512x2048_S1024x2048_1_0_0_1_n_n_wf : DotDims.WF S1024x512 S512x2048 S1024x2048 [1] [0] [0] [1] [] []
  dot_S1024x2048_S2048x512_S1024x512_1_0_0_1_n_n_wf : DotDims.WF S1024x2048 S2048x512 S1024x512 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1024x128.size a ≤ S1024x512.size a
  k0_off1_packedbf16 : ∀ k0_t1 : Fin k0_t1_loop.trips, (Rect.unit (s := S1024x512) (k0_off1 k0_t1) S1024x128.size (k0_off1_inb k0_t1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x1024x512.size a
  hwx0_0 : ∀ i : grid0.Coords, EltTy.bits .f32 = 32 ∨ (Rect.block (s := S8x1024x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x1024x512.size a
  hwx0_1 : ∀ i : grid0.Coords, EltTy.bits .f32 = 32 ∨ (Rect.block (s := S8x1024x512) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S8x1024x512.size a
  hwx0_2 : ∀ i : grid0.Coords, EltTy.bits .f32 = 32 ∨ (Rect.block (s := S8x1024x512) S1x1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .bf16 = 32 ∨ (Rect.block (s := S512x512) S512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .bf16 = 32 ∨ (Rect.block (s := S512x512) S512x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S4x512.size a ≤ S4x512.size a
  hwx0_11 : ∀ i : grid0.Coords, EltTy.bits .f32 = 32 ∨ (Rect.block (s := S4x512) S4x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S4x512.size a ≤ S4x512.size a
  hwx0_12 : ∀ i : grid0.Coords, EltTy.bits .f32 = 32 ∨ (Rect.block (s := S4x512) S4x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S4x512.size a ≤ S4x512.size a
  hwx0_13 : ∀ i : grid0.Coords, EltTy.bits .f32 = 32 ∨ (Rect.block (s := S4x512) S4x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S4x512.size a ≤ S4x512.size a
  hwx0_14 : ∀ i : grid0.Coords, EltTy.bits .f32 = 32 ∨ (Rect.block (s := S4x512) S4x512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x1024x512.size a ≤ S8x1024x512.size a
  hwx0_15 : ∀ i : grid0.Coords, EltTy.bits .f32 = 32 ∨ (Rect.block (s := S8x1024x512) S1x1024x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x1024x512.size a ≤ S8x1024x512.size a
  hwx0_16 : ∀ i : grid0.Coords, EltTy.bits .f32 = 32 ∨ (Rect.block (s := S8x1024x512) S1x1024x512.size (cc0_transform_16 i) (hinb0_16 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S8x1024x512.size a
  hwx1_0 : ∀ i : grid1.Coords, EltTy.bits .f32 = 32 ∨ (Rect.block (s := S8x1024x512) S1x1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x512.size a ≤ S8x1024x512.size a
  hwx1_1 : ∀ i : grid1.Coords, EltTy.bits .f32 = 32 ∨ (Rect.block (s := S8x1024x512) S1x1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S512x2048.size a
  hwx1_2 : ∀ i : grid1.Coords, EltTy.bits .bf16 = 32 ∨ (Rect.block (s := S512x2048) S512x2048.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048.size a ≤ S2048.size a
  hwx1_3 : ∀ i : grid1.Coords, EltTy.bits .f32 = 32 ∨ (Rect.block (s := S2048) S2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x512.size a ≤ S2048x512.size a
  hwx1_4 : ∀ i : grid1.Coords, EltTy.bits .bf16 = 32 ∨ (Rect.block (s := S2048x512) S2048x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512.size a ≤ S512.size a
  hwx1_5 : ∀ i : grid1.Coords, EltTy.bits .f32 = 32 ∨ (Rect.block (s := S512) S512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x2048.size a ≤ S512x2048.size a
  hwx1_6 : ∀ i : grid1.Coords, EltTy.bits .bf16 = 32 ∨ (Rect.block (s := S512x2048) S512x2048.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2048.size a ≤ S2048.size a
  hwx1_7 : ∀ i : grid1.Coords, EltTy.bits .f32 = 32 ∨ (Rect.block (s := S2048) S2048.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S2048x512.size a ≤ S2048x512.size a
  hwx1_8 : ∀ i : grid1.Coords, EltTy.bits .bf16 = 32 ∨ (Rect.block (s := S2048x512) S2048x512.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S512.size a ≤ S512.size a
  hwx1_9 : ∀ i : grid1.Coords, EltTy.bits .f32 = 32 ∨ (Rect.block (s := S512) S512.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S4x512.size a ≤ S4x512.size a
  hwx1_10 : ∀ i : grid1.Coords, EltTy.bits .f32 = 32 ∨ (Rect.block (s := S4x512) S4x512.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S4x512.size a ≤ S4x512.size a
  hwx1_11 : ∀ i : grid1.Coords, EltTy.bits .f32 = 32 ∨ (Rect.block (s := S4x512) S4x512.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1x1024x512.size a ≤ S8x1024x512.size a
  hwx1_12 : ∀ i : grid1.Coords, EltTy.bits .f32 = 32 ∨ (Rect.block (s := S8x1024x512) S1x1024x512.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S1x1024x512.size a ≤ S8x1024x512.size a
  hwx1_13 : ∀ i : grid1.Coords, EltTy.bits .f32 = 32 ∨ (Rect.block (s := S8x1024x512) S1x1024x512.size (cc1_transform_13 i) (hinb1_13 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_v0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v34) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg4) S4x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg6) S4x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg15) S4x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg16) S4x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v35_0) S1x1024x512.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v35_1) S1x1024x512.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev win1_0 : Pipeline.Window sig grid1 :=
  Pipeline.Window.ofSpec (Memref.whole main_v35_0) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35_1) S1x1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S512x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S2048x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S512x2048.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S2048.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v43) S2048x512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg14) S512.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg15) S4x512.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg16) S4x512.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v44_0) S1x1024x512.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v44_1) S1x1024x512.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S1024x8x512 : Shape := ⟨3, ![1024, 8, 512]⟩
abbrev S4x512x512 : Shape := ⟨3, ![4, 512, 512]⟩
abbrev S4x512 : Shape := ⟨2, ![4, 512]⟩
abbrev S2048x512 : Shape := ⟨2, ![2048, 512]⟩
abbrev S2048 : Shape := ⟨1, ![2048]⟩
abbrev S512x2048 : Shape := ⟨2, ![512, 2048]⟩
abbrev S512 : Shape := ⟨1, ![512]⟩
abbrev S8x1024x512 : Shape := ⟨3, ![8, 1024, 512]⟩
abbrev S1x512x512 : Shape := ⟨3, ![1, 512, 512]⟩
abbrev S512x512 : Shape := ⟨2, ![512, 512]⟩
abbrev S1x512 : Shape := ⟨2, ![1, 512]⟩
abbrev S1x1x512 : Shape := ⟨3, ![1, 1, 512]⟩
abbrev S8x1024x8x64 : Shape := ⟨4, ![8, 1024, 8, 64]⟩
abbrev S8x8x1024x64 : Shape := ⟨4, ![8, 8, 1024, 64]⟩
abbrev S8x8x1024x1024 : Shape := ⟨4, ![8, 8, 1024, 1024]⟩
abbrev S_ : Shape := ⟨0, ![]⟩
abbrev S8x8x1024 : Shape := ⟨3, ![8, 8, 1024]⟩
abbrev S8x8x1024x1 : Shape := ⟨4, ![8, 8, 1024, 1]⟩
abbrev S8x1024 : Shape := ⟨2, ![8, 1024]⟩
abbrev S8x1024x1 : Shape := ⟨3, ![8, 1024, 1]⟩
abbrev S8x1024x2048 : Shape := ⟨3, ![8, 1024, 2048]⟩
abbrev S1x1x2048 : Shape := ⟨3, ![1, 1, 2048]⟩

abbrev nBuf : Space → Nat
  | .hbm => 373
  | .vmem => 0
  | .smem => 0
  | _ => 0

abbrev hbmTy0_0 (i : Nat) : BufTy := match i % 128 with
  | 0 => ⟨S1024x8x512, .f32⟩
  | 1 => ⟨S1024x8x512, .f32⟩
  | 2 => ⟨S1024x8x512, .f32⟩
  | 3 => ⟨S4x512x512, .f32⟩
  | 4 => ⟨S4x512, .f32⟩
  | 5 => ⟨S4x512x512, .f32⟩
  | 6 => ⟨S4x512, .f32⟩
  | 7 => ⟨S2048x512, .f32⟩
  | 8 => ⟨S2048, .f32⟩
  | 9 => ⟨S512x2048, .f32⟩
  | 10 => ⟨S512, .f32⟩
  | 11 => ⟨S2048x512, .f32⟩
  | 12 => ⟨S2048, .f32⟩
  | 13 => ⟨S512x2048, .f32⟩
  | 14 => ⟨S512, .f32⟩
  | 15 => ⟨S4x512, .f32⟩
  | 16 => ⟨S4x512, .f32⟩
  | 17 => ⟨S8x1024x512, .f32⟩
  | 18 => ⟨S8x1024x512, .f32⟩
  | 19 => ⟨S8x1024x512, .f32⟩
  | 20 => ⟨S8x1024x512, .f32⟩
  | 21 => ⟨S1x512x512, .f32⟩
  | 22 => ⟨S512x512, .f32⟩
  | 23 => ⟨S1x512, .f32⟩
  | 24 => ⟨S512, .f32⟩
  | 25 => ⟨S8x1024x512, .f32⟩
  | 26 => ⟨S1x1x512, .f32⟩
  | 27 => ⟨S8x1024x512, .f32⟩
  | 28 => ⟨S8x1024x512, .f32⟩
  | 29 => ⟨S8x1024x8x64, .f32⟩
  | 30 => ⟨S8x8x1024x64, .f32⟩
  | 31 => ⟨S1x512x512, .f32⟩
  | 32 => ⟨S512x512, .f32⟩
  | 33 => ⟨S1x512, .f32⟩
  | 34 => ⟨S512, .f32⟩
  | 35 => ⟨S8x1024x512, .f32⟩
  | 36 => ⟨S1x1x512, .f32⟩
  | 37 => ⟨S8x1024x512, .f32⟩
  | 38 => ⟨S8x1024x512, .f32⟩
  | 39 => ⟨S8x1024x8x64, .f32⟩
  | 40 => ⟨S8x8x1024x64, .f32⟩
  | 41 => ⟨S1x512x512, .f32⟩
  | 42 => ⟨S512x512, .f32⟩
  | 43 => ⟨S1x512, .f32⟩
  | 44 => ⟨S512, .f32⟩
  | 45 => ⟨S8x1024x512, .f32⟩
  | 46 => ⟨S1x1x512, .f32⟩
  | 47 => ⟨S8x1024x512, .f32⟩
  | 48 => ⟨S8x1024x512, .f32⟩
  | 49 => ⟨S8x1024x8x64, .f32⟩
  | 50 => ⟨S8x8x1024x64, .f32⟩
  | 51 => ⟨S1x512x512, .f32⟩
  | 52 => ⟨S512x512, .f32⟩
  | 53 => ⟨S1x512, .f32⟩
  | 54 => ⟨S512, .f32⟩
  | 55 => ⟨S8x1024x512, .f32⟩
  | 56 => ⟨S1x1x512, .f32⟩
  | 57 => ⟨S8x1024x512, .f32⟩
  | 58 => ⟨S8x1024x512, .f32⟩
  | 59 => ⟨S8x1024x8x64, .f32⟩
  | 60 => ⟨S8x8x1024x64, .f32⟩
  | 61 => ⟨S1x512x512, .f32⟩
  | 62 => ⟨S512x512, .f32⟩
  | 63 => ⟨S1x512, .f32⟩
  | 64 => ⟨S512, .f32⟩
  | 65 => ⟨S8x1024x512, .f32⟩
  | 66 => ⟨S1x1x512, .f32⟩
  | 67 => ⟨S8x1024x512, .f32⟩
  | 68 => ⟨S8x1024x512, .f32⟩
  | 69 => ⟨S8x1024x8x64, .f32⟩
  | 70 => ⟨S8x8x1024x64, .f32⟩
  | 71 => ⟨S1x512x512, .f32⟩
  | 72 => ⟨S512x512, .f32⟩
  | 73 => ⟨S1x512, .f32⟩
  | 74 => ⟨S512, .f32⟩
  | 75 => ⟨S8x1024x512, .f32⟩
  | 76 => ⟨S1x1x512, .f32⟩
  | 77 => ⟨S8x1024x512, .f32⟩
  | 78 => ⟨S8x1024x512, .f32⟩
  | 79 => ⟨S8x1024x8x64, .f32⟩
  | 80 => ⟨S8x8x1024x64, .f32⟩
  | 81 => ⟨S8x8x1024x1024, .f32⟩
  | 82 => ⟨S_, .f32⟩
  | 83 => ⟨S8x8x1024x1024, .f32⟩
  | 84 => ⟨S8x8x1024x1024, .f32⟩
  | 85 => ⟨S_, .f32⟩
  | 86 => ⟨S8x8x1024, .f32⟩
  | 87 => ⟨S_, .f32⟩
  | 88 => ⟨S8x8x1024, .f32⟩
  | 89 => ⟨S8x8x1024, .f32⟩
  | 90 => ⟨S8x8x1024x1, .f32⟩
  | 91 => ⟨S8x8x1024x1024, .f32⟩
  | 92 => ⟨S8x8x1024x1024, .f32⟩
  | 93 => ⟨S8x8x1024x1024, .f32⟩
  | 94 => ⟨S_, .f32⟩
  | 95 => ⟨S8x8x1024, .f32⟩
  | 96 => ⟨S8x8x1024x1, .f32⟩
  | 97 => ⟨S8x8x1024x1024, .f32⟩
  | 98 => ⟨S8x8x1024x1024, .f32⟩
  | 99 => ⟨S8x8x1024x1024, .f32⟩
  | 100 => ⟨S_, .f32⟩
  | 101 => ⟨S8x8x1024x1024, .f32⟩
  | 102 => ⟨S8x8x1024x1024, .f32⟩
  | 103 => ⟨S_, .f32⟩
  | 104 => ⟨S8x8x1024, .f32⟩
  | 105 => ⟨S_, .f32⟩
  | 106 => ⟨S8x8x1024, .f32⟩
  | 107 => ⟨S8x8x1024, .f32⟩
  | 108 => ⟨S8x8x1024x1, .f32⟩
  | 109 => ⟨S8x8x1024x1024, .f32⟩
  | 110 => ⟨S8x8x1024x1024, .f32⟩
  | 111 => ⟨S8x8x1024x1024, .f32⟩
  | 112 => ⟨S_, .f32⟩
  | 113 => ⟨S8x8x1024, .f32⟩
  | 114 => ⟨S8x8x1024x1, .f32⟩
  | 115 => ⟨S8x8x1024x1024, .f32⟩
  | 116 => ⟨S8x8x1024x1024, .f32⟩
  | 117 => ⟨S_, .f32⟩
  | 118 => ⟨S8x8x1024x1024, .f32⟩
  | 119 => ⟨S8x8x1024x1024, .f32⟩
  | 120 => ⟨S_, .f32⟩
  | 121 => ⟨S8x8x1024x1024, .f32⟩
  | 122 => ⟨S8x8x1024x1024, .f32⟩
  | 123 => ⟨S8x8x1024x1024, .f32⟩
  | 124 => ⟨S_, .f32⟩
  | 125 => ⟨S8x8x1024x1024, .f32⟩
  | 126 => ⟨S8x8x1024x1024, .f32⟩
  | 127 => ⟨S_, .f32⟩
  | _ => ⟨S1024x8x512, .f32⟩

abbrev hbmTy0_1 (i : Nat) : BufTy := match i % 128 with
  | 0 => ⟨S8x8x1024x1024, .f32⟩
  | 1 => ⟨S8x8x1024x1024, .f32⟩
  | 2 => ⟨S8x8x1024x1024, .f32⟩
  | 3 => ⟨S8x8x1024x64, .f32⟩
  | 4 => ⟨S8x1024x8x64, .f32⟩
  | 5 => ⟨S8x1024x512, .f32⟩
  | 6 => ⟨S8x8x1024x64, .f32⟩
  | 7 => ⟨S8x1024x8x64, .f32⟩
  | 8 => ⟨S8x1024x512, .f32⟩
  | 9 => ⟨S1x512x512, .f32⟩
  | 10 => ⟨S512x512, .f32⟩
  | 11 => ⟨S8x1024x512, .f32⟩
  | 12 => ⟨S1x512, .f32⟩
  | 13 => ⟨S512, .f32⟩
  | 14 => ⟨S1x1x512, .f32⟩
  | 15 => ⟨S8x1024x512, .f32⟩
  | 16 => ⟨S8x1024x512, .f32⟩
  | 17 => ⟨S1x512x512, .f32⟩
  | 18 => ⟨S512x512, .f32⟩
  | 19 => ⟨S8x1024x512, .f32⟩
  | 20 => ⟨S1x512, .f32⟩
  | 21 => ⟨S512, .f32⟩
  | 22 => ⟨S1x1x512, .f32⟩
  | 23 => ⟨S8x1024x512, .f32⟩
  | 24 => ⟨S8x1024x512, .f32⟩
  | 25 => ⟨S8x1024x512, .f32⟩
  | 26 => ⟨S1x512, .f32⟩
  | 27 => ⟨S512, .f32⟩
  | 28 => ⟨S1x512, .f32⟩
  | 29 => ⟨S512, .f32⟩
  | 30 => ⟨S_, .f32⟩
  | 31 => ⟨S8x1024, .f32⟩
  | 32 => ⟨S8x1024x1, .f32⟩
  | 33 => ⟨S_, .f32⟩
  | 34 => ⟨S8x1024x1, .f32⟩
  | 35 => ⟨S8x1024x1, .f32⟩
  | 36 => ⟨S_, .i32⟩
  | 37 => ⟨S_, .f32⟩
  | 38 => ⟨S8x1024, .f32⟩
  | 39 => ⟨S8x1024x1, .f32⟩
  | 40 => ⟨S_, .f32⟩
  | 41 => ⟨S8x1024x1, .f32⟩
  | 42 => ⟨S8x1024x1, .f32⟩
  | 43 => ⟨S8x1024x512, .f32⟩
  | 44 => ⟨S8x1024x512, .f32⟩
  | 45 => ⟨S8x1024x512, .f32⟩
  | 46 => ⟨S_, .f32⟩
  | 47 => ⟨S_, .f32⟩
  | 48 => ⟨S_, .f32⟩
  | 49 => ⟨S_, .f32⟩
  | 50 => ⟨S8x1024, .f32⟩
  | 51 => ⟨S8x1024x1, .f32⟩
  | 52 => ⟨S8x1024x1, .f32⟩
  | 53 => ⟨S8x1024x1, .f32⟩
  | 54 => ⟨S_, .f32⟩
  | 55 => ⟨S_, .i1⟩
  | 56 => ⟨S_, .f32⟩
  | 57 => ⟨S_, .f32⟩
  | 58 => ⟨S8x1024x1, .f32⟩
  | 59 => ⟨S8x1024x1, .f32⟩
  | 60 => ⟨S8x1024x512, .f32⟩
  | 61 => ⟨S8x1024x512, .f32⟩
  | 62 => ⟨S_, .f32⟩
  | 63 => ⟨S8x1024x1, .f32⟩
  | 64 => ⟨S8x1024x1, .f32⟩
  | 65 => ⟨S8x1024x1, .f32⟩
  | 66 => ⟨S8x1024x512, .f32⟩
  | 67 => ⟨S8x1024x512, .f32⟩
  | 68 => ⟨S1x1x512, .f32⟩
  | 69 => ⟨S8x1024x512, .f32⟩
  | 70 => ⟨S8x1024x512, .f32⟩
  | 71 => ⟨S1x1x512, .f32⟩
  | 72 => ⟨S8x1024x512, .f32⟩
  | 73 => ⟨S8x1024x512, .f32⟩
  | 74 => ⟨S8x1024x2048, .f32⟩
  | 75 => ⟨S1x1x2048, .f32⟩
  | 76 => ⟨S8x1024x2048, .f32⟩
  | 77 => ⟨S8x1024x2048, .f32⟩
  | 78 => ⟨S_, .f32⟩
  | 79 => ⟨S8x1024x2048, .f32⟩
  | 80 => ⟨S8x1024x2048, .f32⟩
  | 81 => ⟨S8x1024x512, .f32⟩
  | 82 => ⟨S1x1x512, .f32⟩
  | 83 => ⟨S8x1024x512, .f32⟩
  | 84 => ⟨S8x1024x512, .f32⟩
  | 85 => ⟨S8x1024x512, .f32⟩
  | 86 => ⟨S1x512, .f32⟩
  | 87 => ⟨S512, .f32⟩
  | 88 => ⟨S1x512, .f32⟩
  | 89 => ⟨S512, .f32⟩
  | 90 => ⟨S_, .f32⟩
  | 91 => ⟨S8x1024, .f32⟩
  | 92 => ⟨S8x1024x1, .f32⟩
  | 93 => ⟨S_, .f32⟩
  | 94 => ⟨S8x1024x1, .f32⟩
  | 95 => ⟨S8x1024x1, .f32⟩
  | 96 => ⟨S_, .i32⟩
  | 97 => ⟨S_, .f32⟩
  | 98 => ⟨S8x1024, .f32⟩
  | 99 => ⟨S8x1024x1, .f32⟩
  | 100 => ⟨S_, .f32⟩
  | 101 => ⟨S8x1024x1, .f32⟩
  | 102 => ⟨S8x1024x1, .f32⟩
  | 103 => ⟨S8x1024x512, .f32⟩
  | 104 => ⟨S8x1024x512, .f32⟩
  | 105 => ⟨S8x1024x512, .f32⟩
  | 106 => ⟨S_, .f32⟩
  | 107 => ⟨S_, .f32⟩
  | 108 => ⟨S_, .f32⟩
  | 109 => ⟨S_, .f32⟩
  | 110 => ⟨S8x1024, .f32⟩
  | 111 => ⟨S8x1024x1, .f32⟩
  | 112 => ⟨S8x1024x1, .f32⟩
  | 113 => ⟨S8x1024x1, .f32⟩
  | 114 => ⟨S_, .f32⟩
  | 115 => ⟨S_, .i1⟩
  | 116 => ⟨S_, .f32⟩
  | 117 => ⟨S_, .f32⟩
  | 118 => ⟨S8x1024x1, .f32⟩
  | 119 => ⟨S8x1024x1, .f32⟩
  | 120 => ⟨S8x1024x512, .f32⟩
  | 121 => ⟨S8x1024x512, .f32⟩
  | 122 => ⟨S_, .f32⟩
  | 123 => ⟨S8x1024x1, .f32⟩
  | 124 => ⟨S8x1024x1, .f32⟩
  | 125 => ⟨S8x1024x1, .f32⟩
  | 126 => ⟨S8x1024x512, .f32⟩
  | 127 => ⟨S8x1024x512, .f32⟩
  | _ => ⟨S1024x8x512, .f32⟩

abbrev hbmTy0_2 (i : Nat) : BufTy := match i % 128 with
  | 0 => ⟨S1x1x512, .f32⟩
  | 1 => ⟨S8x1024x512, .f32⟩
  | 2 => ⟨S8x1024x512, .f32⟩
  | 3 => ⟨S1x1x512, .f32⟩
  | 4 => ⟨S8x1024x512, .f32⟩
  | 5 => ⟨S8x1024x512, .f32⟩
  | 6 => ⟨S8x1024x512, .f32⟩
  | 7 => ⟨S1x512, .f32⟩
  | 8 => ⟨S512, .f32⟩
  | 9 => ⟨S1x512, .f32⟩
  | 10 => ⟨S512, .f32⟩
  | 11 => ⟨S_, .f32⟩
  | 12 => ⟨S8x1024, .f32⟩
  | 13 => ⟨S8x1024x1, .f32⟩
  | 14 => ⟨S_, .f32⟩
  | 15 => ⟨S8x1024x1, .f32⟩
  | 16 => ⟨S8x1024x1, .f32⟩
  | 17 => ⟨S_, .i32⟩
  | 18 => ⟨S_, .f32⟩
  | 19 => ⟨S8x1024, .f32⟩
  | 20 => ⟨S8x1024x1, .f32⟩
  | 21 => ⟨S_, .f32⟩
  | 22 => ⟨S8x1024x1, .f32⟩
  | 23 => ⟨S8x1024x1, .f32⟩
  | 24 => ⟨S8x1024x512, .f32⟩
  | 25 => ⟨S8x1024x512, .f32⟩
  | 26 => ⟨S8x1024x512, .f32⟩
  | 27 => ⟨S_, .f32⟩
  | 28 => ⟨S_, .f32⟩
  | 29 => ⟨S_, .f32⟩
  | 30 => ⟨S_, .f32⟩
  | 31 => ⟨S8x1024, .f32⟩
  | 32 => ⟨S8x1024x1, .f32⟩
  | 33 => ⟨S8x1024x1, .f32⟩
  | 34 => ⟨S8x1024x1, .f32⟩
  | 35 => ⟨S_, .f32⟩
  | 36 => ⟨S_, .i1⟩
  | 37 => ⟨S_, .f32⟩
  | 38 => ⟨S_, .f32⟩
  | 39 => ⟨S8x1024x1, .f32⟩
  | 40 => ⟨S8x1024x1, .f32⟩
  | 41 => ⟨S8x1024x512, .f32⟩
  | 42 => ⟨S8x1024x512, .f32⟩
  | 43 => ⟨S_, .f32⟩
  | 44 => ⟨S8x1024x1, .f32⟩
  | 45 => ⟨S8x1024x1, .f32⟩
  | 46 => ⟨S8x1024x1, .f32⟩
  | 47 => ⟨S8x1024x512, .f32⟩
  | 48 => ⟨S8x1024x512, .f32⟩
  | 49 => ⟨S1x1x512, .f32⟩
  | 50 => ⟨S8x1024x512, .f32⟩
  | 51 => ⟨S8x1024x512, .f32⟩
  | 52 => ⟨S1x1x512, .f32⟩
  | 53 => ⟨S8x1024x512, .f32⟩
  | 54 => ⟨S8x1024x512, .f32⟩
  | 55 => ⟨S8x1024x2048, .f32⟩
  | 56 => ⟨S1x1x2048, .f32⟩
  | 57 => ⟨S8x1024x2048, .f32⟩
  | 58 => ⟨S8x1024x2048, .f32⟩
  | 59 => ⟨S_, .f32⟩
  | 60 => ⟨S8x1024x2048, .f32⟩
  | 61 => ⟨S8x1024x2048, .f32⟩
  | 62 => ⟨S8x1024x512, .f32⟩
  | 63 => ⟨S1x1x512, .f32⟩
  | 64 => ⟨S8x1024x512, .f32⟩
  | 65 => ⟨S8x1024x512, .f32⟩
  | 66 => ⟨S8x1024x512, .f32⟩
  | 67 => ⟨S1x512, .f32⟩
  | 68 => ⟨S512, .f32⟩
  | 69 => ⟨S1x512, .f32⟩
  | 70 => ⟨S512, .f32⟩
  | 71 => ⟨S_, .f32⟩
  | 72 => ⟨S8x1024, .f32⟩
  | 73 => ⟨S8x1024x1, .f32⟩
  | 74 => ⟨S_, .f32⟩
  | 75 => ⟨S8x1024x1, .f32⟩
  | 76 => ⟨S8x1024x1, .f32⟩
  | 77 => ⟨S_, .i32⟩
  | 78 => ⟨S_, .f32⟩
  | 79 => ⟨S8x1024, .f32⟩
  | 80 => ⟨S8x1024x1, .f32⟩
  | 81 => ⟨S_, .f32⟩
  | 82 => ⟨S8x1024x1, .f32⟩
  | 83 => ⟨S8x1024x1, .f32⟩
  | 84 => ⟨S8x1024x512, .f32⟩
  | 85 => ⟨S8x1024x512, .f32⟩
  | 86 => ⟨S8x1024x512, .f32⟩
  | 87 => ⟨S_, .f32⟩
  | 88 => ⟨S_, .f32⟩
  | 89 => ⟨S_, .f32⟩
  | 90 => ⟨S_, .f32⟩
  | 91 => ⟨S8x1024, .f32⟩
  | 92 => ⟨S8x1024x1, .f32⟩
  | 93 => ⟨S8x1024x1, .f32⟩
  | 94 => ⟨S8x1024x1, .f32⟩
  | 95 => ⟨S_, .f32⟩
  | 96 => ⟨S_, .i1⟩
  | 97 => ⟨S_, .f32⟩
  | 98 => ⟨S_, .f32⟩
  | 99 => ⟨S8x1024x1, .f32⟩
  | 100 => ⟨S8x1024x1, .f32⟩
  | 101 => ⟨S8x1024x512, .f32⟩
  | 102 => ⟨S8x1024x512, .f32⟩
  | 103 => ⟨S_, .f32⟩
  | 104 => ⟨S8x1024x1, .f32⟩
  | 105 => ⟨S8x1024x1, .f32⟩
  | 106 => ⟨S8x1024x1, .f32⟩
  | 107 => ⟨S8x1024x512, .f32⟩
  | 108 => ⟨S8x1024x512, .f32⟩
  | 109 => ⟨S1x1x512, .f32⟩
  | 110 => ⟨S8x1024x512, .f32⟩
  | 111 => ⟨S8x1024x512, .f32⟩
  | 112 => ⟨S1x1x512, .f32⟩
  | 113 => ⟨S8x1024x512, .f32⟩
  | 114 => ⟨S8x1024x512, .f32⟩
  | 115 => ⟨S1024x8x512, .f32⟩
  | 116 => ⟨S1024x8x512, .f32⟩
  | _ => ⟨S1024x8x512, .f32⟩

abbrev hbmTy (i : Nat) : BufTy := match i / 128 with
  | 0 => hbmTy0_0 i
  | 1 => hbmTy0_1 i
  | 2 => hbmTy0_2 i
  | _ => ⟨S1024x8x512, .f32⟩

abbrev bufTy : (tb : Table) → Fin (tcTables nBuf tb) → BufTy
  | .hbm, ⟨i, _⟩ => hbmTy i
  | _, _ => ⟨S1024x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst : Ref sig .tc := ⟨.hbm, 82, rfl⟩
abbrev main_v65 : Ref sig .tc := ⟨.hbm, 83, rfl⟩
abbrev main_v66 : Ref sig .tc := ⟨.hbm, 84, rfl⟩
abbrev main_cst_0 : Ref sig .tc := ⟨.hbm, 85, rfl⟩
abbrev main_v67 : Ref sig .tc := ⟨.hbm, 86, rfl⟩
abbrev main_cst_1 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_2 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_3 : Ref sig .tc := ⟨.hbm, 100, rfl⟩
abbrev main_v79 : Ref sig .tc := ⟨.hbm, 101, rfl⟩
abbrev main_v80 : Ref sig .tc := ⟨.hbm, 102, rfl⟩
abbrev main_cst_4 : Ref sig .tc := ⟨.hbm, 103, rfl⟩
abbrev main_v81 : Ref sig .tc := ⟨.hbm, 104, rfl⟩
abbrev main_cst_5 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_6 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_7 : Ref sig .tc := ⟨.hbm, 117, rfl⟩
abbrev main_v92 : Ref sig .tc := ⟨.hbm, 118, rfl⟩
abbrev main_v93 : Ref sig .tc := ⟨.hbm, 119, rfl⟩
abbrev main_cst_8 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_9 : Ref sig .tc := ⟨.hbm, 124, rfl⟩
abbrev main_v97 : Ref sig .tc := ⟨.hbm, 125, rfl⟩
abbrev main_v98 : Ref sig .tc := ⟨.hbm, 126, rfl⟩
abbrev main_cst_10 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_cst_11 : Ref sig .tc := ⟨.hbm, 158, rfl⟩
abbrev main_v129 : Ref sig .tc := ⟨.hbm, 159, rfl⟩
abbrev main_v130 : Ref sig .tc := ⟨.hbm, 160, rfl⟩
abbrev main_cst_12 : Ref sig .tc := ⟨.hbm, 161, rfl⟩
abbrev main_v131 : Ref sig .tc := ⟨.hbm, 162, rfl⟩
abbrev main_v132 : Ref sig .tc := ⟨.hbm, 163, rfl⟩
abbrev main_c : Ref sig .tc := ⟨.hbm, 164, rfl⟩
abbrev main_call0_cst : Ref sig .tc := ⟨.hbm, 165, rfl⟩
abbrev main_call0_v0 : Ref sig .tc := ⟨.hbm, 166, rfl⟩
abbrev main_call0_v1 : Ref sig .tc := ⟨.hbm, 167, rfl⟩
abbrev main_call0_cst_0 : Ref sig .tc := ⟨.hbm, 168, rfl⟩
abbrev main_call0_v2 : Ref sig .tc := ⟨.hbm, 169, rfl⟩
abbrev main_call0_v3 : Ref sig .tc := ⟨.hbm, 170, rfl⟩
abbrev main_call0_v4 : Ref sig .tc := ⟨.hbm, 171, rfl⟩
abbrev main_call0_v5 : Ref sig .tc := ⟨.hbm, 172, rfl⟩
abbrev main_call0_v6 : Ref sig .tc := ⟨.hbm, 173, rfl⟩
abbrev main_call0_v7 : Ref sig .tc := ⟨.hbm, 174, rfl⟩
abbrev main_call0_cst_1 : Ref sig .tc := ⟨.hbm, 175, rfl⟩
abbrev main_call0_v8 : Ref sig .tc := ⟨.hbm, 176, rfl⟩
abbrev main_call0_cst_2 : Ref sig .tc := ⟨.hbm, 177, rfl⟩
abbrev main_call0_v9 : Ref sig .tc := ⟨.hbm, 178, rfl⟩
abbrev main_call0_v10 : Ref sig .tc := ⟨.hbm, 179, rfl⟩
abbrev main_call0_v11 : Ref sig .tc := ⟨.hbm, 180, rfl⟩
abbrev main_call0_v12 : Ref sig .tc := ⟨.hbm, 181, rfl⟩
abbrev main_call0_cst_3 : Ref sig .tc := ⟨.hbm, 182, rfl⟩
abbrev main_call0_v13 : Ref sig .tc := ⟨.hbm, 183, rfl⟩
abbrev main_call0_cst_4 : Ref sig .tc := ⟨.hbm, 184, rfl⟩
abbrev main_call0_call0_v0 : Ref sig .tc := ⟨.hbm, 185, rfl⟩
abbrev main_call0_call0_v1 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_cst_13 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_call1_cst : Ref sig .tc := ⟨.hbm, 206, rfl⟩
abbrev main_call1_v0 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_cst_14 : Ref sig .tc := ⟨.hbm, 218, rfl⟩
abbrev main_v161 : Ref sig .tc := ⟨.hbm, 219, rfl⟩
abbrev main_v162 : Ref sig .tc := ⟨.hbm, 220, rfl⟩
abbrev main_cst_15 : Ref sig .tc := ⟨.hbm, 221, rfl⟩
abbrev main_v163 : Ref sig .tc := ⟨.hbm, 222, rfl⟩
abbrev main_v164 : Ref sig .tc := ⟨.hbm, 223, rfl⟩
abbrev main_c_16 : Ref sig .tc := ⟨.hbm, 224, rfl⟩
abbrev main_call2_cst : Ref sig .tc := ⟨.hbm, 225, rfl⟩
abbrev main_call2_v0 : Ref sig .tc := ⟨.hbm, 226, rfl⟩
abbrev main_call2_v1 : Ref sig .tc := ⟨.hbm, 227, rfl⟩
abbrev main_call2_cst_0 : Ref sig .tc := ⟨.hbm, 228, rfl⟩
abbrev main_call2_v2 : Ref sig .tc := ⟨.hbm, 229, rfl⟩
abbrev main_call2_v3 : Ref sig .tc := ⟨.hbm, 230, rfl⟩
abbrev main_call2_v4 : Ref sig .tc := ⟨.hbm, 231, rfl⟩
abbrev main_call2_v5 : Ref sig .tc := ⟨.hbm, 232, rfl⟩
abbrev main_call2_v6 : Ref sig .tc := ⟨.hbm, 233, rfl⟩
abbrev main_call2_v7 : Ref sig .tc := ⟨.hbm, 234, rfl⟩
abbrev main_call2_cst_1 : Ref sig .tc := ⟨.hbm, 235, rfl⟩
abbrev main_call2_v8 : Ref sig .tc := ⟨.hbm, 236, rfl⟩
abbrev main_call2_cst_2 : Ref sig .tc := ⟨.hbm, 237, rfl⟩
abbrev main_call2_v9 : Ref sig .tc := ⟨.hbm, 238, rfl⟩
abbrev main_call2_v10 : Ref sig .tc := ⟨.hbm, 239, rfl⟩
abbrev main_call2_v11 : Ref sig .tc := ⟨.hbm, 240, rfl⟩
abbrev main_call2_v12 : Ref sig .tc := ⟨.hbm, 241, rfl⟩
abbrev main_call2_cst_3 : Ref sig .tc := ⟨.hbm, 242, rfl⟩
abbrev main_call2_v13 : Ref sig .tc := ⟨.hbm, 243, rfl⟩
abbrev main_call2_cst_4 : Ref sig .tc := ⟨.hbm, 244, rfl⟩
abbrev main_call2_call0_v0 : Ref sig .tc := ⟨.hbm, 245, rfl⟩
abbrev main_call2_call0_v1 : Ref sig .tc := ⟨.hbm, 246, rfl⟩
abbrev main_v165 : Ref sig .tc := ⟨.hbm, 247, rfl⟩
abbrev main_v166 : Ref sig .tc := ⟨.hbm, 248, rfl⟩
abbrev main_v167 : Ref sig .tc := ⟨.hbm, 249, rfl⟩
abbrev main_cst_17 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_v171 : Ref sig .tc := ⟨.hbm, 254, rfl⟩
abbrev main_v172 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_cst_18 : Ref sig .tc := ⟨.hbm, 267, rfl⟩
abbrev main_v184 : Ref sig .tc := ⟨.hbm, 268, rfl⟩
abbrev main_v185 : Ref sig .tc := ⟨.hbm, 269, rfl⟩
abbrev main_cst_19 : Ref sig .tc := ⟨.hbm, 270, rfl⟩
abbrev main_v186 : Ref sig .tc := ⟨.hbm, 271, rfl⟩
abbrev main_v187 : Ref sig .tc := ⟨.hbm, 272, rfl⟩
abbrev main_c_20 : Ref sig .tc := ⟨.hbm, 273, rfl⟩
abbrev main_call3_cst : Ref sig .tc := ⟨.hbm, 274, rfl⟩
abbrev main_call3_v0 : Ref sig .tc := ⟨.hbm, 275, rfl⟩
abbrev main_call3_v1 : Ref sig .tc := ⟨.hbm, 276, rfl⟩
abbrev main_call3_cst_0 : Ref sig .tc := ⟨.hbm, 277, rfl⟩
abbrev main_call3_v2 : Ref sig .tc := ⟨.hbm, 278, rfl⟩
abbrev main_call3_v3 : Ref sig .tc := ⟨.hbm, 279, rfl⟩
abbrev main_call3_v4 : Ref sig .tc := ⟨.hbm, 280, rfl⟩
abbrev main_call3_v5 : Ref sig .tc := ⟨.hbm, 281, rfl⟩
abbrev main_call3_v6 : Ref sig .tc := ⟨.hbm, 282, rfl⟩
abbrev main_call3_v7 : Ref sig .tc := ⟨.hbm, 283, rfl⟩
abbrev main_call3_cst_1 : Ref sig .tc := ⟨.hbm, 284, rfl⟩
abbrev main_call3_v8 : Ref sig .tc := ⟨.hbm, 285, rfl⟩
abbrev main_call3_cst_2 : Ref sig .tc := ⟨.hbm, 286, rfl⟩
abbrev main_call3_v9 : Ref sig .tc := ⟨.hbm, 287, rfl⟩
abbrev main_call3_v10 : Ref sig .tc := ⟨.hbm, 288, rfl⟩
abbrev main_call3_v11 : Ref sig .tc := ⟨.hbm, 289, rfl⟩
abbrev main_call3_v12 : Ref sig .tc := ⟨.hbm, 290, rfl⟩
abbrev main_call3_cst_3 : Ref sig .tc := ⟨.hbm, 291, rfl⟩
abbrev main_call3_v13 : Ref sig .tc := ⟨.hbm, 292, rfl⟩
abbrev main_call3_cst_4 : Ref sig .tc := ⟨.hbm, 293, rfl⟩
abbrev main_call3_call0_v0 : Ref sig .tc := ⟨.hbm, 294, rfl⟩
abbrev main_call3_call0_v1 : Ref sig .tc := ⟨.hbm, 295, rfl⟩
abbrev main_v188 : Ref sig .tc := ⟨.hbm, 296, rfl⟩
abbrev main_v189 : Ref sig .tc := ⟨.hbm, 297, rfl⟩
abbrev main_v190 : Ref sig .tc := ⟨.hbm, 298, rfl⟩
abbrev main_cst_21 : Ref sig .tc := ⟨.hbm, 299, rfl⟩
abbrev main_v191 : Ref sig .tc := ⟨.hbm, 300, rfl⟩
abbrev main_v192 : Ref sig .tc := ⟨.hbm, 301, rfl⟩
abbrev main_v193 : Ref sig .tc := ⟨.hbm, 302, rfl⟩
abbrev main_v194 : Ref sig .tc := ⟨.hbm, 303, rfl⟩
abbrev main_v195 : Ref sig .tc := ⟨.hbm, 304, rfl⟩
abbrev main_v196 : Ref sig .tc := ⟨.hbm, 305, rfl⟩
abbrev main_v197 : Ref sig .tc := ⟨.hbm, 306, rfl⟩
abbrev main_v198 : Ref sig .tc := ⟨.hbm, 307, rfl⟩
abbrev main_v199 : Ref sig .tc := ⟨.hbm, 308, rfl⟩
abbrev main_v200 : Ref sig .tc := ⟨.hbm, 309, rfl⟩
abbrev main_v201 : Ref sig .tc := ⟨.hbm, 310, rfl⟩
abbrev main_v202 : Ref sig .tc := ⟨.hbm, 311, rfl⟩
abbrev main_v203 : Ref sig .tc := ⟨.hbm, 312, rfl⟩
abbrev main_v204 : Ref sig .tc := ⟨.hbm, 313, rfl⟩
abbrev main_v205 : Ref sig .tc := ⟨.hbm, 314, rfl⟩
abbrev main_call4_cst : Ref sig .tc := ⟨.hbm, 315, rfl⟩
abbrev main_call4_v0 : Ref sig .tc := ⟨.hbm, 316, rfl⟩
abbrev main_v206 : Ref sig .tc := ⟨.hbm, 317, rfl⟩
abbrev main_v207 : Ref sig .tc := ⟨.hbm, 318, rfl⟩
abbrev main_v208 : Ref sig .tc := ⟨.hbm, 319, rfl⟩
abbrev main_v209 : Ref sig .tc := ⟨.hbm, 320, rfl⟩
abbrev main_v210 : Ref sig .tc := ⟨.hbm, 321, rfl⟩
abbrev main_v211 : Ref sig .tc := ⟨.hbm, 322, rfl⟩
abbrev main_v212 : Ref sig .tc := ⟨.hbm, 323, rfl⟩
abbrev main_v213 : Ref sig .tc := ⟨.hbm, 324, rfl⟩
abbrev main_v214 : Ref sig .tc := ⟨.hbm, 325, rfl⟩
abbrev main_v215 : Ref sig .tc := ⟨.hbm, 326, rfl⟩
abbrev main_cst_22 : Ref sig .tc := ⟨.hbm, 327, rfl⟩
abbrev main_v216 : Ref sig .tc := ⟨.hbm, 328, rfl⟩
abbrev main_v217 : Ref sig .tc := ⟨.hbm, 329, rfl⟩
abbrev main_cst_23 : Ref sig .tc := ⟨.hbm, 330, rfl⟩
abbrev main_v218 : Ref sig .tc := ⟨.hbm, 331, rfl⟩
abbrev main_v219 : Ref sig .tc := ⟨.hbm, 332, rfl⟩
abbrev main_c_24 : Ref sig .tc := ⟨.hbm, 333, rfl⟩
abbrev main_call5_cst : Ref sig .tc := ⟨.hbm, 334, rfl⟩
abbrev main_call5_v0 : Ref sig .tc := ⟨.hbm, 335, rfl⟩
abbrev main_call5_v1 : Ref sig .tc := ⟨.hbm, 336, rfl⟩
abbrev main_call5_cst_0 : Ref sig .tc := ⟨.hbm, 337, rfl⟩
abbrev main_call5_v2 : Ref sig .tc := ⟨.hbm, 338, rfl⟩
abbrev main_call5_v3 : Ref sig .tc := ⟨.hbm, 339, rfl⟩
abbrev main_call5_v4 : Ref sig .tc := ⟨.hbm, 340, rfl⟩
abbrev main_call5_v5 : Ref sig .tc := ⟨.hbm, 341, rfl⟩
abbrev main_call5_v6 : Ref sig .tc := ⟨.hbm, 342, rfl⟩
abbrev main_call5_v7 : Ref sig .tc := ⟨.hbm, 343, rfl⟩
abbrev main_call5_cst_1 : Ref sig .tc := ⟨.hbm, 344, rfl⟩
abbrev main_call5_v8 : Ref sig .tc := ⟨.hbm, 345, rfl⟩
abbrev main_call5_cst_2 : Ref sig .tc := ⟨.hbm, 346, rfl⟩
abbrev main_call5_v9 : Ref sig .tc := ⟨.hbm, 347, rfl⟩
abbrev main_call5_v10 : Ref sig .tc := ⟨.hbm, 348, rfl⟩
abbrev main_call5_v11 : Ref sig .tc := ⟨.hbm, 349, rfl⟩
abbrev main_call5_v12 : Ref sig .tc := ⟨.hbm, 350, rfl⟩
abbrev main_call5_cst_3 : Ref sig .tc := ⟨.hbm, 351, rfl⟩
abbrev main_call5_v13 : Ref sig .tc := ⟨.hbm, 352, rfl⟩
abbrev main_call5_cst_4 : Ref sig .tc := ⟨.hbm, 353, rfl⟩
abbrev main_call5_call0_v0 : Ref sig .tc := ⟨.hbm, 354, rfl⟩
abbrev main_call5_call0_v1 : Ref sig .tc := ⟨.hbm, 355, rfl⟩
abbrev main_v220 : Ref sig .tc := ⟨.hbm, 356, rfl⟩
abbrev main_v221 : Ref sig .tc := ⟨.hbm, 357, rfl⟩
abbrev main_v222 : Ref sig .tc := ⟨.hbm, 358, rfl⟩
abbrev main_cst_25 : Ref sig .tc := ⟨.hbm, 359, rfl⟩
abbrev main_v223 : Ref sig .tc := ⟨.hbm, 360, rfl⟩
abbrev main_v224 : Ref sig .tc := ⟨.hbm, 361, rfl⟩
abbrev main_v225 : Ref sig .tc := ⟨.hbm, 362, rfl⟩
abbrev main_v226 : Ref sig .tc := ⟨.hbm, 363, rfl⟩
abbrev main_v227 : Ref sig .tc := ⟨.hbm, 364, rfl⟩
abbrev main_v228 : Ref sig .tc := ⟨.hbm, 365, rfl⟩
abbrev main_v229 : Ref sig .tc := ⟨.hbm, 366, rfl⟩
abbrev main_v230 : Ref sig .tc := ⟨.hbm, 367, rfl⟩
abbrev main_v231 : Ref sig .tc := ⟨.hbm, 368, rfl⟩
abbrev main_v232 : Ref sig .tc := ⟨.hbm, 369, rfl⟩
abbrev main_v233 : Ref sig .tc := ⟨.hbm, 370, rfl⟩
abbrev main_v234 : Ref sig .tc := ⟨.hbm, 371, rfl⟩
abbrev main_v235 : Ref sig .tc := ⟨.hbm, 372, rfl⟩

abbrev nD : Nat := 1
abbrev τ : Topo := Topo.v7x

variable {F : FTy → Type} [FloatOps F]

class Facts₀ : Prop where
  transposes_S1024x8x512_S8x1024x512_1_0_2 : S1024x8x512.Transposes [1, 0, 2] S8x1024x512
  slices_S4x512x512_S1x512x512_0_0_0 : S4x512x512.Slices ![0, 0, 0] S1x512x512
  shapeCasts_S1x512x512_S512x512 : S1x512x512.ShapeCasts S512x512
  slices_S4x512_S1x512_0_0 : S4x512.Slices ![0, 0] S1x512
  shapeCasts_S1x512_S512 : S1x512.ShapeCasts S512
  bcast_S512_S1x1x512_2 : S512.BroadcastsInDim S1x1x512 (![2] : Fin 1 → Fin S1x1x512.rank)
  bcast_S1x1x512_S8x1024x512_0_1_2 : S1x1x512.BroadcastsInDim S8x1024x512 (![0, 1, 2] : Fin 3 → Fin S8x1024x512.rank)
  shapeCasts_S8x1024x512_S8x1024x8x64 : S8x1024x512.ShapeCasts S8x1024x8x64
  transposes_S8x1024x8x64_S8x8x1024x64_0_2_1_3 : S8x1024x8x64.Transposes [0, 2, 1, 3] S8x8x1024x64
  slices_S4x512x512_S1x512x512_1_0_0 : S4x512x512.Slices ![1, 0, 0] S1x512x512
  slices_S4x512_S1x512_1_0 : S4x512.Slices ![1, 0] S1x512
  slices_S4x512x512_S1x512x512_2_0_0 : S4x512x512.Slices ![2, 0, 0] S1x512x512
  slices_S4x512_S1x512_2_0 : S4x512.Slices ![2, 0] S1x512
  bcast_S_S8x8x1024x1024 : S_.BroadcastsInDim S8x8x1024x1024 (![] : Fin 0 → Fin S8x8x1024x1024.rank)
  reducesTo_S8x8x1024x1024_S8x8x1024_d3 : S8x8x1024x1024.ReducesTo [3] S8x8x1024
  h_S_ : 0 < S_.numel
  bcast_S_S8x8x1024 : S_.BroadcastsInDim S8x8x1024 (![] : Fin 0 → Fin S8x8x1024.rank)
  bcast_S8x8x1024_S8x8x1024x1_0_1_2 : S8x8x1024.BroadcastsInDim S8x8x1024x1 (![0, 1, 2] : Fin 3 → Fin S8x8x1024x1.rank)
  bcast_S8x8x1024x1_S8x8x1024x1024_0_1_2_3 : S8x8x1024x1.BroadcastsInDim S8x8x1024x1024 (![0, 1, 2, 3] : Fin 4 → Fin S8x8x1024x1024.rank)
  transposes_S8x8x1024x64_S8x1024x8x64_0_2_1_3 : S8x8x1024x64.Transposes [0, 2, 1, 3] S8x1024x8x64
  shapeCasts_S8x1024x8x64_S8x1024x512 : S8x1024x8x64.ShapeCasts S8x1024x512
  slices_S4x512x512_S1x512x512_3_0_0 : S4x512x512.Slices ![3, 0, 0] S1x512x512
  slices_S4x512_S1x512_3_0 : S4x512.Slices ![3, 0] S1x512
  reducesTo_S8x1024x512_S8x1024_d2 : S8x1024x512.ReducesTo [2] S8x1024
  bcast_S8x1024_S8x1024x1_0_1 : S8x1024.BroadcastsInDim S8x1024x1 (![0, 1] : Fin 2 → Fin S8x1024x1.rank)
  bcast_S_S8x1024x1 : S_.BroadcastsInDim S8x1024x1 (![] : Fin 0 → Fin S8x1024x1.rank)
  bcast_S8x1024x1_S8x1024x512_0_1_2 : S8x1024x1.BroadcastsInDim S8x1024x512 (![0, 1, 2] : Fin 3 → Fin S8x1024x512.rank)
  bcast_S2048_S1x1x2048_2 : S2048.BroadcastsInDim S1x1x2048 (![2] : Fin 1 → Fin S1x1x2048.rank)
  bcast_S1x1x2048_S8x1024x2048_0_1_2 : S1x1x2048.BroadcastsInDim S8x1024x2048 (![0, 1, 2] : Fin 3 → Fin S8x1024x2048.rank)
  bcast_S_S8x1024x2048 : S_.BroadcastsInDim S8x1024x2048 (![] : Fin 0 → Fin S8x1024x2048.rank)
  transposes_S8x1024x512_S1024x8x512_1_0_2 : S8x1024x512.Transposes [1, 0, 2] S1024x8x512
  dot_S8x1024x512_S512x512_S8x1024x512_2_1_01_0_n_n_wf : DotDims.WF S8x1024x512 S512x512 S8x1024x512 [2] [1] [0, 1] [0] [] []
  dot_S8x8x1024x64_S8x8x1024x64_S8x8x1024x1024_3_3_2_2_01_01_wf : DotDims.WF S8x8x1024x64 S8x8x1024x64 S8x8x1024x1024 [3] [3] [2] [2] [0, 1] [0, 1]
  dot_S8x8x1024x1024_S8x8x1024x64_S8x8x1024x64_3_2_2_3_01_01_wf : DotDims.WF S8x8x1024x1024 S8x8x1024x64 S8x8x1024x64 [3] [2] [2] [3] [0, 1] [0, 1]
  dot_S8x1024x512_S2048x512_S8x1024x2048_2_1_01_0_n_n_wf : DotDims.WF S8x1024x512 S2048x512 S8x1024x2048 [2] [1] [0, 1] [0] [] []
  dot_S8x1024x2048_S512x2048_S8x1024x512_2_1_01_0_n_n_wf : DotDims.WF S8x1024x2048 S512x2048 S8x1024x512 [2] [1] [0, 1] [0] [] []

variable [Facts₀]

def dot_S8x1024x512_S512x512_S8x1024x512_2_1_01_0_n_n : DotDims S8x1024x512 S512x512 S8x1024x512 where
  lhsContracting := [2]
  rhsContracting := [1]
  lhsNonContracting := [0, 1]
  rhsNonContracting := [0]
  lhsBatch := []
  rhsBatch := []
  wf := dot_S8x1024x512_S512x512_S8x1024x512_2_1_01_0_n_n_wf
def dot_S8x8x1024x64_S8x8x1024x64_S8x8x1024x1024_3_3_2_2_01_01 : DotDims S8x8x1024x64 S8x8x1024x64 S8x8x1024x1024 where
  lhsContracting := [3]
  rhsContracting := [3]
  lhsNonContracting := [2]
  rhsNonContracting := [2]
  lhsBatch := [0, 1]
  rhsBatch := [0, 1]
  wf := dot_S8x8x1024x64_S8x8x1024x64_S8x8x1024x1024_3_3_2_2_01_01_wf
def dot_S8x8x1024x1024_S8x8x1024x64_S8x8x1024x64_3_2_2_3_01_01 : DotDims S8x8x1024x1024 S8x8x1024x64 S8x8x1024x64 where
  lhsContracting := [3]
  rhsContracting := [2]
  lhsNonContracting := [2]
  rhsNonContracting := [3]
  lhsBatch := [0, 1]
  rhsBatch := [0, 1]
  wf := dot_S8x8x1024x1024_S8x8x1024x64_S8x8x1024x64_3_2_2_3_01_01_wf
def dot_S8x1024x512_S2048x512_S8x1024x2048_2_1_01_0_n_n : DotDims S8x1024x512 S2048x512 S8x1024x2048 where
  lhsContracting := [2]
  rhsContracting := [1]
  lhsNonContracting := [0, 1]
  rhsNonContracting := [0]
  lhsBatch := []
  rhsBatch := []
  wf := dot_S8x1024x512_S2048x512_S8x1024x2048_2_1_01_0_n_n_wf
def dot_S8x1024x2048_S512x2048_S8x1024x512_2_1_01_0_n_n : DotDims S8x1024x2048 S512x2048 S8x1024x512 where
  lhsContracting := [2]
  rhsContracting := [1]
  lhsNonContracting := [0, 1]
  rhsNonContracting := [0]
  lhsBatch := []
  rhsBatch := []
  wf := dot_S8x1024x2048_S512x2048_S8x1024x512_2_1_01_0_n_n_wf

class Facts : Prop extends Facts₀ where

variable [Facts]
-- ==== Proof.WBody0.lean ====

import proofs.«400912_j69947837382775_3_alg».proof.Proof.Gen.Kernel.Launch
import proofs.«400912_j69947837382775_3_alg».proof.Proof.Gen.Kernel.Skeleton
import proofs.«400912_j69947837382775_3_alg».proof.Proof.Gen.Kernel.Loops
import proofs.«400912_j69947837382775_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rX : Rect S1x1024x512 := Rect.unit (s := S1x1024x512) ![0, 0, 0] S1x1024x512.size inb_S1x1024x512_S1x1024x512_0_0_0

abbrev rW : Rect S512x512 := Rect.unit (s := S512x512) ![0, 0] S512x512.size inb_S512x512_S512x512_0_0

abbrev rB0 : Rect S4x512 := Rect.unit (s := S4x512) ![0, 0] S1x512.size inb_S4x512_S1x512_0_0
abbrev rB1 : Rect S4x512 := Rect.unit (s := S4x512) ![1, 0] S1x512.size inb_S4x512_S1x512_1_0
abbrev rB2 : Rect S4x512 := Rect.unit (s := S4x512) ![2, 0] S1x512.size inb_S4x512_S1x512_2_0
abbrev rB3 : Rect S4x512 := Rect.unit (s := S4x512) ![3, 0] S1x512.size inb_S4x512_S1x512_3_0

abbrev rA : Rect S1024x512 := Rect.unit (s := S1024x512) ![0, 0] S1024x512.size inb_S1024x512_S1024x512_0_0

abbrev rH (k : Fin k0_t1_loop.trips) : Rect S1024x512 := Rect.unit (s := S1024x512) (k0_off1 k) S1024x128.size (k0_off1_inb k)

section Pair
variable (a18 a19 a20 a21 a22 a23 : Vec F S1024x128 .bf16)

-- One head pair's 128 result columns of the first stream, from the pair's columns of the six projections: both streams' exponentiated scores weigh the values before the division by the row sums and the half-and-half mix.
def pair24 : FVec F S1024x128 .bf16 :=
  k0_pay55
    (k0_pay17 (k0_pay4 a20 a23)
      (k0_pay9 (k0_pay4 a20 a23) (k0_pay6 (k0_pay5 a18 a19) (k0_pay5 a18 a19)) (k0_pay6 (k0_pay5 a18 a19) (k0_pay5 a18 a19)))
      (k0_pay13 (k0_pay12 (k0_pay11 (k0_pay2 a21) (k0_pay3 a22)) (k0_pay11 (k0_pay2 a21) (k0_pay3 a22))))
      (k0_pay14 (k0_pay12 (k0_pay11 (k0_pay2 a21) (k0_pay3 a22)) (k0_pay11 (k0_pay2 a21) (k0_pay3 a22)))))
    (k0_pay21 a20 a23)
    (k0_pay27 (k0_pay21 a20 a23) (k0_pay24 (k0_pay23 (k0_pay22 a18 a19) (k0_pay22 a18 a19))) (k0_pay24 (k0_pay23 (k0_pay22 a18 a19) (k0_pay22 a18 a19))))
    (k0_pay31 (k0_pay30 (k0_pay29 (k0_pay19 a21) (k0_pay20 a22)) (k0_pay29 (k0_pay19 a21) (k0_pay20 a22))))
    (k0_pay30 (k0_pay29 (k0_pay19 a21) (k0_pay20 a22)) (k0_pay29 (k0_pay19 a21) (k0_pay20 a22)))

def pair25 : FVec F S1024x128 .bf16 :=
  k0_pay56
    (k0_pay18 (k0_pay4 a20 a23)
      (k0_pay10 (k0_pay4 a20 a23) (k0_pay6 (k0_pay5 a18 a19) (k0_pay5 a18 a19)) (k0_pay6 (k0_pay5 a18 a19) (k0_pay5 a18 a19)))
      (k0_pay13 (k0_pay12 (k0_pay11 (k0_pay2 a21) (k0_pay3 a22)) (k0_pay11 (k0_pay2 a21) (k0_pay3 a22))))
      (k0_pay14 (k0_pay12 (k0_pay11 (k0_pay2 a21) (k0_pay3 a22)) (k0_pay11 (k0_pay2 a21) (k0_pay3 a22)))))
    (k0_pay21 a20 a23)
    (k0_pay28 (k0_pay21 a20 a23) (k0_pay24 (k0_pay23 (k0_pay22 a18 a19) (k0_pay22 a18 a19))) (k0_pay24 (k0_pay23 (k0_pay22 a18 a19) (k0_pay22 a18 a19))))
    (k0_pay31 (k0_pay30 (k0_pay29 (k0_pay19 a21) (k0_pay20 a22)) (k0_pay29 (k0_pay19 a21) (k0_pay20 a22))))
    (k0_pay30 (k0_pay29 (k0_pay19 a21) (k0_pay20 a22)) (k0_pay29 (k0_pay19 a21) (k0_pay20 a22)))

end Pair

section Loop
variable {𝒱 : Variants} {c : Dev nD} {bd : Option 𝒱.V} {i : grid0.Coords}
  {arg1 arg2 arg3 arg16 arg17 : Memref sig .tc .vmem S1x1024x512 .f32}
  {arg4 arg5 arg6 arg7 arg8 arg9 arg10 arg11 : Memref sig .tc .vmem S512x512 .bf16}
  {arg12 arg13 arg14 arg15 : Memref sig .tc .vmem S4x512 .f32}
  {arg18 arg19 arg20 arg21 arg22 arg23 arg24 arg25 : Memref sig .tc .vmem S1024x512 .bf16}
  {arg26 : Memref sig .tc .vmem S1024x1024 .f32}
  {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole} {harg17 : arg17.IsWhole} {harg18 : arg18.IsWhole} {harg19 : arg19.IsWhole} {harg20 : arg20.IsWhole} {harg21 : arg21.IsWhole} {harg22 : arg22.IsWhole} {harg23 : arg23.IsWhole} {harg24 : arg24.IsWhole} {harg25 : arg25.IsWhole} {harg26 : arg26.IsWhole}
  {v1 v3 : FVec F S1024x512 .f32} {v9 : FVec F S1024x512 .bf16} {v17 v21 v23 v25 : FVec F S512 .f32} {v67 : FVec F S512x512 .bf16}
  {X18 : BufTy.Contents (Elt F) arg18.view.ty} {X19 : BufTy.Contents (Elt F) arg19.view.ty} {X20 : BufTy.Contents (Elt F) arg20.view.ty}
  {X21 : BufTy.Contents (Elt F) arg21.view.ty} {X22 : BufTy.Contents (Elt F) arg22.view.ty} {X23 : BufTy.Contents (Elt F) arg23.view.ty}
  {G24 : BufTy.Contents (Elt F) arg24.view.ty} {G25 : BufTy.Contents (Elt F) arg25.view.ty} {G26 : BufTy.Contents (Elt F) arg26.view.ty}

-- Trip `k` stores one piece into the first result: `pair24` of the pair's slices, at the pair's columns, whatever the written buffers held.
theorem trip_fst (k : Fin k0_t1_loop.trips) (f24 : BufTy.Contents (Elt F) arg24.view.ty) (f25 : BufTy.Contents (Elt F) arg25.view.ty) (f26 : BufTy.Contents (Elt F) arg26.view.ty) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 v9 v17 v21 v23 v25 v67 X18 X19 X20 X21 X22 X23 k).1 f24 f25 f26 = [⟨rH k, pair24 (View.ld (arg18.view.read (Elt F) X18) (rH k)) (View.ld (arg19.view.read (Elt F) X19) (rH k)) (View.ld (arg20.view.read (Elt F) X20) (rH k)) (View.ld (arg21.view.read (Elt F) X21) (rH k)) (View.ld (arg22.view.read (Elt F) X22) (rH k)) (View.ld (arg23.view.read (Elt F) X23) (rH k))⟩] := by
  refine Eq.trans (b := [⟨rH k, k0_pay55
      (trip_k0_t1.sl.r_13 arg18 arg19 arg20 arg21 arg22 arg23 arg26 X18 X19 X20 X21 X22 X23 k)
      (trip_k0_t1.sl.r_17 arg20 arg23 X20 X23 k)
      (trip_k0_t1.sl.r_19 arg18 arg19 arg20 arg21 arg22 arg23 arg26 X18 X19 X20 X21 X22 X23 k)
      (trip_k0_t1.sl.r_21 arg18 arg19 arg21 arg22 arg26 X18 X19 X21 X22 k)
      (trip_k0_t1.sl.v319 arg18 arg19 arg21 arg22 arg26 X18 X19 X21 X22 k)⟩]) (by with_unfolding_all rfl) ?_
  sl_unfold_run_names
  sl_unfold_run_names
  simp only [View.readCov_cons_toLoadRect]
  rfl

theorem trip_snd (k : Fin k0_t1_loop.trips) (f24 : BufTy.Contents (Elt F) arg24.view.ty) (f25 : BufTy.Contents (Elt F) arg25.view.ty) (f26 : BufTy.Contents (Elt F) arg26.view.ty) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 v9 v17 v21 v23 v25 v67 X18 X19 X20 X21 X22 X23 k).2.1 f24 f25 f26 = [⟨rH k, pair25 (View.ld (arg18.view.read (Elt F) X18) (rH k)) (View.ld (arg19.view.read (Elt F) X19) (rH k)) (View.ld (arg20.view.read (Elt F) X20) (rH k)) (View.ld (arg21.view.read (Elt F) X21) (rH k)) (View.ld (arg22.view.read (Elt F) X22) (rH k)) (View.ld (arg23.view.read (Elt F) X23) (rH k))⟩] := by
  refine Eq.trans (b := [⟨rH k, k0_pay56
      (trip_k0_t1.sl.r_14 arg18 arg19 arg20 arg21 arg22 arg23 arg26 X18 X19 X20 X21 X22 X23 k)
      (trip_k0_t1.sl.r_17 arg20 arg23 X20 X23 k)
      (trip_k0_t1.sl.r_20 arg18 arg19 arg20 arg21 arg22 arg23 arg26 X18 X19 X20 X21 X22 X23 k)
      (trip_k0_t1.sl.r_21 arg18 arg19 arg21 arg22 arg26 X18 X19 X21 X22 k)
      (trip_k0_t1.sl.v319 arg18 arg19 arg21 arg22 arg26 X18 X19 X21 X22 k)⟩]) (by with_unfolding_all rfl) ?_
  sl_unfold_run_names
  sl_unfold_run_names
  simp only [View.readCov_cons_toLoadRect]
  rfl

def hp0 : Fin k0_t1_loop.trips := ⟨0, by decide⟩
def hp1 : Fin k0_t1_loop.trips := ⟨1, by decide⟩
def hp2 : Fin k0_t1_loop.trips := ⟨2, by decide⟩
def hp3 : Fin k0_t1_loop.trips := ⟨3, by decide⟩

section Attn
variable (Q K V Q' K' V' : Vec F S1024x512 .bf16)

def attn24 : Vec F S1024x512 .bf16 :=
  View.canon [⟨rH hp3, pair24 (View.ld Q (rH hp3)) (View.ld K (rH hp3)) (View.ld V (rH hp3)) (View.ld Q' (rH hp3)) (View.ld K' (rH hp3)) (View.ld V' (rH hp3))⟩, ⟨rH hp2, pair24 (View.ld Q (rH hp2)) (View.ld K (rH hp2)) (View.ld V (rH hp2)) (View.ld Q' (rH hp2)) (View.ld K' (rH hp2)) (View.ld V' (rH hp2))⟩,
    ⟨rH hp1, pair24 (View.ld Q (rH hp1)) (View.ld K (rH hp1)) (View.ld V (rH hp1)) (View.ld Q' (rH hp1)) (View.ld K' (rH hp1)) (View.ld V' (rH hp1))⟩, ⟨rH hp0, pair24 (View.ld Q (rH hp0)) (View.ld K (rH hp0)) (View.ld V (rH hp0)) (View.ld Q' (rH hp0)) (View.ld K' (rH hp0)) (View.ld V' (rH hp0))⟩]

def attn25 : Vec F S1024x512 .bf16 :=
  View.canon [⟨rH hp3, pair25 (View.ld Q (rH hp3)) (View.ld K (rH hp3)) (View.ld V (rH hp3)) (View.ld Q' (rH hp3)) (View.ld K' (rH hp3)) (View.ld V' (rH hp3))⟩, ⟨rH hp2, pair25 (View.ld Q (rH hp2)) (View.ld K (rH hp2)) (View.ld V (rH hp2)) (View.ld Q' (rH hp2)) (View.ld K' (rH hp2)) (View.ld V' (rH hp2))⟩,
    ⟨rH hp1, pair25 (View.ld Q (rH hp1)) (View.ld K (rH hp1)) (View.ld V (rH hp1)) (View.ld Q' (rH hp1)) (View.ld K' (rH hp1)) (View.ld V' (rH hp1))⟩, ⟨rH hp0, pair25 (View.ld Q (rH hp0)) (View.ld K (rH hp0)) (View.ld V (rH hp0)) (View.ld Q' (rH hp0)) (View.ld K' (rH hp0)) (View.ld V' (rH hp0))⟩]

end Attn

theorem cover_pairs (p3 : (rH hp3).shape.Idx → Elt F .bf16) (p2 : (rH hp2).shape.Idx → Elt F .bf16)
    (p1 : (rH hp1).shape.Idx → Elt F .bf16) (p0 : (rH hp0).shape.Idx → Elt F .bf16) (y : S1024x512.Idx) :
    ∃ pc ∈ ([⟨rH hp3, p3⟩, ⟨rH hp2, p2⟩, ⟨rH hp1, p1⟩, ⟨rH hp0, p0⟩] : List (View.Piece (Elt F) S1024x512 .bf16)), y ∈ pc.1.set :=
  View.cover_of_tiled (s := S1024x512) [⟨rH hp3, p3⟩, ⟨rH hp2, p2⟩, ⟨rH hp1, p1⟩, ⟨rH hp0, p0⟩] S1024x128.size (by sl_kernel_rfl) y

-- The pieces before trip `n + 1` are trip `n`'s piece in front of those before trip `n`.
theorem pb_fst_succ (n : ℕ) (h : n < k0_t1_loop.trips) :
    (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 v9 v17 v21 v23 v25 v67 X18 X19 X20 X21 X22 X23 G24 G25 G26 (n + 1)).1 = ⟨rH ⟨n, h⟩, pair24 (View.ld (arg18.view.read (Elt F) X18) (rH ⟨n, h⟩)) (View.ld (arg19.view.read (Elt F) X19) (rH ⟨n, h⟩)) (View.ld (arg20.view.read (Elt F) X20) (rH ⟨n, h⟩)) (View.ld (arg21.view.read (Elt F) X21) (rH ⟨n, h⟩)) (View.ld (arg22.view.read (Elt F) X22) (rH ⟨n, h⟩)) (View.ld (arg23.view.read (Elt F) X23) (rH ⟨n, h⟩))⟩ :: (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 v9 v17 v21 v23 v25 v67 X18 X19 X20 X21 X22 X23 G24 G25 G26 n).1 := by
  have e1 := congrArg Prod.fst (pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 v9 v17 v21 v23 v25 v67 X18 X19 X20 X21 X22 X23 G24 G25 G26 ⟨n, h⟩)
  dsimp only at e1
  rw [trip_fst] at e1
  exact e1

theorem pb_snd_succ (n : ℕ) (h : n < k0_t1_loop.trips) :
    (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 v9 v17 v21 v23 v25 v67 X18 X19 X20 X21 X22 X23 G24 G25 G26 (n + 1)).2.1 = ⟨rH ⟨n, h⟩, pair25 (View.ld (arg18.view.read (Elt F) X18) (rH ⟨n, h⟩)) (View.ld (arg19.view.read (Elt F) X19) (rH ⟨n, h⟩)) (View.ld (arg20.view.read (Elt F) X20) (rH ⟨n, h⟩)) (View.ld (arg21.view.read (Elt F) X21) (rH ⟨n, h⟩)) (View.ld (arg22.view.read (Elt F) X22) (rH ⟨n, h⟩)) (View.ld (arg23.view.read (Elt F) X23) (rH ⟨n, h⟩))⟩ :: (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 v9 v17 v21 v23 v25 v67 X18 X19 X20 X21 X22 X23 G24 G25 G26 n).2.1 := by
  have e1 := congrArg (fun p => p.2.1) (pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 v9 v17 v21 v23 v25 v67 X18 X19 X20 X21 X22 X23 G24 G25 G26 ⟨n, h⟩)
  dsimp only at e1
  rw [trip_snd] at e1
  exact e1

-- The four pairs' column blocks tile the 512 columns, so after the loop the result reads as the four pieces laid side by side.
theorem loop24 :
    arg24.view.read (Elt F) (arg24.view.writes (Elt F) G24 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 v9 v17 v21 v23 v25 v67 X18 X19 X20 X21 X22 X23 G24 G25 G26 4).1) = attn24 (arg18.view.read (Elt F) X18) (arg19.view.read (Elt F) X19) (arg20.view.read (Elt F) X20) (arg21.view.read (Elt F) X21) (arg22.view.read (Elt F) X22) (arg23.view.read (Elt F) X23) := by
  rw [pb_fst_succ 3 (by decide), pb_fst_succ 2 (by decide), pb_fst_succ 1 (by decide), pb_fst_succ 0 (by decide)]
  exact View.read_writes_eq_canon _ _ _ (cover_pairs _ _ _ _)

theorem loop25 :
    arg25.view.read (Elt F) (arg25.view.writes (Elt F) G25 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 v9 v17 v21 v23 v25 v67 X18 X19 X20 X21 X22 X23 G24 G25 G26 4).2.1) = attn25 (arg18.view.read (Elt F) X18) (arg19.view.read (Elt F) X19) (arg20.view.read (Elt F) X20) (arg21.view.read (Elt F) X21) (arg22.view.read (Elt F) X22) (arg23.view.read (Elt F) X23) := by
  rw [pb_snd_succ 3 (by decide), pb_snd_succ 2 (by decide), pb_snd_succ 1 (by decide), pb_snd_succ 0 (by decide)]
  exact View.read_writes_eq_canon _ _ _ (cover_pairs _ _ _ _)

section Body
variable (x0 x1 x2 : Vec F S1x1024x512 .f32) (w3 w4 w5 w6 w7 w8 w9 w10 : Vec F S512x512 .bf16)
  (b11 b12 l13 l14 : Vec F S4x512 .f32)

-- The six projections (queries, keys, values of the two streams), each one whole store.
def proj18 : Vec F S1024x512 .bf16 :=
  View.canon [⟨rA, k0_pay46 (k0_pay44 (View.ld x0 rX) (View.ld x2 rX) (View.ld w3 rW)) (k0_pay45 (View.ld b11 rB0))⟩]
def proj19 : Vec F S1024x512 .bf16 :=
  View.canon [⟨rA, k0_pay47 (k0_pay34 (View.ld x0 rX) (View.ld x2 rX)) (k0_pay37 (View.ld b11 rB1)) (View.ld w4 rW)⟩]
def proj20 : Vec F S1024x512 .bf16 :=
  View.canon [⟨rA, k0_pay48 (k0_pay35 (View.ld x0 rX)) (k0_pay38 (View.ld b11 rB2)) (View.ld w5 rW)⟩]
def proj21 : Vec F S1024x512 .bf16 :=
  View.canon [⟨rA, k0_pay49 (k0_pay36 (View.ld x1 rX)) (k0_pay40 (View.ld b12 rB0)) (View.ld w6 rW)⟩]
def proj22 : Vec F S1024x512 .bf16 :=
  View.canon [⟨rA, k0_pay51 (k0_pay36 (View.ld x1 rX)) (k0_pay41 (View.ld b12 rB1)) (k0_pay50 (View.ld w7 rW))⟩]
def proj23 : Vec F S1024x512 .bf16 :=
  View.canon [⟨rA, k0_pay52 (k0_pay36 (View.ld x1 rX)) (k0_pay42 (View.ld b12 rB2)) (View.ld w8 rW)⟩]

-- A stream's rows after the output projection and the residual sum, before the normalisation.
def pre15 : FVec F S1024x512 .f32 :=
  k0_pay57 (k0_pay32 (View.ld x0 rX)) (k0_pay39 (View.ld b11 rB3))
    (View.ld (attn24 (proj18 x0 x2 w3 b11) (proj19 x0 x2 w4 b11) (proj20 x0 w5 b11) (proj21 x1 w6 b12) (proj22 x1 w7 b12) (proj23 x1 w8 b12)) rA)
    (View.ld w9 rW)

def pre16 : FVec F S1024x512 .f32 :=
  k0_pay58 (k0_pay33 (View.ld x1 rX)) (k0_pay43 (View.ld b12 rB3))
    (View.ld (attn25 (proj18 x0 x2 w3 b11) (proj19 x0 x2 w4 b11) (proj20 x0 w5 b11) (proj21 x1 w6 b12) (proj22 x1 w7 b12) (proj23 x1 w8 b12)) rA)
    (View.ld w10 rW)

end Body

def out0_15 (x0 x1 x2 : Vec F S1x1024x512 .f32) (w3 w4 w5 w6 w7 w8 w9 w10 : Vec F S512x512 .bf16)
    (b11 b12 l13 l14 : Vec F S4x512 .f32) : Vec F S1x1024x512 .f32 :=
  View.canon [⟨rX, k0_pay59 (pre15 x0 x1 x2 w3 w4 w5 w6 w7 w8 w9 b11 b12) (View.ld l13 rB0) (View.ld l13 rB1)⟩]

def out0_16 (x0 x1 x2 : Vec F S1x1024x512 .f32) (w3 w4 w5 w6 w7 w8 w9 w10 : Vec F S512x512 .bf16)
    (b11 b12 l13 l14 : Vec F S4x512 .f32) : Vec F S1x1024x512 .f32 :=
  View.canon [⟨rX, k0_pay1 (pre16 x0 x1 x2 w3 w4 w5 w6 w7 w8 w10 b11 b12) (k0_pay60 (View.ld l14 rB0)) (k0_pay61 (View.ld l14 rB1))
    (k0_pay62 (pre16 x0 x1 x2 w3 w4 w5 w6 w7 w8 w10 b11 b12))⟩]

theorem cover_rX (p : rX.shape.Idx → Elt F .f32) (y : S1x1024x512.Idx) :
    ∃ pc ∈ ([⟨rX, p⟩] : List (View.Piece (Elt F) S1x1024x512 .f32)), y ∈ pc.1.set :=
  View.cover_of_tiled (s := S1x1024x512) [⟨rX, p⟩] S1x1024x512.size (by rfl) y

def scratchHeld (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f))

set_option maxHeartbeats 8000000 in
-- The body's triple on whole memrefs: the fifteen inputs come back as they were, the two outputs at `out0_15`, `out0_16` of the inputs, the nine scratch buffers at some contents.
theorem sound_kernel0_run (E : Set ℕ) (x0 x1 x2 : Vec F S1x1024x512 .f32) (w3 w4 w5 w6 w7 w8 w9 w10 : Vec F S512x512 .bf16) (b11 b12 l13 l14 : Vec F S4x512 .f32) (K : PUnit → sProp 𝕄) (P : sProp 𝕄)
    (hP : iprop(owns (c : Thread nD τ) arg1 fullShare x0 ∗ owns (c : Thread nD τ) arg2 fullShare x1 ∗ owns (c : Thread nD τ) arg3 fullShare x2 ∗ owns (c : Thread nD τ) arg4 fullShare w3 ∗ owns (c : Thread nD τ) arg5 fullShare w4 ∗ owns (c : Thread nD τ) arg6 fullShare w5 ∗ owns (c : Thread nD τ) arg7 fullShare w6 ∗ owns (c : Thread nD τ) arg8 fullShare w7 ∗ owns (c : Thread nD τ) arg9 fullShare w8 ∗ owns (c : Thread nD τ) arg10 fullShare w9 ∗ owns (c : Thread nD τ) arg11 fullShare w10 ∗ owns (c : Thread nD τ) arg12 fullShare b11 ∗ owns (c : Thread nD τ) arg13 fullShare b12 ∗ owns (c : Thread nD τ) arg14 fullShare l13 ∗ owns (c : Thread nD τ) arg15 fullShare l14 ∗ owns (c : Thread nD τ) arg16 fullShare (out0_15 x0 x1 x2 w3 w4 w5 w6 w7 w8 w9 w10 b11 b12 l13 l14) ∗ owns (c : Thread nD τ) arg17 fullShare (out0_16 x0 x1 x2 w3 w4 w5 w6 w7 w8 w9 w10 b11 b12 l13 l14) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) ⊢ P) :
    iprop(owns (c : Thread nD τ) arg1 fullShare x0 ∗ owns (c : Thread nD τ) arg2 fullShare x1 ∗ owns (c : Thread nD τ) arg3 fullShare x2 ∗ owns (c : Thread nD τ) arg4 fullShare w3 ∗ owns (c : Thread nD τ) arg5 fullShare w4 ∗ owns (c : Thread nD τ) arg6 fullShare w5 ∗ owns (c : Thread nD τ) arg7 fullShare w6 ∗ owns (c : Thread nD τ) arg8 fullShare w7 ∗ owns (c : Thread nD τ) arg9 fullShare w8 ∗ owns (c : Thread nD τ) arg10 fullShare w9 ∗ owns (c : Thread nD τ) arg11 fullShare w10 ∗ owns (c : Thread nD τ) arg12 fullShare b11 ∗ owns (c : Thread nD τ) arg13 fullShare b12 ∗ owns (c : Thread nD τ) arg14 fullShare l13 ∗ owns (c : Thread nD τ) arg15 fullShare l14 ∗ (∃ d, owns (c : Thread nD τ) arg16 fullShare d) ∗ (∃ d, owns (c : Thread nD τ) arg17 fullShare d) ∗ iprop((∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d))
        ∗ (P -∗ K ⟨⟩))
      ⊢ wp frame (wpE (defs₀ (F := F)) Variants.none c none) E (cc0__attn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__attn_kernel_eq_skeleton]; unfold cc0__attn_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  sl_exec
  sl_step
  iapply Hk
  iapply hP
  unfold owns
  isplitl [H1]
  · iexists _; isplitr
    swap; · iexact H1
    ipureintro; exact harg1.read_unread _
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; exact harg8.read_unread _
  isplitl [H9]
  · iexists _; isplitr
    swap; · iexact H9
    ipureintro; exact harg9.read_unread _
  isplitl [H10]
  · iexists _; isplitr
    swap; · iexact H10
    ipureintro; exact harg10.read_unread _
  isplitl [H11]
  · iexists _; isplitr
    swap; · iexact H11
    ipureintro; exact harg11.read_unread _
  isplitl [H12]
  · iexists _; isplitr
    swap; · iexact H12
    ipureintro; exact harg12.read_unread _
  isplitl [H13]
  · iexists _; isplitr
    swap; · iexact H13
    ipureintro; exact harg13.read_unread _
  isplitl [H14]
  · iexists _; isplitr
    swap; · iexact H14
    ipureintro; exact harg14.read_unread _
  isplitl [H15]
  · iexists _; isplitr
    swap; · iexact H15
    ipureintro; exact harg15.read_unread _
  isplitl [H16]
  · iexists _; isplitr
    swap; · iexact H16
    ipureintro
    rw [View.read_writes_eq_canon _ _ _ (cover_rX _)]
    unfold out0_15 pre15 proj18 proj19 proj20 proj21 proj22 proj23
    sl_unfold_run_names
    sl_unfold_run_names
    generalize hn : Scf.trips _ _ _ = n
    obtain rfl : n = 4 := hn.symm.trans (by decide)
    simp only [View.readAt_eq_ld, Memref.IsWhole.read_unread, loop24, loop25, View.read_writes_junk_eq_canon]
  isplitl [H17]
  · iexists _; isplitr
    swap; · iexact H17
    ipureintro
    rw [View.read_writes_eq_canon _ _ _ (cover_rX _)]
    unfold out0_16 pre16 proj18 proj19 proj20 proj21 proj22 proj23
    sl_unfold_run_names
    sl_unfold_run_names
    generalize hn : Scf.trips _ _ _ = n
    obtain rfl : n = 4 := hn.symm.trans (by decide)
    simp only [View.readAt_eq_ld, Memref.IsWhole.read_unread, loop24, loop25, View.read_writes_junk_eq_canon]
  isplitl [H18]
  · iexists _; iexists _; isplitr
    swap; · iexact H18
    ipureintro; rfl
  isplitl [H19]
  · iexists _; iexists _; isplitr
    swap; · iexact H19
    ipureintro; rfl
  isplitl [H20]
  · iexists _; iexists _; isplitr
    swap; · iexact H20
    ipureintro; rfl
  isplitl [H21]
  · iexists _; iexists _; isplitr
    swap; · iexact H21
    ipureintro; rfl
  isplitl [H22]
  · iexists _; iexists _; isplitr
    swap; · iexact H22
    ipureintro; rfl
  isplitl [H23]
  · iexists _; iexists _; isplitr
    swap; · iexact H23
    ipureintro; rfl
  isplitl [H24]
  · iexists _; iexists _; isplitr
    swap; · iexact H24
    ipureintro; rfl
  isplitl [H25]
  · iexists _; iexists _; isplitr
    swap; · iexact H25
    ipureintro; rfl
  iexists _; iexists _; isplitr
  swap; · iexact H26
  ipureintro; rfl

end Loop

set_option maxHeartbeats 2000000 in

theorem sound_kernel0 (c : Dev nD) (t : Fin cfg0.N) (E : Set ℕ) (x0 x1 x2 : Vec F S1x1024x512 .f32) (w3 w4 w5 w6 w7 w8 w9 w10 : Vec F S512x512 .bf16) (b11 b12 l13 l14 : Vec F S4x512 .f32) (K : PUnit → sProp 𝕄) :
    iprop(owns (c : Thread nD τ) (st0_0 t) fullShare x0 ∗ owns (c : Thread nD τ) (st0_1 t) fullShare x1 ∗ owns (c : Thread nD τ) (st0_2 t) fullShare x2 ∗ owns (c : Thread nD τ) (st0_3 t) fullShare w3 ∗ owns (c : Thread nD τ) (st0_4 t) fullShare w4 ∗ owns (c : Thread nD τ) (st0_5 t) fullShare w5 ∗ owns (c : Thread nD τ) (st0_6 t) fullShare w6 ∗ owns (c : Thread nD τ) (st0_7 t) fullShare w7 ∗ owns (c : Thread nD τ) (st0_8 t) fullShare w8 ∗ owns (c : Thread nD τ) (st0_9 t) fullShare w9 ∗ owns (c : Thread nD τ) (st0_10 t) fullShare w10 ∗ owns (c : Thread nD τ) (st0_11 t) fullShare b11 ∗ owns (c : Thread nD τ) (st0_12 t) fullShare b12 ∗ owns (c : Thread nD τ) (st0_13 t) fullShare l13 ∗ owns (c : Thread nD τ) (st0_14 t) fullShare l14 ∗ (∃ d, owns (c : Thread nD τ) (st0_15 t) fullShare d) ∗ (∃ d, owns (c : Thread nD τ) (st0_16 t) fullShare d) ∗ scratchHeld c
        ∗ (iprop(owns (c : Thread nD τ) (st0_0 t) fullShare x0 ∗ owns (c : Thread nD τ) (st0_1 t) fullShare x1 ∗ owns (c : Thread nD τ) (st0_2 t) fullShare x2 ∗ owns (c : Thread nD τ) (st0_3 t) fullShare w3 ∗ owns (c : Thread nD τ) (st0_4 t) fullShare w4 ∗ owns (c : Thread nD τ) (st0_5 t) fullShare w5 ∗ owns (c : Thread nD τ) (st0_6 t) fullShare w6 ∗ owns (c : Thread nD τ) (st0_7 t) fullShare w7 ∗ owns (c : Thread nD τ) (st0_8 t) fullShare w8 ∗ owns (c : Thread nD τ) (st0_9 t) fullShare w9 ∗ owns (c : Thread nD τ) (st0_10 t) fullShare w10 ∗ owns (c : Thread nD τ) (st0_11 t) fullShare b11 ∗ owns (c : Thread nD τ) (st0_12 t) fullShare b12 ∗ owns (c : Thread nD τ) (st0_13 t) fullShare l13 ∗ owns (c : Thread nD τ) (st0_14 t) fullShare l14 ∗ owns (c : Thread nD τ) (st0_15 t) fullShare (out0_15 x0 x1 x2 w3 w4 w5 w6 w7 w8 w9 w10 b11 b12 l13 l14) ∗ owns (c : Thread nD τ) (st0_16 t) fullShare (out0_16 x0 x1 x2 w3 w4 w5 w6 w7 w8 w9 w10 b11 b12 l13 l14) ∗ scratchHeld c) -∗ K ⟨⟩))
      ⊢ wp frame (wpE (defs₀ (F := F)) Variants.none c none) E (bodyAt0 t) K := by
  have h := sound_kernel0_run (F := F) (c := c) (i := grid0.coords t) (arg1 := win0_0.stage (cfg0.slots t 0)) (harg1 := hstage0_0 ((cfg0.slots t 0).cast nbuf0_0)) (arg2 := win0_1.stage (cfg0.slots t 1)) (harg2 := hstage0_1 ((cfg0.slots t 1).cast nbuf0_1)) (arg3 := win0_2.stage (cfg0.slots t 2)) (harg3 := hstage0_2 ((cfg0.slots t 2).cast nbuf0_2)) (arg4 := win0_3.stage (cfg0.slots t 3)) (harg4 := hstage0_3 ((cfg0.slots t 3).cast nbuf0_3)) (arg5 := win0_4.stage (cfg0.slots t 4)) (harg5 := hstage0_4 ((cfg0.slots t 4).cast nbuf0_4)) (arg6 := win0_5.stage (cfg0.slots t 5)) (harg6 := hstage0_5 ((cfg0.slots t 5).cast nbuf0_5)) (arg7 := win0_6.stage (cfg0.slots t 6)) (harg7 := hstage0_6 ((cfg0.slots t 6).cast nbuf0_6)) (arg8 := win0_7.stage (cfg0.slots t 7)) (harg8 := hstage0_7 ((cfg0.slots t 7).cast nbuf0_7)) (arg9 := win0_8.stage (cfg0.slots t 8)) (harg9 := hstage0_8 ((cfg0.slots t 8).cast nbuf0_8)) (arg10 := win0_9.stage (cfg0.slots t 9)) (harg10 := hstage0_9 ((cfg0.slots t 9).cast nbuf0_9)) (arg11 := win0_10.stage (cfg0.slots t 10)) (harg11 := hstage0_10 ((cfg0.slots t 10).cast nbuf0_10)) (arg12 := win0_11.stage (cfg0.slots t 11)) (harg12 := hstage0_11 ((cfg0.slots t 11).cast nbuf0_11)) (arg13 := win0_12.stage (cfg0.slots t 12)) (harg13 := hstage0_12 ((cfg0.slots t 12).cast nbuf0_12)) (arg14 := win0_13.stage (cfg0.slots t 13)) (harg14 := hstage0_13 ((cfg0.slots t 13).cast nbuf0_13)) (arg15 := win0_14.stage (cfg0.slots t 14)) (harg15 := hstage0_14 ((cfg0.slots t 14).cast nbuf0_14)) (arg16 := win0_15.stage (cfg0.slots t 15)) (harg16 := hstage0_15 ((cfg0.slots t 15).cast nbuf0_15)) (arg17 := win0_16.stage (cfg0.slots t 16)) (harg17 := hstage0_16 ((cfg0.slots t 16).cast nbuf0_16)) (arg18 := Memref.whole cc0_scratch0) (harg18 := Memref.isWhole_whole _) (arg19 := Memref.whole cc0_scratch1) (harg19 := Memref.isWhole_whole _) (arg20 := Memref.whole cc0_scratch2) (harg20 := Memref.isWhole_whole _) (arg21 := Memref.whole cc0_scratch3) (harg21 := Memref.isWhole_whole _) (arg22 := Memref.whole cc0_scratch4) (harg22 := Memref.isWhole_whole _) (arg23 := Memref.whole cc0_scratch5) (harg23 := Memref.isWhole_whole _) (arg24 := Memref.whole cc0_scratch6) (harg24 := Memref.isWhole_whole _) (arg25 := Memref.whole cc0_scratch7) (harg25 := Memref.isWhole_whole _) (arg26 := Memref.whole cc0_scratch8) (harg26 := Memref.isWhole_whole _) E x0 x1 x2 w3 w4 w5 w6 w7 w8 w9 w10 b11 b12 l13 l14 K _ (BI.Entails.refl _)
  simp only [owns_whole] at h
  unfold scratchHeld
  exact h

end Cert.Kernel.Body0

end
-- ==== Proof.WDat0.lean ====

import proofs.«400912_j69947837382775_3_alg».proof.Proof.WBody0
import proofs.«400912_j69947837382775_3_alg».proof.Proof.Gen.Kernel.Launch
import proofs.«400912_j69947837382775_3_alg».proof.Proof.Gen.Kernel.Points
import Idealize.ShloMosaic.Lib.Pipeline.FrameBody
import Idealize.ShloMosaic.Lib.Tactic

set_option maxRecDepth 16384

noncomputable section

namespace Cert.Kernel.Dat0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off the window's array as the region finds it.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- The region's proof data: after the body at point `t` each input holds its block and each output the body's function of the fifteen input blocks.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => Body0.out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨16, _⟩ => Body0.out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨_ + 17, h⟩ => absurd h (Nat.not_lt.2 (Nat.le_add_left _ _))
  Φ _ := iprop(Body0.scratchHeld c ∗ Pipeline.scopedRestBut (Ix := Unit) (Name := ℕ) (U := UR sig nD τ) (Lvl := ℕ) (Val := Elt F) spec0 c [cc0_scratch0, cc0_scratch1, cc0_scratch2, cc0_scratch3, cc0_scratch4, cc0_scratch5, cc0_scratch6, cc0_scratch7, cc0_scratch8] ∗ ∃ r, prngReg c r)
  q _ := fullShare
  owed _ := 0

theorem A_eq0 (c : Dev nD) (w : Fin cfg0.W) : (dat0 V c).A w = V c (Pipeline.arrRef spec0 w) := by
  dsimp only [dat0]

theorem Φ0_unfold (c : Dev nD) (p : Fin (cfg0.N + 1)) :
    (dat0 V c).Φ p = iprop(Body0.scratchHeld c ∗ Pipeline.scopedRestBut (Ix := Unit) (Name := ℕ) (U := UR sig nD τ) (Lvl := ℕ) (Val := Elt F) spec0 c [cc0_scratch0, cc0_scratch1, cc0_scratch2, cc0_scratch3, cc0_scratch4, cc0_scratch5, cc0_scratch6, cc0_scratch7, cc0_scratch8] ∗ ∃ r, prngReg c r) := by
  dsimp only [dat0]

theorem Φ0_eq (c : Dev nD) (p : Fin (cfg0.N + 1)) :
    (dat0 V c).Φ p = Pipeline.ΦA (U := UR sig nD τ) (Val := Elt F) spec0 c := by
  rw [Φ0_unfold]
  unfold Pipeline.ΦA Body0.scratchHeld
  rw [scopedRest0_split]
  exact (Idealize.SL.BI.equiv_iff.mp ⟨Idealize.SL.BI.sep_assoc, Idealize.SL.BI.sep_assoc'⟩).symm

theorem after0_15 (c : Dev nD) (t : Fin cfg0.N) : (dat0 V c).after 15 t = Body0.out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]
theorem after0_16 (c : Dev nD) (t : Fin cfg0.N) : (dat0 V c).after 16 t = Body0.out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]

theorem before0 (c : Dev nD) (w : Fin cfg0.W) (hw : w.val < 15) (t : Fin cfg0.N) (d) :
    (dat0 V c).before w t d = (dat0 V c).fetched w t d := by
  obtain ⟨w, hlt⟩ := w
  replace hw : w < 15 := hw
  iterate 15 (rcases w with _ | w; · exact (dat0 V c).before_in_eq_fetched _ rfl (fun _ => rfl) (fun _ _ _ => rfl) (fun _ => rfl) t d)
  omega

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t))

set_option maxHeartbeats 1000000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0
  simp only [before0 V c 0 (by decide), before0 V c 1 (by decide), before0 V c 2 (by decide), before0 V c 3 (by decide), before0 V c 4 (by decide), before0 V c 5 (by decide), before0 V c 6 (by decide), before0 V c 7 (by decide), before0 V c 8 (by decide), before0 V c 9 (by decide), before0 V c 10 (by decide), before0 V c 11 (by decide), before0 V c 12 (by decide), before0 V c 13 (by decide), before0 V c 14 (by decide)]
  rw [show (dat0 V c).Φ t.succ = (dat0 V c).Φ t.castSucc from rfl,
    show (dat0 V c).owesAt () t.succ = (dat0 V c).owesAt () t.castSucc from rfl,
    after0_15, after0_16, Φ0_unfold]
  iintro ⟨⟨Hs, Hb, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (Body0.sound_kernel0 c t Set.univ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [Hs]; · iexact Hs
  iintro ⟨H0, H1, H2, H3, H4, H5, H6, H7, H8, H9, H10, H11, H12, H13, H14, H15, H16, Hs⟩
  isplitl [Hs Hb Hr]
  · isplitl [Hs]; · iexact Hs
    isplitl [Hb]; · iexact Hb
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem body_obligation0 (c : Dev nD) : BodyObligation (dat0 (F := F) V c) (defs₀ (F := F)) Variants.none () Set.univ := fun t => by
  rw [bigSep_W0, bigSep_W0]
  exact sound_body0 V c t

end Cert.Kernel.Dat0

end
-- ==== Proof.WBody1.lean ====

import proofs.«400912_j69947837382775_3_alg».proof.Proof.Gen.Kernel.Launch
import proofs.«400912_j69947837382775_3_alg».proof.Proof.Gen.Kernel.Skeleton
import proofs.«400912_j69947837382775_3_alg».proof.Proof.Gen.Kernel.Points
import Idealize.ShloMosaic.Lib.Pipeline.FrameBody
import Idealize.ShloMosaic.Lib.Tactic

set_option maxRecDepth 16384

noncomputable section

namespace Cert.Kernel.Body1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rA : Rect S1x1024x512 := Rect.unit (s := S1x1024x512) ![0, 0, 0] S1x1024x512.size inb_S1x1024x512_S1x1024x512_0_0_0

abbrev rW1 : Rect S512x2048 := Rect.unit (s := S512x2048) ![0, 0] S512x2048.size inb_S512x2048_S512x2048_0_0

abbrev rB1 : Rect S2048 := Rect.unit (s := S2048) ![0] S2048.size inb_S2048_S2048_0

abbrev rW2 : Rect S2048x512 := Rect.unit (s := S2048x512) ![0, 0] S2048x512.size inb_S2048x512_S2048x512_0_0

abbrev rB2 : Rect S512 := Rect.unit (s := S512) ![0] S512.size inb_S512_S512_0

abbrev rT2 : Rect S4x512 := Rect.unit (s := S4x512) ![2, 0] S1x512.size inb_S4x512_S1x512_2_0

abbrev rT3 : Rect S4x512 := Rect.unit (s := S4x512) ![3, 0] S1x512.size inb_S4x512_S1x512_3_0

-- What the body leaves in its first output: one whole store of the stream plus its two-layer perceptron, normalised with rows 2 and 3 of the stream's table.
def out1_12 (x0 x1 : Vec F S1x1024x512 .f32) (x2 : Vec F S512x2048 .bf16) (x3 : Vec F S2048 .f32) (x4 : Vec F S2048x512 .bf16) (x5 : Vec F S512 .f32) (x6 : Vec F S512x2048 .bf16) (x7 : Vec F S2048 .f32) (x8 : Vec F S2048x512 .bf16) (x9 : Vec F S512 .f32) (x10 x11 : Vec F S4x512 .f32) : Vec F S1x1024x512 .f32 :=
  View.canon [⟨rA, k1_pay8 (k1_pay2 (View.ld x0 rA) (View.ld x2 rW1) (View.ld x3 rB1) (View.ld x4 rW2) (View.ld x5 rB2)) (k1_pay3 (View.ld x10 rT2)) (k1_pay4 (View.ld x10 rT3)) (k1_pay6 (View.ld x0 rA) (View.ld x2 rW1) (View.ld x3 rB1) (View.ld x4 rW2) (View.ld x5 rB2)) (k1_pay7 (View.ld x0 rA) (View.ld x2 rW1) (View.ld x3 rB1) (View.ld x4 rW2) (View.ld x5 rB2))⟩]

def out1_13 (x0 x1 : Vec F S1x1024x512 .f32) (x2 : Vec F S512x2048 .bf16) (x3 : Vec F S2048 .f32) (x4 : Vec F S2048x512 .bf16) (x5 : Vec F S512 .f32) (x6 : Vec F S512x2048 .bf16) (x7 : Vec F S2048 .f32) (x8 : Vec F S2048x512 .bf16) (x9 : Vec F S512 .f32) (x10 x11 : Vec F S4x512 .f32) : Vec F S1x1024x512 .f32 :=
  View.canon [⟨rA, k1_pay1 (k1_pay9 (View.ld x1 rA) (View.ld x6 rW1) (View.ld x7 rB1) (View.ld x8 rW2) (View.ld x9 rB2)) (k1_pay10 (View.ld x11 rT2)) (View.ld x11 rT3)⟩]

theorem cover1_12 (p0 : Vec F S1x1024x512 .f32) (y : S1x1024x512.Idx) :
    ∃ pc ∈ ([⟨rA, p0⟩] : List (View.Piece (Elt F) S1x1024x512 .f32)), y ∈ pc.1.set :=
  View.cover_of_tiled [⟨rA, p0⟩] S1x1024x512.size (by rfl) y

set_option maxHeartbeats 4000000 in

-- The body's triple on whole memrefs: the twelve inputs come back as they were, the two outputs at `out1_12`, `out1_13` of the inputs.
theorem sound_kernel1_whole (c : Dev nD) (E : Set ℕ) (i : grid1.Coords) {arg1 arg2 arg13 arg14 : Memref sig .tc .vmem S1x1024x512 .f32} {arg3 arg7 : Memref sig .tc .vmem S512x2048 .bf16} {arg4 arg8 : Memref sig .tc .vmem S2048 .f32} {arg5 arg9 : Memref sig .tc .vmem S2048x512 .bf16} {arg6 arg10 : Memref sig .tc .vmem S512 .f32} {arg11 arg12 : Memref sig .tc .vmem S4x512 .f32} {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole}
    (x0 x1 : Vec F S1x1024x512 .f32) (x2 : Vec F S512x2048 .bf16) (x3 : Vec F S2048 .f32) (x4 : Vec F S2048x512 .bf16) (x5 : Vec F S512 .f32) (x6 : Vec F S512x2048 .bf16) (x7 : Vec F S2048 .f32) (x8 : Vec F S2048x512 .bf16) (x9 : Vec F S512 .f32) (x10 x11 : Vec F S4x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out1_12 x0 x1 x2 x3 x4 x5 x6 x7 x8 x9 x10 x11) ∗ owns (c : Thread nD τ) arg14 fullShare (out1_13 x0 x1 x2 x3 x4 x5 x6 x7 x8 x9 x10 x11)) -∗ K ⟨⟩))
      ⊢ wp frame (wpE (defs₀ (F := F)) Variants.none c none) E (cc1__ffn_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__ffn_kernel_eq_skeleton]; unfold cc1__ffn_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    try dsimp only
    exact View.read_writes_eq_canon _ _ _ (cover1_12 _)
  iexists _; isplitr
  swap; · iexact H13
  ipureintro
  try dsimp only
  exact View.read_writes_eq_canon _ _ _ (cover1_12 _)

theorem sound_kernel1 (c : Dev nD) (t : Fin cfg1.N) (E : Set ℕ) (x0 x1 : Vec F S1x1024x512 .f32) (x2 : Vec F S512x2048 .bf16) (x3 : Vec F S2048 .f32) (x4 : Vec F S2048x512 .bf16) (x5 : Vec F S512 .f32) (x6 : Vec F S512x2048 .bf16) (x7 : Vec F S2048 .f32) (x8 : Vec F S2048x512 .bf16) (x9 : Vec F S512 .f32) (x10 x11 : Vec F S4x512 .f32) (K : PUnit → sProp 𝕄) :
    iprop(owns (c : Thread nD τ) (st1_0 t) fullShare x0 ∗ owns (c : Thread nD τ) (st1_1 t) fullShare x1 ∗ owns (c : Thread nD τ) (st1_2 t) fullShare x2 ∗ owns (c : Thread nD τ) (st1_3 t) fullShare x3 ∗ owns (c : Thread nD τ) (st1_4 t) fullShare x4 ∗ owns (c : Thread nD τ) (st1_5 t) fullShare x5 ∗ owns (c : Thread nD τ) (st1_6 t) fullShare x6 ∗ owns (c : Thread nD τ) (st1_7 t) fullShare x7 ∗ owns (c : Thread nD τ) (st1_8 t) fullShare x8 ∗ owns (c : Thread nD τ) (st1_9 t) fullShare x9 ∗ owns (c : Thread nD τ) (st1_10 t) fullShare x10 ∗ owns (c : Thread nD τ) (st1_11 t) fullShare x11 ∗ (∃ d, owns (c : Thread nD τ) (st1_12 t) fullShare d) ∗ (∃ d, owns (c : Thread nD τ) (st1_13 t) fullShare d)
        ∗ (iprop(owns (c : Thread nD τ) (st1_0 t) fullShare x0 ∗ owns (c : Thread nD τ) (st1_1 t) fullShare x1 ∗ owns (c : Thread nD τ) (st1_2 t) fullShare x2 ∗ owns (c : Thread nD τ) (st1_3 t) fullShare x3 ∗ owns (c : Thread nD τ) (st1_4 t) fullShare x4 ∗ owns (c : Thread nD τ) (st1_5 t) fullShare x5 ∗ owns (c : Thread nD τ) (st1_6 t) fullShare x6 ∗ owns (c : Thread nD τ) (st1_7 t) fullShare x7 ∗ owns (c : Thread nD τ) (st1_8 t) fullShare x8 ∗ owns (c : Thread nD τ) (st1_9 t) fullShare x9 ∗ owns (c : Thread nD τ) (st1_10 t) fullShare x10 ∗ owns (c : Thread nD τ) (st1_11 t) fullShare x11 ∗ owns (c : Thread nD τ) (st1_12 t) fullShare (out1_12 x0 x1 x2 x3 x4 x5 x6 x7 x8 x9 x10 x11) ∗ owns (c : Thread nD τ) (st1_13 t) fullShare (out1_13 x0 x1 x2 x3 x4 x5 x6 x7 x8 x9 x10 x11)) -∗ K ⟨⟩))
      ⊢ wp frame (wpE (defs₀ (F := F)) Variants.none c none) E (bodyAt1 t) K :=
  sound_kernel1_whole c E _ x0 x1 x2 x3 x4 x5 x6 x7 x8 x9 x10 x11 K

end Cert.Kernel.Body1

end
-- ==== Proof.WDat1.lean ====

import proofs.«400912_j69947837382775_3_alg».proof.Proof.WBody1
import proofs.«400912_j69947837382775_3_alg».proof.Proof.Gen.Kernel.Launch
import proofs.«400912_j69947837382775_3_alg».proof.Proof.Gen.Kernel.Points
import Idealize.ShloMosaic.Lib.Pipeline.FrameBody
import Idealize.ShloMosaic.Lib.Tactic

set_option maxRecDepth 16384

noncomputable section

namespace Cert.Kernel.Dat1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off the window's array as the region finds it.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- The region's proof data: after the body at point `t` each input holds its block and each output the body's function of the twelve input blocks.
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => Body1.out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
    | ⟨13, _⟩ => Body1.out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_12 (c : Dev nD) (t : Fin cfg1.N) : (dat1 V c).after 12 t = Body1.out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) := by dsimp only [dat1]
theorem after1_13 (c : Dev nD) (t : Fin cfg1.N) : (dat1 V c).after 13 t = Body1.out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) := by dsimp only [dat1]

theorem before1 (c : Dev nD) (w : Fin cfg1.W) (hw : w.val < 12) (t : Fin cfg1.N) (d) :
    (dat1 V c).before w t d = (dat1 V c).fetched w t d := by
  obtain ⟨w, hlt⟩ := w
  replace hw : w < 12 := hw
  iterate 12 (rcases w with _ | w; · exact (dat1 V c).before_in_eq_fetched _ rfl (fun _ => rfl) (fun _ _ _ => rfl) (fun _ => rfl) t d)
  omega

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

set_option maxHeartbeats 1000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  simp only [before1 V c 0 (by decide), before1 V c 1 (by decide), before1 V c 2 (by decide), before1 V c 3 (by decide), before1 V c 4 (by decide), before1 V c 5 (by decide), before1 V c 6 (by decide), before1 V c 7 (by decide), before1 V c 8 (by decide), before1 V c 9 (by decide), before1 V c 10 (by decide), before1 V c 11 (by decide)]
  rw [show (dat1 V c).Φ t.succ = (dat1 V c).Φ t.castSucc from rfl,
    show (dat1 V c).owesAt () t.succ = (dat1 V c).owesAt () t.castSucc from rfl, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (Body1.sound_kernel1 c t Set.univ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation1 (c : Dev nD) : BodyObligation (dat1 (F := F) V c) (defs₀ (F := F)) Variants.none () Set.univ := fun t => by
  rw [bigSep_W1, bigSep_W1]
  exact sound_body1 V c t

end Cert.Kernel.Dat1

end
-- ==== Proof.WRun.lean ====
import proofs.«400912_j69947837382775_3_alg».proof.Proof.WDat0
import proofs.«400912_j69947837382775_3_alg».proof.Proof.WDat1
import proofs.«400912_j69947837382775_3_alg».proof.Proof.Gen.Kernel.Regions
import proofs.«400912_j69947837382775_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Kit
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

set_option backward.isDefEq.respectTransparency.types false in

-- The program runs through its five stretches (host, attention region, host, perceptron region, host), given a segment for each region and what each finds and leaves.
theorem run_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = Gen.V5 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨.rfl, hpre0 c, hpost0 c, hpre1 c, hpost1 c, sep_mono .rfl (hE2 c)⟩)
    (hinit := ?_) (QY := fun c s => ∀ b ∈ Pipeline.ucRefs τ sig, s.mem (((c : Thread nD τ)).1, b) = V5 m outs c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    imodintro
    iapply (pointsTo_read_all (Pipeline.ucRefs τ sig) (fun b => (((c : Thread nD τ)).1, b)) (V5 m outs c) s')
    isplitl [Hh] <;> iassumption

variable (m : (ℓ : Loc nD τ sig) → Buf (Elt F) ℓ)

abbrev VR1 (c : Dev nD) (b : Ref sig .tc) : Buf (Elt F) ((c : Thread nD τ).loc b) := Gen.V1 m c b

-- The contents after the attention region: its two output arrays at the region's final arrays, everything else as before.
def W2 (c : Dev nD) : Valuation τ sig (Elt F) :=
  Function.update (Function.update (Gen.V1 m c) main_v35_0 ((Dat0.dat0 (VR1 m) c).arrAt 15 cfg0.N)) main_v35_1 ((Dat0.dat0 (VR1 m) c).arrAt 16 cfg0.N)

def outs2 : Gen.Outs (F := F) := fun _ r c => W2 m c r

abbrev VR3 (c : Dev nD) (b : Ref sig .tc) : Buf (Elt F) ((c : Thread nD τ).loc b) := Gen.V3 m (outs2 m) c b

def W4 (c : Dev nD) : Valuation τ sig (Elt F) :=
  Function.update (Function.update (Gen.V3 m (outs2 m) c) main_v44_0 ((Dat1.dat1 (VR3 m) c).arrAt 12 cfg1.N)) main_v44_1 ((Dat1.dat1 (VR3 m) c).arrAt 13 cfg1.N)

def outsOf : Gen.Outs (F := F) := fun _ r c => W4 m c r

theorem ne35 : (Proc.devRef .tc main_v35_0 : DevRef τ sig) ≠ Proc.devRef .tc main_v35_1 := StableHlo.devRef_ne_of_ne (by decide)
theorem ne44 : (Proc.devRef .tc main_v44_0 : DevRef τ sig) ≠ Proc.devRef .tc main_v44_1 := StableHlo.devRef_ne_of_ne (by decide)

theorem W2_out0 (c : Dev nD) : W2 m c main_v35_0 = (Dat0.dat0 (VR1 m) c).arrAt 15 cfg0.N := by
  unfold W2; rw [Function.update_of_ne ne35, Function.update_self]
theorem W2_out1 (c : Dev nD) : W2 m c main_v35_1 = (Dat0.dat0 (VR1 m) c).arrAt 16 cfg0.N := by
  unfold W2; rw [Function.update_self]
theorem W4_out0 (c : Dev nD) : W4 m c main_v44_0 = (Dat1.dat1 (VR3 m) c).arrAt 12 cfg1.N := by
  unfold W4; rw [Function.update_of_ne ne44, Function.update_self]
theorem W4_out1 (c : Dev nD) : W4 m c main_v44_1 = (Dat1.dat1 (VR3 m) c).arrAt 13 cfg1.N := by
  unfold W4; rw [Function.update_self]

theorem V2_eq' (c : Dev nD) : Gen.V2 m (outs2 m) c = W2 m c := by
  unfold Gen.V2 outs2; rw [W2_out0, W2_out1]; unfold W2; rfl

theorem W4_of (c : Dev nD) (r : Ref sig .tc) (h : r ∉ ([main_v44_0, main_v44_1] : List (Ref sig .tc))) : W4 m c r = Gen.V3 m (outs2 m) c r := by
  unfold W4
  rw [Function.update_of_ne (StableHlo.devRef_ne_of_ne (List.ne_of_not_mem_cons (List.not_mem_of_not_mem_cons h)) : (Proc.devRef .tc r : DevRef τ sig) ≠ Proc.devRef .tc main_v44_1),
    Function.update_of_ne (StableHlo.devRef_ne_of_ne (List.ne_of_not_mem_cons h) : (Proc.devRef .tc r : DevRef τ sig) ≠ Proc.devRef .tc main_v44_0)]
theorem outsOf_35_0 (j : ℕ) (c : Dev nD) : outsOf m j main_v35_0 c = (Dat0.dat0 (VR1 m) c).arrAt 15 cfg0.N := by
  unfold outsOf
  rw [W4_of m c main_v35_0 (by decide), Gen.V3_of m (outs2 m) c main_v35_0 (by decide), V2_eq', W2_out0]
theorem outsOf_35_1 (j : ℕ) (c : Dev nD) : outsOf m j main_v35_1 c = (Dat0.dat0 (VR1 m) c).arrAt 16 cfg0.N := by
  unfold outsOf
  rw [W4_of m c main_v35_1 (by decide), Gen.V3_of m (outs2 m) c main_v35_1 (by decide), V2_eq', W2_out1]
theorem V2_eq (c : Dev nD) : Gen.V2 m (outsOf m) c = W2 m c := by
  unfold Gen.V2; rw [outsOf_35_0, outsOf_35_1]; unfold W2; rfl
theorem V3_eq (c : Dev nD) : Gen.V3 m (outsOf m) c = Gen.V3 m (outs2 m) c := by
  unfold Gen.V3; rw [V2_eq, V2_eq']
theorem V4_eq (c : Dev nD) : Gen.V4 m (outsOf m) c = W4 m c := by
  unfold Gen.V4; rw [V3_eq]; unfold outsOf; rw [W4_out0, W4_out1]; unfold W4; rfl

theorem W2_of (c : Dev nD) (r : Ref sig .tc) (h : r ∉ ([main_v35_0, main_v35_1] : List (Ref sig .tc))) : W2 m c r = Gen.V1 m c r := by
  unfold W2
  rw [Function.update_of_ne (StableHlo.devRef_ne_of_ne (List.ne_of_not_mem_cons (List.not_mem_of_not_mem_cons h)) : (Proc.devRef .tc r : DevRef τ sig) ≠ Proc.devRef .tc main_v35_1),
    Function.update_of_ne (StableHlo.devRef_ne_of_ne (List.ne_of_not_mem_cons h) : (Proc.devRef .tc r : DevRef τ sig) ≠ Proc.devRef .tc main_v35_0)]

abbrev W2R (c : Dev nD) (b : Ref sig .tc) : Buf (Elt F) ((c : Thread nD τ).loc b) := W2 m c b
abbrev W4R (c : Dev nD) (b : Ref sig .tc) : Buf (Elt F) ((c : Thread nD τ).loc b) := W4 m c b

theorem in0_notin : ∀ w : Fin cfg0.W, (cfg0.win w).isOut = false → Pipeline.arrRef spec0 w ∉ ([main_v35_0, main_v35_1] : List (Ref sig .tc)) := by decide

theorem out0_cases : ∀ w : Fin cfg0.W, (cfg0.win w).isOut = true → w = 15 ∨ w = 16 := by decide

theorem hF0 (c : Dev nD) (w : Fin cfg0.W) : (Dat0.dat0 (VR1 m) c).arrAt w cfg0.N = W2R m c (Pipeline.arrRef spec0 w) := by
  cases h : (cfg0.win w).isOut
  · rw [(Dat0.dat0 (VR1 m) c).arrAt_in w h, Dat0.A_eq0]
    exact (W2_of m c _ (in0_notin w h)).symm
  · rcases out0_cases w h with rfl | rfl
    · exact (W2_out0 m c).symm
    · exact (W2_out1 m c).symm

theorem hrest0 (c : Dev nD) : ∀ b, b ∉ Finset.univ.image (Pipeline.arrRef spec0) → W2R m c b = VR1 m c b :=
  fun b hb => W2_of m c b (by
    intro hmem
    rcases List.mem_cons.mp hmem with e | hmem
    · exact hb (Finset.mem_image.mpr ⟨15, Finset.mem_univ _, by rw [e]⟩)
    · rcases List.mem_cons.mp hmem with e | hmem
      · exact hb (Finset.mem_image.mpr ⟨16, Finset.mem_univ _, by rw [e]⟩)
      · exact absurd hmem (List.not_mem_nil))

theorem in1_notin : ∀ w : Fin cfg1.W, (cfg1.win w).isOut = false → Pipeline.arrRef spec1 w ∉ ([main_v44_0, main_v44_1] : List (Ref sig .tc)) := by decide

theorem out1_cases : ∀ w : Fin cfg1.W, (cfg1.win w).isOut = true → w = 12 ∨ w = 13 := by decide

theorem hF1 (c : Dev nD) (w : Fin cfg1.W) : (Dat1.dat1 (VR3 m) c).arrAt w cfg1.N = W4R m c (Pipeline.arrRef spec1 w) := by
  cases h : (cfg1.win w).isOut
  · rw [(Dat1.dat1 (VR3 m) c).arrAt_in w h, Dat1.A_eq1]
    exact (W4_of m c _ (in1_notin w h)).symm
  · rcases out1_cases w h with rfl | rfl
    · exact (W4_out0 m c).symm
    · exact (W4_out1 m c).symm

theorem hrest1 (c : Dev nD) : ∀ b, b ∉ Finset.univ.image (Pipeline.arrRef spec1) → W4R m c b = VR3 m c b :=
  fun b hb => W4_of m c b (by
    intro hmem
    rcases List.mem_cons.mp hmem with e | hmem
    · exact hb (Finset.mem_image.mpr ⟨12, Finset.mem_univ _, by rw [e]⟩)
    · rcases List.mem_cons.mp hmem with e | hmem
      · exact hb (Finset.mem_image.mpr ⟨13, Finset.mem_univ _, by rw [e]⟩)
      · exact absurd hmem (List.not_mem_nil))

def pdats : (p : Fin 2) → (c : Dev nD) → Dat τ (Elt F) Unit ℕ (UR sig nD τ) ℕ (Pipeline.pin (pcfgs (F := F)) adm p) c
  | ⟨0, _⟩ => fun c => Dat0.dat0 (VR1 m) c
  | ⟨1, _⟩ => fun c => Dat1.dat1 (VR3 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Dat0.body_obligation0 (VR1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Dat0.Φ0_eq (VR1 m) c _]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from Dat0.Φ0_eq (VR1 m) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR1 m c) (W2R m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Dat1.body_obligation1 (VR3 m) c).loose
  hwaits := Pipeline.hwaits_of_owed_zero _ _ _ _ L lv 1 fun _ _ => rfl
  pre c := iprop(StableHlo.held (c : Thread nD τ) (Pipeline.ucRefs τ sig) (Gen.V3 m (outs2 m) c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (VR3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR3 m c) (W4R m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

theorem run_main (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = Gen.V5 m (outsOf m) c b) :=
  run_cond m emb₁ () 𝒱₀ L lv (fun _ _ => rfl) ρ (outsOf m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl) (hpost0 := fun c => by rw [V2_eq]; exact .rfl)
    (R1 := reg1 m) (hpre1 := fun c => by rw [V3_eq]; exact .rfl) (hpost1 := fun c => by rw [V4_eq]; exact .rfl)

-- Every argument array reads back as launched.
theorem post_args (s : MemSt nD τ sig (Elt F)) (c : Dev nD)
    (h : ∀ b ∈ Pipeline.ucRefs τ sig, s.mem (((c : Thread nD τ)).1, b) = Gen.V5 m (outsOf m) c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16) :=
  have k := fun (b : Ref sig .tc) hb => h _ (mem_uc b hb)
  ⟨(k main_arg0 (by decide)).trans (Gen.V5_main_arg0 m (outsOf m) c),
    (k main_arg1 (by decide)).trans (Gen.V5_main_arg1 m (outsOf m) c),
    (k main_arg2 (by decide)).trans (Gen.V5_main_arg2 m (outsOf m) c),
    (k main_arg3 (by decide)).trans (Gen.V5_main_arg3 m (outsOf m) c),
    (k main_arg4 (by decide)).trans (Gen.V5_main_arg4 m (outsOf m) c),
    (k main_arg5 (by decide)).trans (Gen.V5_main_arg5 m (outsOf m) c),
    (k main_arg6 (by decide)).trans (Gen.V5_main_arg6 m (outsOf m) c),
    (k main_arg7 (by decide)).trans (Gen.V5_main_arg7 m (outsOf m) c),
    (k main_arg8 (by decide)).trans (Gen.V5_main_arg8 m (outsOf m) c),
    (k main_arg9 (by decide)).trans (Gen.V5_main_arg9 m (outsOf m) c),
    (k main_arg10 (by decide)).trans (Gen.V5_main_arg10 m (outsOf m) c),
    (k main_arg11 (by decide)).trans (Gen.V5_main_arg11 m (outsOf m) c),
    (k main_arg12 (by decide)).trans (Gen.V5_main_arg12 m (outsOf m) c),
    (k main_arg13 (by decide)).trans (Gen.V5_main_arg13 m (outsOf m) c),
    (k main_arg14 (by decide)).trans (Gen.V5_main_arg14 m (outsOf m) c),
    (k main_arg15 (by decide)).trans (Gen.V5_main_arg15 m (outsOf m) c),
    (k main_arg16 (by decide)).trans (Gen.V5_main_arg16 m (outsOf m) c)⟩

end Cert.Kernel.Run

end
-- ==== Proof.KBody0.lean ====
import proofs.«400912_j69947837382775_3_alg».proof.Proof.Gen.KernelIdeal.Launch
import proofs.«400912_j69947837382775_3_alg».proof.Proof.Gen.KernelIdeal.Skeleton
import proofs.«400912_j69947837382775_3_alg».proof.Proof.Gen.KernelIdeal.Loops
import proofs.«400912_j69947837382775_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rX : Rect S1x1024x512 := Rect.unit (s := S1x1024x512) ![0, 0, 0] S1x1024x512.size inb_S1x1024x512_S1x1024x512_0_0_0

abbrev rW : Rect S512x512 := Rect.unit (s := S512x512) ![0, 0] S512x512.size inb_S512x512_S512x512_0_0

abbrev rB0 : Rect S4x512 := Rect.unit (s := S4x512) ![0, 0] S1x512.size inb_S4x512_S1x512_0_0
abbrev rB1 : Rect S4x512 := Rect.unit (s := S4x512) ![1, 0] S1x512.size inb_S4x512_S1x512_1_0
abbrev rB2 : Rect S4x512 := Rect.unit (s := S4x512) ![2, 0] S1x512.size inb_S4x512_S1x512_2_0
abbrev rB3 : Rect S4x512 := Rect.unit (s := S4x512) ![3, 0] S1x512.size inb_S4x512_S1x512_3_0

abbrev rA : Rect S1024x512 := Rect.unit (s := S1024x512) ![0, 0] S1024x512.size inb_S1024x512_S1024x512_0_0

abbrev rH (k : Fin k0_t1_loop.trips) : Rect S1024x512 := Rect.unit (s := S1024x512) (k0_off1 k) S1024x128.size (k0_off1_inb k)

section Pair
variable (a18 a19 a20 a21 a22 a23 : Vec F S1024x128 .bf16)

-- One head pair's 128 result columns of the first stream, from the pair's columns of the six projections: both streams' exponentiated scores weigh the values before the division by the row sums and the half-and-half mix.
def pair24 : FVec F S1024x128 .bf16 :=
  k0_pay55
    (k0_pay17 (k0_pay4 a20 a23)
      (k0_pay9 (k0_pay4 a20 a23) (k0_pay6 (k0_pay5 a18 a19) (k0_pay5 a18 a19)) (k0_pay6 (k0_pay5 a18 a19) (k0_pay5 a18 a19)))
      (k0_pay13 (k0_pay12 (k0_pay11 (k0_pay2 a21) (k0_pay3 a22)) (k0_pay11 (k0_pay2 a21) (k0_pay3 a22))))
      (k0_pay14 (k0_pay12 (k0_pay11 (k0_pay2 a21) (k0_pay3 a22)) (k0_pay11 (k0_pay2 a21) (k0_pay3 a22)))))
    (k0_pay21 a20 a23)
    (k0_pay27 (k0_pay21 a20 a23) (k0_pay24 (k0_pay23 (k0_pay22 a18 a19) (k0_pay22 a18 a19))) (k0_pay24 (k0_pay23 (k0_pay22 a18 a19) (k0_pay22 a18 a19))))
    (k0_pay31 (k0_pay30 (k0_pay29 (k0_pay19 a21) (k0_pay20 a22)) (k0_pay29 (k0_pay19 a21) (k0_pay20 a22))))
    (k0_pay30 (k0_pay29 (k0_pay19 a21) (k0_pay20 a22)) (k0_pay29 (k0_pay19 a21) (k0_pay20 a22)))

def pair25 : FVec F S1024x128 .bf16 :=
  k0_pay56
    (k0_pay18 (k0_pay4 a20 a23)
      (k0_pay10 (k0_pay4 a20 a23) (k0_pay6 (k0_pay5 a18 a19) (k0_pay5 a18 a19)) (k0_pay6 (k0_pay5 a18 a19) (k0_pay5 a18 a19)))
      (k0_pay13 (k0_pay12 (k0_pay11 (k0_pay2 a21) (k0_pay3 a22)) (k0_pay11 (k0_pay2 a21) (k0_pay3 a22))))
      (k0_pay14 (k0_pay12 (k0_pay11 (k0_pay2 a21) (k0_pay3 a22)) (k0_pay11 (k0_pay2 a21) (k0_pay3 a22)))))
    (k0_pay21 a20 a23)
    (k0_pay28 (k0_pay21 a20 a23) (k0_pay24 (k0_pay23 (k0_pay22 a18 a19) (k0_pay22 a18 a19))) (k0_pay24 (k0_pay23 (k0_pay22 a18 a19) (k0_pay22 a18 a19))))
    (k0_pay31 (k0_pay30 (k0_pay29 (k0_pay19 a21) (k0_pay20 a22)) (k0_pay29 (k0_pay19 a21) (k0_pay20 a22))))
    (k0_pay30 (k0_pay29 (k0_pay19 a21) (k0_pay20 a22)) (k0_pay29 (k0_pay19 a21) (k0_pay20 a22)))

end Pair

section Loop
variable {𝒱 : Variants} {c : Dev nD} {bd : Option 𝒱.V} {i : grid0.Coords}
  {arg1 arg2 arg3 arg16 arg17 : Memref sig .tc .vmem S1x1024x512 .f32}
  {arg4 arg5 arg6 arg7 arg8 arg9 arg10 arg11 : Memref sig .tc .vmem S512x512 .bf16}
  {arg12 arg13 arg14 arg15 : Memref sig .tc .vmem S4x512 .f32}
  {arg18 arg19 arg20 arg21 arg22 arg23 arg24 arg25 : Memref sig .tc .vmem S1024x512 .bf16}
  {arg26 : Memref sig .tc .vmem S1024x1024 .f32}
  {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole} {harg17 : arg17.IsWhole} {harg18 : arg18.IsWhole} {harg19 : arg19.IsWhole} {harg20 : arg20.IsWhole} {harg21 : arg21.IsWhole} {harg22 : arg22.IsWhole} {harg23 : arg23.IsWhole} {harg24 : arg24.IsWhole} {harg25 : arg25.IsWhole} {harg26 : arg26.IsWhole}
  {v1 v3 : FVec F S1024x512 .f32} {v9 : FVec F S1024x512 .bf16} {v17 v21 v23 v25 : FVec F S512 .f32} {v67 : FVec F S512x512 .bf16}
  {X18 : BufTy.Contents (Elt F) arg18.view.ty} {X19 : BufTy.Contents (Elt F) arg19.view.ty} {X20 : BufTy.Contents (Elt F) arg20.view.ty}
  {X21 : BufTy.Contents (Elt F) arg21.view.ty} {X22 : BufTy.Contents (Elt F) arg22.view.ty} {X23 : BufTy.Contents (Elt F) arg23.view.ty}
  {G24 : BufTy.Contents (Elt F) arg24.view.ty} {G25 : BufTy.Contents (Elt F) arg25.view.ty} {G26 : BufTy.Contents (Elt F) arg26.view.ty}

-- Trip `k` stores one piece into the first result: `pair24` of the pair's slices, at the pair's columns, whatever the written buffers held.
theorem trip_fst (k : Fin k0_t1_loop.trips) (f24 : BufTy.Contents (Elt F) arg24.view.ty) (f25 : BufTy.Contents (Elt F) arg25.view.ty) (f26 : BufTy.Contents (Elt F) arg26.view.ty) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 v9 v17 v21 v23 v25 v67 X18 X19 X20 X21 X22 X23 k).1 f24 f25 f26 = [⟨rH k, pair24 (View.ld (arg18.view.read (Elt F) X18) (rH k)) (View.ld (arg19.view.read (Elt F) X19) (rH k)) (View.ld (arg20.view.read (Elt F) X20) (rH k)) (View.ld (arg21.view.read (Elt F) X21) (rH k)) (View.ld (arg22.view.read (Elt F) X22) (rH k)) (View.ld (arg23.view.read (Elt F) X23) (rH k))⟩] := by
  refine Eq.trans (b := [⟨rH k, k0_pay55
      (trip_k0_t1.sl.r_13 arg18 arg19 arg20 arg21 arg22 arg23 arg26 X18 X19 X20 X21 X22 X23 k)
      (trip_k0_t1.sl.r_17 arg20 arg23 X20 X23 k)
      (trip_k0_t1.sl.r_19 arg18 arg19 arg20 arg21 arg22 arg23 arg26 X18 X19 X20 X21 X22 X23 k)
      (trip_k0_t1.sl.r_21 arg18 arg19 arg21 arg22 arg26 X18 X19 X21 X22 k)
      (trip_k0_t1.sl.v319 arg18 arg19 arg21 arg22 arg26 X18 X19 X21 X22 k)⟩]) (by with_unfolding_all rfl) ?_
  sl_unfold_run_names
  sl_unfold_run_names
  simp only [View.readCov_cons_toLoadRect]
  rfl

theorem trip_snd (k : Fin k0_t1_loop.trips) (f24 : BufTy.Contents (Elt F) arg24.view.ty) (f25 : BufTy.Contents (Elt F) arg25.view.ty) (f26 : BufTy.Contents (Elt F) arg26.view.ty) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 v9 v17 v21 v23 v25 v67 X18 X19 X20 X21 X22 X23 k).2.1 f24 f25 f26 = [⟨rH k, pair25 (View.ld (arg18.view.read (Elt F) X18) (rH k)) (View.ld (arg19.view.read (Elt F) X19) (rH k)) (View.ld (arg20.view.read (Elt F) X20) (rH k)) (View.ld (arg21.view.read (Elt F) X21) (rH k)) (View.ld (arg22.view.read (Elt F) X22) (rH k)) (View.ld (arg23.view.read (Elt F) X23) (rH k))⟩] := by
  refine Eq.trans (b := [⟨rH k, k0_pay56
      (trip_k0_t1.sl.r_14 arg18 arg19 arg20 arg21 arg22 arg23 arg26 X18 X19 X20 X21 X22 X23 k)
      (trip_k0_t1.sl.r_17 arg20 arg23 X20 X23 k)
      (trip_k0_t1.sl.r_20 arg18 arg19 arg20 arg21 arg22 arg23 arg26 X18 X19 X20 X21 X22 X23 k)
      (trip_k0_t1.sl.r_21 arg18 arg19 arg21 arg22 arg26 X18 X19 X21 X22 k)
      (trip_k0_t1.sl.v319 arg18 arg19 arg21 arg22 arg26 X18 X19 X21 X22 k)⟩]) (by with_unfolding_all rfl) ?_
  sl_unfold_run_names
  sl_unfold_run_names
  simp only [View.readCov_cons_toLoadRect]
  rfl

def hp0 : Fin k0_t1_loop.trips := ⟨0, by decide⟩
def hp1 : Fin k0_t1_loop.trips := ⟨1, by decide⟩
def hp2 : Fin k0_t1_loop.trips := ⟨2, by decide⟩
def hp3 : Fin k0_t1_loop.trips := ⟨3, by decide⟩

section Attn
variable (Q K V Q' K' V' : Vec F S1024x512 .bf16)

def attn24 : Vec F S1024x512 .bf16 :=
  View.canon [⟨rH hp3, pair24 (View.ld Q (rH hp3)) (View.ld K (rH hp3)) (View.ld V (rH hp3)) (View.ld Q' (rH hp3)) (View.ld K' (rH hp3)) (View.ld V' (rH hp3))⟩, ⟨rH hp2, pair24 (View.ld Q (rH hp2)) (View.ld K (rH hp2)) (View.ld V (rH hp2)) (View.ld Q' (rH hp2)) (View.ld K' (rH hp2)) (View.ld V' (rH hp2))⟩,
    ⟨rH hp1, pair24 (View.ld Q (rH hp1)) (View.ld K (rH hp1)) (View.ld V (rH hp1)) (View.ld Q' (rH hp1)) (View.ld K' (rH hp1)) (View.ld V' (rH hp1))⟩, ⟨rH hp0, pair24 (View.ld Q (rH hp0)) (View.ld K (rH hp0)) (View.ld V (rH hp0)) (View.ld Q' (rH hp0)) (View.ld K' (rH hp0)) (View.ld V' (rH hp0))⟩]

def attn25 : Vec F S1024x512 .bf16 :=
  View.canon [⟨rH hp3, pair25 (View.ld Q (rH hp3)) (View.ld K (rH hp3)) (View.ld V (rH hp3)) (View.ld Q' (rH hp3)) (View.ld K' (rH hp3)) (View.ld V' (rH hp3))⟩, ⟨rH hp2, pair25 (View.ld Q (rH hp2)) (View.ld K (rH hp2)) (View.ld V (rH hp2)) (View.ld Q' (rH hp2)) (View.ld K' (rH hp2)) (View.ld V' (rH hp2))⟩,
    ⟨rH hp1, pair25 (View.ld Q (rH hp1)) (View.ld K (rH hp1)) (View.ld V (rH hp1)) (View.ld Q' (rH hp1)) (View.ld K' (rH hp1)) (View.ld V' (rH hp1))⟩, ⟨rH hp0, pair25 (View.ld Q (rH hp0)) (View.ld K (rH hp0)) (View.ld V (rH hp0)) (View.ld Q' (rH hp0)) (View.ld K' (rH hp0)) (View.ld V' (rH hp0))⟩]

end Attn

theorem cover_pairs (p3 : (rH hp3).shape.Idx → Elt F .bf16) (p2 : (rH hp2).shape.Idx → Elt F .bf16)
    (p1 : (rH hp1).shape.Idx → Elt F .bf16) (p0 : (rH hp0).shape.Idx → Elt F .bf16) (y : S1024x512.Idx) :
    ∃ pc ∈ ([⟨rH hp3, p3⟩, ⟨rH hp2, p2⟩, ⟨rH hp1, p1⟩, ⟨rH hp0, p0⟩] : List (View.Piece (Elt F) S1024x512 .bf16)), y ∈ pc.1.set :=
  View.cover_of_tiled (s := S1024x512) [⟨rH hp3, p3⟩, ⟨rH hp2, p2⟩, ⟨rH hp1, p1⟩, ⟨rH hp0, p0⟩] S1024x128.size (by sl_kernel_rfl) y

-- The pieces before trip `n + 1` are trip `n`'s piece in front of those before trip `n`.
theorem pb_fst_succ (n : ℕ) (h : n < k0_t1_loop.trips) :
    (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 v9 v17 v21 v23 v25 v67 X18 X19 X20 X21 X22 X23 G24 G25 G26 (n + 1)).1 = ⟨rH ⟨n, h⟩, pair24 (View.ld (arg18.view.read (Elt F) X18) (rH ⟨n, h⟩)) (View.ld (arg19.view.read (Elt F) X19) (rH ⟨n, h⟩)) (View.ld (arg20.view.read (Elt F) X20) (rH ⟨n, h⟩)) (View.ld (arg21.view.read (Elt F) X21) (rH ⟨n, h⟩)) (View.ld (arg22.view.read (Elt F) X22) (rH ⟨n, h⟩)) (View.ld (arg23.view.read (Elt F) X23) (rH ⟨n, h⟩))⟩ :: (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 v9 v17 v21 v23 v25 v67 X18 X19 X20 X21 X22 X23 G24 G25 G26 n).1 := by
  have e1 := congrArg Prod.fst (pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 v9 v17 v21 v23 v25 v67 X18 X19 X20 X21 X22 X23 G24 G25 G26 ⟨n, h⟩)
  dsimp only at e1
  rw [trip_fst] at e1
  exact e1

theorem pb_snd_succ (n : ℕ) (h : n < k0_t1_loop.trips) :
    (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 v9 v17 v21 v23 v25 v67 X18 X19 X20 X21 X22 X23 G24 G25 G26 (n + 1)).2.1 = ⟨rH ⟨n, h⟩, pair25 (View.ld (arg18.view.read (Elt F) X18) (rH ⟨n, h⟩)) (View.ld (arg19.view.read (Elt F) X19) (rH ⟨n, h⟩)) (View.ld (arg20.view.read (Elt F) X20) (rH ⟨n, h⟩)) (View.ld (arg21.view.read (Elt F) X21) (rH ⟨n, h⟩)) (View.ld (arg22.view.read (Elt F) X22) (rH ⟨n, h⟩)) (View.ld (arg23.view.read (Elt F) X23) (rH ⟨n, h⟩))⟩ :: (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 v9 v17 v21 v23 v25 v67 X18 X19 X20 X21 X22 X23 G24 G25 G26 n).2.1 := by
  have e1 := congrArg (fun p => p.2.1) (pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 v9 v17 v21 v23 v25 v67 X18 X19 X20 X21 X22 X23 G24 G25 G26 ⟨n, h⟩)
  dsimp only at e1
  rw [trip_snd] at e1
  exact e1

-- The four pairs' column blocks tile the 512 columns, so after the loop the result reads as the four pieces laid side by side.
theorem loop24 :
    arg24.view.read (Elt F) (arg24.view.writes (Elt F) G24 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 v9 v17 v21 v23 v25 v67 X18 X19 X20 X21 X22 X23 G24 G25 G26 4).1) = attn24 (arg18.view.read (Elt F) X18) (arg19.view.read (Elt F) X19) (arg20.view.read (Elt F) X20) (arg21.view.read (Elt F) X21) (arg22.view.read (Elt F) X22) (arg23.view.read (Elt F) X23) := by
  rw [pb_fst_succ 3 (by decide), pb_fst_succ 2 (by decide), pb_fst_succ 1 (by decide), pb_fst_succ 0 (by decide)]
  exact View.read_writes_eq_canon _ _ _ (cover_pairs _ _ _ _)

theorem loop25 :
    arg25.view.read (Elt F) (arg25.view.writes (Elt F) G25 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 v9 v17 v21 v23 v25 v67 X18 X19 X20 X21 X22 X23 G24 G25 G26 4).2.1) = attn25 (arg18.view.read (Elt F) X18) (arg19.view.read (Elt F) X19) (arg20.view.read (Elt F) X20) (arg21.view.read (Elt F) X21) (arg22.view.read (Elt F) X22) (arg23.view.read (Elt F) X23) := by
  rw [pb_snd_succ 3 (by decide), pb_snd_succ 2 (by decide), pb_snd_succ 1 (by decide), pb_snd_succ 0 (by decide)]
  exact View.read_writes_eq_canon _ _ _ (cover_pairs _ _ _ _)

section Body
variable (x0 x1 x2 : Vec F S1x1024x512 .f32) (w3 w4 w5 w6 w7 w8 w9 w10 : Vec F S512x512 .bf16)
  (b11 b12 l13 l14 : Vec F S4x512 .f32)

-- The six projections (queries, keys, values of the two streams), each one whole store.
def proj18 : Vec F S1024x512 .bf16 :=
  View.canon [⟨rA, k0_pay46 (k0_pay44 (View.ld x0 rX) (View.ld x2 rX) (View.ld w3 rW)) (k0_pay45 (View.ld b11 rB0))⟩]
def proj19 : Vec F S1024x512 .bf16 :=
  View.canon [⟨rA, k0_pay47 (k0_pay34 (View.ld x0 rX) (View.ld x2 rX)) (k0_pay37 (View.ld b11 rB1)) (View.ld w4 rW)⟩]
def proj20 : Vec F S1024x512 .bf16 :=
  View.canon [⟨rA, k0_pay48 (k0_pay35 (View.ld x0 rX)) (k0_pay38 (View.ld b11 rB2)) (View.ld w5 rW)⟩]
def proj21 : Vec F S1024x512 .bf16 :=
  View.canon [⟨rA, k0_pay49 (k0_pay36 (View.ld x1 rX)) (k0_pay40 (View.ld b12 rB0)) (View.ld w6 rW)⟩]
def proj22 : Vec F S1024x512 .bf16 :=
  View.canon [⟨rA, k0_pay51 (k0_pay36 (View.ld x1 rX)) (k0_pay41 (View.ld b12 rB1)) (k0_pay50 (View.ld w7 rW))⟩]
def proj23 : Vec F S1024x512 .bf16 :=
  View.canon [⟨rA, k0_pay52 (k0_pay36 (View.ld x1 rX)) (k0_pay42 (View.ld b12 rB2)) (View.ld w8 rW)⟩]

-- A stream's rows after the output projection and the residual sum, before the normalisation.
def pre15 : FVec F S1024x512 .f32 :=
  k0_pay57 (k0_pay32 (View.ld x0 rX)) (k0_pay39 (View.ld b11 rB3))
    (View.ld (attn24 (proj18 x0 x2 w3 b11) (proj19 x0 x2 w4 b11) (proj20 x0 w5 b11) (proj21 x1 w6 b12) (proj22 x1 w7 b12) (proj23 x1 w8 b12)) rA)
    (View.ld w9 rW)

def pre16 : FVec F S1024x512 .f32 :=
  k0_pay58 (k0_pay33 (View.ld x1 rX)) (k0_pay43 (View.ld b12 rB3))
    (View.ld (attn25 (proj18 x0 x2 w3 b11) (proj19 x0 x2 w4 b11) (proj20 x0 w5 b11) (proj21 x1 w6 b12) (proj22 x1 w7 b12) (proj23 x1 w8 b12)) rA)
    (View.ld w10 rW)

end Body

def out0_15 (x0 x1 x2 : Vec F S1x1024x512 .f32) (w3 w4 w5 w6 w7 w8 w9 w10 : Vec F S512x512 .bf16)
    (b11 b12 l13 l14 : Vec F S4x512 .f32) : Vec F S1x1024x512 .f32 :=
  View.canon [⟨rX, k0_pay59 (pre15 x0 x1 x2 w3 w4 w5 w6 w7 w8 w9 b11 b12) (View.ld l13 rB0) (View.ld l13 rB1)⟩]

def out0_16 (x0 x1 x2 : Vec F S1x1024x512 .f32) (w3 w4 w5 w6 w7 w8 w9 w10 : Vec F S512x512 .bf16)
    (b11 b12 l13 l14 : Vec F S4x512 .f32) : Vec F S1x1024x512 .f32 :=
  View.canon [⟨rX, k0_pay1 (pre16 x0 x1 x2 w3 w4 w5 w6 w7 w8 w10 b11 b12) (k0_pay60 (View.ld l14 rB0)) (k0_pay61 (View.ld l14 rB1))
    (k0_pay62 (pre16 x0 x1 x2 w3 w4 w5 w6 w7 w8 w10 b11 b12))⟩]

theorem cover_rX (p : rX.shape.Idx → Elt F .f32) (y : S1x1024x512.Idx) :
    ∃ pc ∈ ([⟨rX, p⟩] : List (View.Piece (Elt F) S1x1024x512 .f32)), y ∈ pc.1.set :=
  View.cover_of_tiled (s := S1x1024x512) [⟨rX, p⟩] S1x1024x512.size (by rfl) y

def scratchHeld (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f))

set_option maxHeartbeats 8000000 in
-- The body's triple on whole memrefs: the fifteen inputs come back as they were, the two outputs at `out0_15`, `out0_16` of the inputs, the nine scratch buffers at some contents.
theorem sound_kernel0_run (E : Set ℕ) (x0 x1 x2 : Vec F S1x1024x512 .f32) (w3 w4 w5 w6 w7 w8 w9 w10 : Vec F S512x512 .bf16) (b11 b12 l13 l14 : Vec F S4x512 .f32) (K : PUnit → sProp 𝕄) (P : sProp 𝕄)
    (hP : iprop(owns (c : Thread nD τ) arg1 fullShare x0 ∗ owns (c : Thread nD τ) arg2 fullShare x1 ∗ owns (c : Thread nD τ) arg3 fullShare x2 ∗ owns (c : Thread nD τ) arg4 fullShare w3 ∗ owns (c : Thread nD τ) arg5 fullShare w4 ∗ owns (c : Thread nD τ) arg6 fullShare w5 ∗ owns (c : Thread nD τ) arg7 fullShare w6 ∗ owns (c : Thread nD τ) arg8 fullShare w7 ∗ owns (c : Thread nD τ) arg9 fullShare w8 ∗ owns (c : Thread nD τ) arg10 fullShare w9 ∗ owns (c : Thread nD τ) arg11 fullShare w10 ∗ owns (c : Thread nD τ) arg12 fullShare b11 ∗ owns (c : Thread nD τ) arg13 fullShare b12 ∗ owns (c : Thread nD τ) arg14 fullShare l13 ∗ owns (c : Thread nD τ) arg15 fullShare l14 ∗ owns (c : Thread nD τ) arg16 fullShare (out0_15 x0 x1 x2 w3 w4 w5 w6 w7 w8 w9 w10 b11 b12 l13 l14) ∗ owns (c : Thread nD τ) arg17 fullShare (out0_16 x0 x1 x2 w3 w4 w5 w6 w7 w8 w9 w10 b11 b12 l13 l14) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) ⊢ P) :
    iprop(owns (c : Thread nD τ) arg1 fullShare x0 ∗ owns (c : Thread nD τ) arg2 fullShare x1 ∗ owns (c : Thread nD τ) arg3 fullShare x2 ∗ owns (c : Thread nD τ) arg4 fullShare w3 ∗ owns (c : Thread nD τ) arg5 fullShare w4 ∗ owns (c : Thread nD τ) arg6 fullShare w5 ∗ owns (c : Thread nD τ) arg7 fullShare w6 ∗ owns (c : Thread nD τ) arg8 fullShare w7 ∗ owns (c : Thread nD τ) arg9 fullShare w8 ∗ owns (c : Thread nD τ) arg10 fullShare w9 ∗ owns (c : Thread nD τ) arg11 fullShare w10 ∗ owns (c : Thread nD τ) arg12 fullShare b11 ∗ owns (c : Thread nD τ) arg13 fullShare b12 ∗ owns (c : Thread nD τ) arg14 fullShare l13 ∗ owns (c : Thread nD τ) arg15 fullShare l14 ∗ (∃ d, owns (c : Thread nD τ) arg16 fullShare d) ∗ (∃ d, owns (c : Thread nD τ) arg17 fullShare d) ∗ iprop((∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d))
        ∗ (P -∗ K ⟨⟩))
      ⊢ wp frame (wpE (defs₀ (F := F)) Variants.none c none) E (cc0__attn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__attn_kernel_eq_skeleton]; unfold cc0__attn_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  sl_exec
  sl_step
  iapply Hk
  iapply hP
  unfold owns
  isplitl [H1]
  · iexists _; isplitr
    swap; · iexact H1
    ipureintro; exact harg1.read_unread _
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; exact harg8.read_unread _
  isplitl [H9]
  · iexists _; isplitr
    swap; · iexact H9
    ipureintro; exact harg9.read_unread _
  isplitl [H10]
  · iexists _; isplitr
    swap; · iexact H10
    ipureintro; exact harg10.read_unread _
  isplitl [H11]
  · iexists _; isplitr
    swap; · iexact H11
    ipureintro; exact harg11.read_unread _
  isplitl [H12]
  · iexists _; isplitr
    swap; · iexact H12
    ipureintro; exact harg12.read_unread _
  isplitl [H13]
  · iexists _; isplitr
    swap; · iexact H13
    ipureintro; exact harg13.read_unread _
  isplitl [H14]
  · iexists _; isplitr
    swap; · iexact H14
    ipureintro; exact harg14.read_unread _
  isplitl [H15]
  · iexists _; isplitr
    swap; · iexact H15
    ipureintro; exact harg15.read_unread _
  isplitl [H16]
  · iexists _; isplitr
    swap; · iexact H16
    ipureintro
    rw [View.read_writes_eq_canon _ _ _ (cover_rX _)]
    unfold out0_15 pre15 proj18 proj19 proj20 proj21 proj22 proj23
    sl_unfold_run_names
    sl_unfold_run_names
    generalize hn : Scf.trips _ _ _ = n
    obtain rfl : n = 4 := hn.symm.trans (by decide)
    simp only [View.readAt_eq_ld, Memref.IsWhole.read_unread, loop24, loop25, View.read_writes_junk_eq_canon]
  isplitl [H17]
  · iexists _; isplitr
    swap; · iexact H17
    ipureintro
    rw [View.read_writes_eq_canon _ _ _ (cover_rX _)]
    unfold out0_16 pre16 proj18 proj19 proj20 proj21 proj22 proj23
    sl_unfold_run_names
    sl_unfold_run_names
    generalize hn : Scf.trips _ _ _ = n
    obtain rfl : n = 4 := hn.symm.trans (by decide)
    simp only [View.readAt_eq_ld, Memref.IsWhole.read_unread, loop24, loop25, View.read_writes_junk_eq_canon]
  isplitl [H18]
  · iexists _; iexists _; isplitr
    swap; · iexact H18
    ipureintro; rfl
  isplitl [H19]
  · iexists _; iexists _; isplitr
    swap; · iexact H19
    ipureintro; rfl
  isplitl [H20]
  · iexists _; iexists _; isplitr
    swap; · iexact H20
    ipureintro; rfl
  isplitl [H21]
  · iexists _; iexists _; isplitr
    swap; · iexact H21
    ipureintro; rfl
  isplitl [H22]
  · iexists _; iexists _; isplitr
    swap; · iexact H22
    ipureintro; rfl
  isplitl [H23]
  · iexists _; iexists _; isplitr
    swap; · iexact H23
    ipureintro; rfl
  isplitl [H24]
  · iexists _; iexists _; isplitr
    swap; · iexact H24
    ipureintro; rfl
  isplitl [H25]
  · iexists _; iexists _; isplitr
    swap; · iexact H25
    ipureintro; rfl
  iexists _; iexists _; isplitr
  swap; · iexact H26
  ipureintro; rfl

end Loop

set_option maxHeartbeats 2000000 in

theorem sound_kernel0 (c : Dev nD) (t : Fin cfg0.N) (E : Set ℕ) (x0 x1 x2 : Vec F S1x1024x512 .f32) (w3 w4 w5 w6 w7 w8 w9 w10 : Vec F S512x512 .bf16) (b11 b12 l13 l14 : Vec F S4x512 .f32) (K : PUnit → sProp 𝕄) :
    iprop(owns (c : Thread nD τ) (st0_0 t) fullShare x0 ∗ owns (c : Thread nD τ) (st0_1 t) fullShare x1 ∗ owns (c : Thread nD τ) (st0_2 t) fullShare x2 ∗ owns (c : Thread nD τ) (st0_3 t) fullShare w3 ∗ owns (c : Thread nD τ) (st0_4 t) fullShare w4 ∗ owns (c : Thread nD τ) (st0_5 t) fullShare w5 ∗ owns (c : Thread nD τ) (st0_6 t) fullShare w6 ∗ owns (c : Thread nD τ) (st0_7 t) fullShare w7 ∗ owns (c : Thread nD τ) (st0_8 t) fullShare w8 ∗ owns (c : Thread nD τ) (st0_9 t) fullShare w9 ∗ owns (c : Thread nD τ) (st0_10 t) fullShare w10 ∗ owns (c : Thread nD τ) (st0_11 t) fullShare b11 ∗ owns (c : Thread nD τ) (st0_12 t) fullShare b12 ∗ owns (c : Thread nD τ) (st0_13 t) fullShare l13 ∗ owns (c : Thread nD τ) (st0_14 t) fullShare l14 ∗ (∃ d, owns (c : Thread nD τ) (st0_15 t) fullShare d) ∗ (∃ d, owns (c : Thread nD τ) (st0_16 t) fullShare d) ∗ scratchHeld c
        ∗ (iprop(owns (c : Thread nD τ) (st0_0 t) fullShare x0 ∗ owns (c : Thread nD τ) (st0_1 t) fullShare x1 ∗ owns (c : Thread nD τ) (st0_2 t) fullShare x2 ∗ owns (c : Thread nD τ) (st0_3 t) fullShare w3 ∗ owns (c : Thread nD τ) (st0_4 t) fullShare w4 ∗ owns (c : Thread nD τ) (st0_5 t) fullShare w5 ∗ owns (c : Thread nD τ) (st0_6 t) fullShare w6 ∗ owns (c : Thread nD τ) (st0_7 t) fullShare w7 ∗ owns (c : Thread nD τ) (st0_8 t) fullShare w8 ∗ owns (c : Thread nD τ) (st0_9 t) fullShare w9 ∗ owns (c : Thread nD τ) (st0_10 t) fullShare w10 ∗ owns (c : Thread nD τ) (st0_11 t) fullShare b11 ∗ owns (c : Thread nD τ) (st0_12 t) fullShare b12 ∗ owns (c : Thread nD τ) (st0_13 t) fullShare l13 ∗ owns (c : Thread nD τ) (st0_14 t) fullShare l14 ∗ owns (c : Thread nD τ) (st0_15 t) fullShare (out0_15 x0 x1 x2 w3 w4 w5 w6 w7 w8 w9 w10 b11 b12 l13 l14) ∗ owns (c : Thread nD τ) (st0_16 t) fullShare (out0_16 x0 x1 x2 w3 w4 w5 w6 w7 w8 w9 w10 b11 b12 l13 l14) ∗ scratchHeld c) -∗ K ⟨⟩))
      ⊢ wp frame (wpE (defs₀ (F := F)) Variants.none c none) E (bodyAt0 t) K := by
  have h := sound_kernel0_run (F := F) (c := c) (i := grid0.coords t) (arg1 := win0_0.stage (cfg0.slots t 0)) (harg1 := hstage0_0 ((cfg0.slots t 0).cast nbuf0_0)) (arg2 := win0_1.stage (cfg0.slots t 1)) (harg2 := hstage0_1 ((cfg0.slots t 1).cast nbuf0_1)) (arg3 := win0_2.stage (cfg0.slots t 2)) (harg3 := hstage0_2 ((cfg0.slots t 2).cast nbuf0_2)) (arg4 := win0_3.stage (cfg0.slots t 3)) (harg4 := hstage0_3 ((cfg0.slots t 3).cast nbuf0_3)) (arg5 := win0_4.stage (cfg0.slots t 4)) (harg5 := hstage0_4 ((cfg0.slots t 4).cast nbuf0_4)) (arg6 := win0_5.stage (cfg0.slots t 5)) (harg6 := hstage0_5 ((cfg0.slots t 5).cast nbuf0_5)) (arg7 := win0_6.stage (cfg0.slots t 6)) (harg7 := hstage0_6 ((cfg0.slots t 6).cast nbuf0_6)) (arg8 := win0_7.stage (cfg0.slots t 7)) (harg8 := hstage0_7 ((cfg0.slots t 7).cast nbuf0_7)) (arg9 := win0_8.stage (cfg0.slots t 8)) (harg9 := hstage0_8 ((cfg0.slots t 8).cast nbuf0_8)) (arg10 := win0_9.stage (cfg0.slots t 9)) (harg10 := hstage0_9 ((cfg0.slots t 9).cast nbuf0_9)) (arg11 := win0_10.stage (cfg0.slots t 10)) (harg11 := hstage0_10 ((cfg0.slots t 10).cast nbuf0_10)) (arg12 := win0_11.stage (cfg0.slots t 11)) (harg12 := hstage0_11 ((cfg0.slots t 11).cast nbuf0_11)) (arg13 := win0_12.stage (cfg0.slots t 12)) (harg13 := hstage0_12 ((cfg0.slots t 12).cast nbuf0_12)) (arg14 := win0_13.stage (cfg0.slots t 13)) (harg14 := hstage0_13 ((cfg0.slots t 13).cast nbuf0_13)) (arg15 := win0_14.stage (cfg0.slots t 14)) (harg15 := hstage0_14 ((cfg0.slots t 14).cast nbuf0_14)) (arg16 := win0_15.stage (cfg0.slots t 15)) (harg16 := hstage0_15 ((cfg0.slots t 15).cast nbuf0_15)) (arg17 := win0_16.stage (cfg0.slots t 16)) (harg17 := hstage0_16 ((cfg0.slots t 16).cast nbuf0_16)) (arg18 := Memref.whole cc0_scratch0) (harg18 := Memref.isWhole_whole _) (arg19 := Memref.whole cc0_scratch1) (harg19 := Memref.isWhole_whole _) (arg20 := Memref.whole cc0_scratch2) (harg20 := Memref.isWhole_whole _) (arg21 := Memref.whole cc0_scratch3) (harg21 := Memref.isWhole_whole _) (arg22 := Memref.whole cc0_scratch4) (harg22 := Memref.isWhole_whole _) (arg23 := Memref.whole cc0_scratch5) (harg23 := Memref.isWhole_whole _) (arg24 := Memref.whole cc0_scratch6) (harg24 := Memref.isWhole_whole _) (arg25 := Memref.whole cc0_scratch7) (harg25 := Memref.isWhole_whole _) (arg26 := Memref.whole cc0_scratch8) (harg26 := Memref.isWhole_whole _) E x0 x1 x2 w3 w4 w5 w6 w7 w8 w9 w10 b11 b12 l13 l14 K _ (BI.Entails.refl _)
  simp only [owns_whole] at h
  unfold scratchHeld
  exact h

end Cert.KernelIdeal.Body0

end
-- ==== Proof.KDat0.lean ====
import proofs.«400912_j69947837382775_3_alg».proof.Proof.KBody0
import proofs.«400912_j69947837382775_3_alg».proof.Proof.Gen.KernelIdeal.Launch
import proofs.«400912_j69947837382775_3_alg».proof.Proof.Gen.KernelIdeal.Points
import Idealize.ShloMosaic.Lib.Pipeline.FrameBody
import Idealize.ShloMosaic.Lib.Tactic

set_option maxRecDepth 16384

noncomputable section

namespace Cert.KernelIdeal.Dat0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off the window's array as the region finds it.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- The region's proof data: after the body at point `t` each input holds its block and each output the body's function of the fifteen input blocks.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => Body0.out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨16, _⟩ => Body0.out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨_ + 17, h⟩ => absurd h (Nat.not_lt.2 (Nat.le_add_left _ _))
  Φ _ := iprop(Body0.scratchHeld c ∗ Pipeline.scopedRestBut (Ix := Unit) (Name := ℕ) (U := UR sig nD τ) (Lvl := ℕ) (Val := Elt F) spec0 c [cc0_scratch0, cc0_scratch1, cc0_scratch2, cc0_scratch3, cc0_scratch4, cc0_scratch5, cc0_scratch6, cc0_scratch7, cc0_scratch8] ∗ ∃ r, prngReg c r)
  q _ := fullShare
  owed _ := 0

theorem A_eq0 (c : Dev nD) (w : Fin cfg0.W) : (dat0 V c).A w = V c (Pipeline.arrRef spec0 w) := by
  dsimp only [dat0]

theorem Φ0_unfold (c : Dev nD) (p : Fin (cfg0.N + 1)) :
    (dat0 V c).Φ p = iprop(Body0.scratchHeld c ∗ Pipeline.scopedRestBut (Ix := Unit) (Name := ℕ) (U := UR sig nD τ) (Lvl := ℕ) (Val := Elt F) spec0 c [cc0_scratch0, cc0_scratch1, cc0_scratch2, cc0_scratch3, cc0_scratch4, cc0_scratch5, cc0_scratch6, cc0_scratch7, cc0_scratch8] ∗ ∃ r, prngReg c r) := by
  dsimp only [dat0]

theorem Φ0_eq (c : Dev nD) (p : Fin (cfg0.N + 1)) :
    (dat0 V c).Φ p = Pipeline.ΦA (U := UR sig nD τ) (Val := Elt F) spec0 c := by
  rw [Φ0_unfold]
  unfold Pipeline.ΦA Body0.scratchHeld
  rw [scopedRest0_split]
  exact (Idealize.SL.BI.equiv_iff.mp ⟨Idealize.SL.BI.sep_assoc, Idealize.SL.BI.sep_assoc'⟩).symm

theorem after0_15 (c : Dev nD) (t : Fin cfg0.N) : (dat0 V c).after 15 t = Body0.out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]
theorem after0_16 (c : Dev nD) (t : Fin cfg0.N) : (dat0 V c).after 16 t = Body0.out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]

theorem before0 (c : Dev nD) (w : Fin cfg0.W) (hw : w.val < 15) (t : Fin cfg0.N) (d) :
    (dat0 V c).before w t d = (dat0 V c).fetched w t d := by
  obtain ⟨w, hlt⟩ := w
  replace hw : w < 15 := hw
  iterate 15 (rcases w with _ | w; · exact (dat0 V c).before_in_eq_fetched _ rfl (fun _ => rfl) (fun _ _ _ => rfl) (fun _ => rfl) t d)
  omega

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t))

set_option maxHeartbeats 1000000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0
  simp only [before0 V c 0 (by decide), before0 V c 1 (by decide), before0 V c 2 (by decide), before0 V c 3 (by decide), before0 V c 4 (by decide), before0 V c 5 (by decide), before0 V c 6 (by decide), before0 V c 7 (by decide), before0 V c 8 (by decide), before0 V c 9 (by decide), before0 V c 10 (by decide), before0 V c 11 (by decide), before0 V c 12 (by decide), before0 V c 13 (by decide), before0 V c 14 (by decide)]
  rw [show (dat0 V c).Φ t.succ = (dat0 V c).Φ t.castSucc from rfl,
    show (dat0 V c).owesAt () t.succ = (dat0 V c).owesAt () t.castSucc from rfl,
    after0_15, after0_16, Φ0_unfold]
  iintro ⟨⟨Hs, Hb, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (Body0.sound_kernel0 c t Set.univ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [Hs]; · iexact Hs
  iintro ⟨H0, H1, H2, H3, H4, H5, H6, H7, H8, H9, H10, H11, H12, H13, H14, H15, H16, Hs⟩
  isplitl [Hs Hb Hr]
  · isplitl [Hs]; · iexact Hs
    isplitl [Hb]; · iexact Hb
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem body_obligation0 (c : Dev nD) : BodyObligation (dat0 (F := F) V c) (defs₀ (F := F)) Variants.none () Set.univ := fun t => by
  rw [bigSep_W0, bigSep_W0]
  exact sound_body0 V c t

end Cert.KernelIdeal.Dat0

end
-- ==== Proof.KBody1.lean ====
import proofs.«400912_j69947837382775_3_alg».proof.Proof.Gen.KernelIdeal.Launch
import proofs.«400912_j69947837382775_3_alg».proof.Proof.Gen.KernelIdeal.Skeleton
import proofs.«400912_j69947837382775_3_alg».proof.Proof.Gen.KernelIdeal.Points
import Idealize.ShloMosaic.Lib.Pipeline.FrameBody
import Idealize.ShloMosaic.Lib.Tactic

set_option maxRecDepth 16384

noncomputable section

namespace Cert.KernelIdeal.Body1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rA : Rect S1x1024x512 := Rect.unit (s := S1x1024x512) ![0, 0, 0] S1x1024x512.size inb_S1x1024x512_S1x1024x512_0_0_0

abbrev rW1 : Rect S512x2048 := Rect.unit (s := S512x2048) ![0, 0] S512x2048.size inb_S512x2048_S512x2048_0_0

abbrev rB1 : Rect S2048 := Rect.unit (s := S2048) ![0] S2048.size inb_S2048_S2048_0

abbrev rW2 : Rect S2048x512 := Rect.unit (s := S2048x512) ![0, 0] S2048x512.size inb_S2048x512_S2048x512_0_0

abbrev rB2 : Rect S512 := Rect.unit (s := S512) ![0] S512.size inb_S512_S512_0

abbrev rT2 : Rect S4x512 := Rect.unit (s := S4x512) ![2, 0] S1x512.size inb_S4x512_S1x512_2_0

abbrev rT3 : Rect S4x512 := Rect.unit (s := S4x512) ![3, 0] S1x512.size inb_S4x512_S1x512_3_0

-- What the body leaves in its first output: one whole store of the stream plus its two-layer perceptron, normalised with rows 2 and 3 of the stream's table.
def out1_12 (x0 x1 : Vec F S1x1024x512 .f32) (x2 : Vec F S512x2048 .bf16) (x3 : Vec F S2048 .f32) (x4 : Vec F S2048x512 .bf16) (x5 : Vec F S512 .f32) (x6 : Vec F S512x2048 .bf16) (x7 : Vec F S2048 .f32) (x8 : Vec F S2048x512 .bf16) (x9 : Vec F S512 .f32) (x10 x11 : Vec F S4x512 .f32) : Vec F S1x1024x512 .f32 :=
  View.canon [⟨rA, k1_pay8 (k1_pay2 (View.ld x0 rA) (View.ld x2 rW1) (View.ld x3 rB1) (View.ld x4 rW2) (View.ld x5 rB2)) (k1_pay3 (View.ld x10 rT2)) (k1_pay4 (View.ld x10 rT3)) (k1_pay6 (View.ld x0 rA) (View.ld x2 rW1) (View.ld x3 rB1) (View.ld x4 rW2) (View.ld x5 rB2)) (k1_pay7 (View.ld x0 rA) (View.ld x2 rW1) (View.ld x3 rB1) (View.ld x4 rW2) (View.ld x5 rB2))⟩]

def out1_13 (x0 x1 : Vec F S1x1024x512 .f32) (x2 : Vec F S512x2048 .bf16) (x3 : Vec F S2048 .f32) (x4 : Vec F S2048x512 .bf16) (x5 : Vec F S512 .f32) (x6 : Vec F S512x2048 .bf16) (x7 : Vec F S2048 .f32) (x8 : Vec F S2048x512 .bf16) (x9 : Vec F S512 .f32) (x10 x11 : Vec F S4x512 .f32) : Vec F S1x1024x512 .f32 :=
  View.canon [⟨rA, k1_pay1 (k1_pay9 (View.ld x1 rA) (View.ld x6 rW1) (View.ld x7 rB1) (View.ld x8 rW2) (View.ld x9 rB2)) (k1_pay10 (View.ld x11 rT2)) (View.ld x11 rT3)⟩]

theorem cover1_12 (p0 : Vec F S1x1024x512 .f32) (y : S1x1024x512.Idx) :
    ∃ pc ∈ ([⟨rA, p0⟩] : List (View.Piece (Elt F) S1x1024x512 .f32)), y ∈ pc.1.set :=
  View.cover_of_tiled [⟨rA, p0⟩] S1x1024x512.size (by rfl) y

set_option maxHeartbeats 4000000 in

-- The body's triple on whole memrefs: the twelve inputs come back as they were, the two outputs at `out1_12`, `out1_13` of the inputs.
theorem sound_kernel1_whole (c : Dev nD) (E : Set ℕ) (i : grid1.Coords) {arg1 arg2 arg13 arg14 : Memref sig .tc .vmem S1x1024x512 .f32} {arg3 arg7 : Memref sig .tc .vmem S512x2048 .bf16} {arg4 arg8 : Memref sig .tc .vmem S2048 .f32} {arg5 arg9 : Memref sig .tc .vmem S2048x512 .bf16} {arg6 arg10 : Memref sig .tc .vmem S512 .f32} {arg11 arg12 : Memref sig .tc .vmem S4x512 .f32} {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole}
    (x0 x1 : Vec F S1x1024x512 .f32) (x2 : Vec F S512x2048 .bf16) (x3 : Vec F S2048 .f32) (x4 : Vec F S2048x512 .bf16) (x5 : Vec F S512 .f32) (x6 : Vec F S512x2048 .bf16) (x7 : Vec F S2048 .f32) (x8 : Vec F S2048x512 .bf16) (x9 : Vec F S512 .f32) (x10 x11 : Vec F S4x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out1_12 x0 x1 x2 x3 x4 x5 x6 x7 x8 x9 x10 x11) ∗ owns (c : Thread nD τ) arg14 fullShare (out1_13 x0 x1 x2 x3 x4 x5 x6 x7 x8 x9 x10 x11)) -∗ K ⟨⟩))
      ⊢ wp frame (wpE (defs₀ (F := F)) Variants.none c none) E (cc1__ffn_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__ffn_kernel_eq_skeleton]; unfold cc1__ffn_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    try dsimp only
    exact View.read_writes_eq_canon _ _ _ (cover1_12 _)
  iexists _; isplitr
  swap; · iexact H13
  ipureintro
  try dsimp only
  exact View.read_writes_eq_canon _ _ _ (cover1_12 _)

theorem sound_kernel1 (c : Dev nD) (t : Fin cfg1.N) (E : Set ℕ) (x0 x1 : Vec F S1x1024x512 .f32) (x2 : Vec F S512x2048 .bf16) (x3 : Vec F S2048 .f32) (x4 : Vec F S2048x512 .bf16) (x5 : Vec F S512 .f32) (x6 : Vec F S512x2048 .bf16) (x7 : Vec F S2048 .f32) (x8 : Vec F S2048x512 .bf16) (x9 : Vec F S512 .f32) (x10 x11 : Vec F S4x512 .f32) (K : PUnit → sProp 𝕄) :
    iprop(owns (c : Thread nD τ) (st1_0 t) fullShare x0 ∗ owns (c : Thread nD τ) (st1_1 t) fullShare x1 ∗ owns (c : Thread nD τ) (st1_2 t) fullShare x2 ∗ owns (c : Thread nD τ) (st1_3 t) fullShare x3 ∗ owns (c : Thread nD τ) (st1_4 t) fullShare x4 ∗ owns (c : Thread nD τ) (st1_5 t) fullShare x5 ∗ owns (c : Thread nD τ) (st1_6 t) fullShare x6 ∗ owns (c : Thread nD τ) (st1_7 t) fullShare x7 ∗ owns (c : Thread nD τ) (st1_8 t) fullShare x8 ∗ owns (c : Thread nD τ) (st1_9 t) fullShare x9 ∗ owns (c : Thread nD τ) (st1_10 t) fullShare x10 ∗ owns (c : Thread nD τ) (st1_11 t) fullShare x11 ∗ (∃ d, owns (c : Thread nD τ) (st1_12 t) fullShare d) ∗ (∃ d, owns (c : Thread nD τ) (st1_13 t) fullShare d)
        ∗ (iprop(owns (c : Thread nD τ) (st1_0 t) fullShare x0 ∗ owns (c : Thread nD τ) (st1_1 t) fullShare x1 ∗ owns (c : Thread nD τ) (st1_2 t) fullShare x2 ∗ owns (c : Thread nD τ) (st1_3 t) fullShare x3 ∗ owns (c : Thread nD τ) (st1_4 t) fullShare x4 ∗ owns (c : Thread nD τ) (st1_5 t) fullShare x5 ∗ owns (c : Thread nD τ) (st1_6 t) fullShare x6 ∗ owns (c : Thread nD τ) (st1_7 t) fullShare x7 ∗ owns (c : Thread nD τ) (st1_8 t) fullShare x8 ∗ owns (c : Thread nD τ) (st1_9 t) fullShare x9 ∗ owns (c : Thread nD τ) (st1_10 t) fullShare x10 ∗ owns (c : Thread nD τ) (st1_11 t) fullShare x11 ∗ owns (c : Thread nD τ) (st1_12 t) fullShare (out1_12 x0 x1 x2 x3 x4 x5 x6 x7 x8 x9 x10 x11) ∗ owns (c : Thread nD τ) (st1_13 t) fullShare (out1_13 x0 x1 x2 x3 x4 x5 x6 x7 x8 x9 x10 x11)) -∗ K ⟨⟩))
      ⊢ wp frame (wpE (defs₀ (F := F)) Variants.none c none) E (bodyAt1 t) K :=
  sound_kernel1_whole c E _ x0 x1 x2 x3 x4 x5 x6 x7 x8 x9 x10 x11 K

end Cert.KernelIdeal.Body1

end
-- ==== Proof.KDat1.lean ====
import proofs.«400912_j69947837382775_3_alg».proof.Proof.KBody1
import proofs.«400912_j69947837382775_3_alg».proof.Proof.Gen.KernelIdeal.Launch
import proofs.«400912_j69947837382775_3_alg».proof.Proof.Gen.KernelIdeal.Points
import Idealize.ShloMosaic.Lib.Pipeline.FrameBody
import Idealize.ShloMosaic.Lib.Tactic

set_option maxRecDepth 16384

noncomputable section

namespace Cert.KernelIdeal.Dat1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off the window's array as the region finds it.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- The region's proof data: after the body at point `t` each input holds its block and each output the body's function of the twelve input blocks.
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => Body1.out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
    | ⟨13, _⟩ => Body1.out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_12 (c : Dev nD) (t : Fin cfg1.N) : (dat1 V c).after 12 t = Body1.out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) := by dsimp only [dat1]
theorem after1_13 (c : Dev nD) (t : Fin cfg1.N) : (dat1 V c).after 13 t = Body1.out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) := by dsimp only [dat1]

theorem before1 (c : Dev nD) (w : Fin cfg1.W) (hw : w.val < 12) (t : Fin cfg1.N) (d) :
    (dat1 V c).before w t d = (dat1 V c).fetched w t d := by
  obtain ⟨w, hlt⟩ := w
  replace hw : w < 12 := hw
  iterate 12 (rcases w with _ | w; · exact (dat1 V c).before_in_eq_fetched _ rfl (fun _ => rfl) (fun _ _ _ => rfl) (fun _ => rfl) t d)
  omega

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

set_option maxHeartbeats 1000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  simp only [before1 V c 0 (by decide), before1 V c 1 (by decide), before1 V c 2 (by decide), before1 V c 3 (by decide), before1 V c 4 (by decide), before1 V c 5 (by decide), before1 V c 6 (by decide), before1 V c 7 (by decide), before1 V c 8 (by decide), before1 V c 9 (by decide), before1 V c 10 (by decide), before1 V c 11 (by decide)]
  rw [show (dat1 V c).Φ t.succ = (dat1 V c).Φ t.castSucc from rfl,
    show (dat1 V c).owesAt () t.succ = (dat1 V c).owesAt () t.castSucc from rfl, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (Body1.sound_kernel1 c t Set.univ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation1 (c : Dev nD) : BodyObligation (dat1 (F := F) V c) (defs₀ (F := F)) Variants.none () Set.univ := fun t => by
  rw [bigSep_W1, bigSep_W1]
  exact sound_body1 V c t

end Cert.KernelIdeal.Dat1

end
-- ==== Proof.KRun.lean ====
import proofs.«400912_j69947837382775_3_alg».proof.Proof.KDat0
import proofs.«400912_j69947837382775_3_alg».proof.Proof.KDat1
import proofs.«400912_j69947837382775_3_alg».proof.Proof.Gen.KernelIdeal.Regions
import proofs.«400912_j69947837382775_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Kit
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

set_option backward.isDefEq.respectTransparency.types false in

-- The program runs through its five stretches (host, attention region, host, perceptron region, host), given a segment for each region and what each finds and leaves.
theorem run_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = Gen.V5 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨.rfl, hpre0 c, hpost0 c, hpre1 c, hpost1 c, sep_mono .rfl (hE2 c)⟩)
    (hinit := ?_) (QY := fun c s => ∀ b ∈ Pipeline.ucRefs τ sig, s.mem (((c : Thread nD τ)).1, b) = V5 m outs c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    imodintro
    iapply (pointsTo_read_all (Pipeline.ucRefs τ sig) (fun b => (((c : Thread nD τ)).1, b)) (V5 m outs c) s')
    isplitl [Hh] <;> iassumption

variable (m : (ℓ : Loc nD τ sig) → Buf (Elt F) ℓ)

abbrev VR1 (c : Dev nD) (b : Ref sig .tc) : Buf (Elt F) ((c : Thread nD τ).loc b) := Gen.V1 m c b

-- The contents after the attention region: its two output arrays at the region's final arrays, everything else as before.
def W2 (c : Dev nD) : Valuation τ sig (Elt F) :=
  Function.update (Function.update (Gen.V1 m c) main_v35_0 ((Dat0.dat0 (VR1 m) c).arrAt 15 cfg0.N)) main_v35_1 ((Dat0.dat0 (VR1 m) c).arrAt 16 cfg0.N)

def outs2 : Gen.Outs (F := F) := fun _ r c => W2 m c r

abbrev VR3 (c : Dev nD) (b : Ref sig .tc) : Buf (Elt F) ((c : Thread nD τ).loc b) := Gen.V3 m (outs2 m) c b

def W4 (c : Dev nD) : Valuation τ sig (Elt F) :=
  Function.update (Function.update (Gen.V3 m (outs2 m) c) main_v44_0 ((Dat1.dat1 (VR3 m) c).arrAt 12 cfg1.N)) main_v44_1 ((Dat1.dat1 (VR3 m) c).arrAt 13 cfg1.N)

def outsOf : Gen.Outs (F := F) := fun _ r c => W4 m c r

theorem ne35 : (Proc.devRef .tc main_v35_0 : DevRef τ sig) ≠ Proc.devRef .tc main_v35_1 := StableHlo.devRef_ne_of_ne (by decide)
theorem ne44 : (Proc.devRef .tc main_v44_0 : DevRef τ sig) ≠ Proc.devRef .tc main_v44_1 := StableHlo.devRef_ne_of_ne (by decide)

theorem W2_out0 (c : Dev nD) : W2 m c main_v35_0 = (Dat0.dat0 (VR1 m) c).arrAt 15 cfg0.N := by
  unfold W2; rw [Function.update_of_ne ne35, Function.update_self]
theorem W2_out1 (c : Dev nD) : W2 m c main_v35_1 = (Dat0.dat0 (VR1 m) c).arrAt 16 cfg0.N := by
  unfold W2; rw [Function.update_self]
theorem W4_out0 (c : Dev nD) : W4 m c main_v44_0 = (Dat1.dat1 (VR3 m) c).arrAt 12 cfg1.N := by
  unfold W4; rw [Function.update_of_ne ne44, Function.update_self]
theorem W4_out1 (c : Dev nD) : W4 m c main_v44_1 = (Dat1.dat1 (VR3 m) c).arrAt 13 cfg1.N := by
  unfold W4; rw [Function.update_self]

theorem V2_eq' (c : Dev nD) : Gen.V2 m (outs2 m) c = W2 m c := by
  unfold Gen.V2 outs2; rw [W2_out0, W2_out1]; unfold W2; rfl

theorem W4_of (c : Dev nD) (r : Ref sig .tc) (h : r ∉ ([main_v44_0, main_v44_1] : List (Ref sig .tc))) : W4 m c r = Gen.V3 m (outs2 m) c r := by
  unfold W4
  rw [Function.update_of_ne (StableHlo.devRef_ne_of_ne (List.ne_of_not_mem_cons (List.not_mem_of_not_mem_cons h)) : (Proc.devRef .tc r : DevRef τ sig) ≠ Proc.devRef .tc main_v44_1),
    Function.update_of_ne (StableHlo.devRef_ne_of_ne (List.ne_of_not_mem_cons h) : (Proc.devRef .tc r : DevRef τ sig) ≠ Proc.devRef .tc main_v44_0)]
theorem outsOf_35_0 (j : ℕ) (c : Dev nD) : outsOf m j main_v35_0 c = (Dat0.dat0 (VR1 m) c).arrAt 15 cfg0.N := by
  unfold outsOf
  rw [W4_of m c main_v35_0 (by decide), Gen.V3_of m (outs2 m) c main_v35_0 (by decide), V2_eq', W2_out0]
theorem outsOf_35_1 (j : ℕ) (c : Dev nD) : outsOf m j main_v35_1 c = (Dat0.dat0 (VR1 m) c).arrAt 16 cfg0.N := by
  unfold outsOf
  rw [W4_of m c main_v35_1 (by decide), Gen.V3_of m (outs2 m) c main_v35_1 (by decide), V2_eq', W2_out1]
theorem V2_eq (c : Dev nD) : Gen.V2 m (outsOf m) c = W2 m c := by
  unfold Gen.V2; rw [outsOf_35_0, outsOf_35_1]; unfold W2; rfl
theorem V3_eq (c : Dev nD) : Gen.V3 m (outsOf m) c = Gen.V3 m (outs2 m) c := by
  unfold Gen.V3; rw [V2_eq, V2_eq']
theorem V4_eq (c : Dev nD) : Gen.V4 m (outsOf m) c = W4 m c := by
  unfold Gen.V4; rw [V3_eq]; unfold outsOf; rw [W4_out0, W4_out1]; unfold W4; rfl

theorem W2_of (c : Dev nD) (r : Ref sig .tc) (h : r ∉ ([main_v35_0, main_v35_1] : List (Ref sig .tc))) : W2 m c r = Gen.V1 m c r := by
  unfold W2
  rw [Function.update_of_ne (StableHlo.devRef_ne_of_ne (List.ne_of_not_mem_cons (List.not_mem_of_not_mem_cons h)) : (Proc.devRef .tc r : DevRef τ sig) ≠ Proc.devRef .tc main_v35_1),
    Function.update_of_ne (StableHlo.devRef_ne_of_ne (List.ne_of_not_mem_cons h) : (Proc.devRef .tc r : DevRef τ sig) ≠ Proc.devRef .tc main_v35_0)]

abbrev W2R (c : Dev nD) (b : Ref sig .tc) : Buf (Elt F) ((c : Thread nD τ).loc b) := W2 m c b
abbrev W4R (c : Dev nD) (b : Ref sig .tc) : Buf (Elt F) ((c : Thread nD τ).loc b) := W4 m c b

theorem in0_notin : ∀ w : Fin cfg0.W, (cfg0.win w).isOut = false → Pipeline.arrRef spec0 w ∉ ([main_v35_0, main_v35_1] : List (Ref sig .tc)) := by decide

theorem out0_cases : ∀ w : Fin cfg0.W, (cfg0.win w).isOut = true → w = 15 ∨ w = 16 := by decide

theorem hF0 (c : Dev nD) (w : Fin cfg0.W) : (Dat0.dat0 (VR1 m) c).arrAt w cfg0.N = W2R m c (Pipeline.arrRef spec0 w) := by
  cases h : (cfg0.win w).isOut
  · rw [(Dat0.dat0 (VR1 m) c).arrAt_in w h, Dat0.A_eq0]
    exact (W2_of m c _ (in0_notin w h)).symm
  · rcases out0_cases w h with rfl | rfl
    · exact (W2_out0 m c).symm
    · exact (W2_out1 m c).symm

theorem hrest0 (c : Dev nD) : ∀ b, b ∉ Finset.univ.image (Pipeline.arrRef spec0) → W2R m c b = VR1 m c b :=
  fun b hb => W2_of m c b (by
    intro hmem
    rcases List.mem_cons.mp hmem with e | hmem
    · exact hb (Finset.mem_image.mpr ⟨15, Finset.mem_univ _, by rw [e]⟩)
    · rcases List.mem_cons.mp hmem with e | hmem
      · exact hb (Finset.mem_image.mpr ⟨16, Finset.mem_univ _, by rw [e]⟩)
      · exact absurd hmem (List.not_mem_nil))

theorem in1_notin : ∀ w : Fin cfg1.W, (cfg1.win w).isOut = false → Pipeline.arrRef spec1 w ∉ ([main_v44_0, main_v44_1] : List (Ref sig .tc)) := by decide

theorem out1_cases : ∀ w : Fin cfg1.W, (cfg1.win w).isOut = true → w = 12 ∨ w = 13 := by decide

theorem hF1 (c : Dev nD) (w : Fin cfg1.W) : (Dat1.dat1 (VR3 m) c).arrAt w cfg1.N = W4R m c (Pipeline.arrRef spec1 w) := by
  cases h : (cfg1.win w).isOut
  · rw [(Dat1.dat1 (VR3 m) c).arrAt_in w h, Dat1.A_eq1]
    exact (W4_of m c _ (in1_notin w h)).symm
  · rcases out1_cases w h with rfl | rfl
    · exact (W4_out0 m c).symm
    · exact (W4_out1 m c).symm

theorem hrest1 (c : Dev nD) : ∀ b, b ∉ Finset.univ.image (Pipeline.arrRef spec1) → W4R m c b = VR3 m c b :=
  fun b hb => W4_of m c b (by
    intro hmem
    rcases List.mem_cons.mp hmem with e | hmem
    · exact hb (Finset.mem_image.mpr ⟨12, Finset.mem_univ _, by rw [e]⟩)
    · rcases List.mem_cons.mp hmem with e | hmem
      · exact hb (Finset.mem_image.mpr ⟨13, Finset.mem_univ _, by rw [e]⟩)
      · exact absurd hmem (List.not_mem_nil))

def pdats : (p : Fin 2) → (c : Dev nD) → Dat τ (Elt F) Unit ℕ (UR sig nD τ) ℕ (Pipeline.pin (pcfgs (F := F)) adm p) c
  | ⟨0, _⟩ => fun c => Dat0.dat0 (VR1 m) c
  | ⟨1, _⟩ => fun c => Dat1.dat1 (VR3 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Dat0.body_obligation0 (VR1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Dat0.Φ0_eq (VR1 m) c _]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from Dat0.Φ0_eq (VR1 m) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR1 m c) (W2R m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Dat1.body_obligation1 (VR3 m) c).loose
  hwaits := Pipeline.hwaits_of_owed_zero _ _ _ _ L lv 1 fun _ _ => rfl
  pre c := iprop(StableHlo.held (c : Thread nD τ) (Pipeline.ucRefs τ sig) (Gen.V3 m (outs2 m) c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (VR3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR3 m c) (W4R m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

theorem run_main (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = Gen.V5 m (outsOf m) c b) :=
  run_cond m emb₁ () 𝒱₀ L lv (fun _ _ => rfl) ρ (outsOf m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl) (hpost0 := fun c => by rw [V2_eq]; exact .rfl)
    (R1 := reg1 m) (hpre1 := fun c => by rw [V3_eq]; exact .rfl) (hpost1 := fun c => by rw [V4_eq]; exact .rfl)

-- Every argument array reads back as launched.
theorem post_args (s : MemSt nD τ sig (Elt F)) (c : Dev nD)
    (h : ∀ b ∈ Pipeline.ucRefs τ sig, s.mem (((c : Thread nD τ)).1, b) = Gen.V5 m (outsOf m) c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16) :=
  have k := fun (b : Ref sig .tc) hb => h _ (mem_uc b hb)
  ⟨(k main_arg0 (by decide)).trans (Gen.V5_main_arg0 m (outsOf m) c),
    (k main_arg1 (by decide)).trans (Gen.V5_main_arg1 m (outsOf m) c),
    (k main_arg2 (by decide)).trans (Gen.V5_main_arg2 m (outsOf m) c),
    (k main_arg3 (by decide)).trans (Gen.V5_main_arg3 m (outsOf m) c),
    (k main_arg4 (by decide)).trans (Gen.V5_main_arg4 m (outsOf m) c),
    (k main_arg5 (by decide)).trans (Gen.V5_main_arg5 m (outsOf m) c),
    (k main_arg6 (by decide)).trans (Gen.V5_main_arg6 m (outsOf m) c),
    (k main_arg7 (by decide)).trans (Gen.V5_main_arg7 m (outsOf m) c),
    (k main_arg8 (by decide)).trans (Gen.V5_main_arg8 m (outsOf m) c),
    (k main_arg9 (by decide)).trans (Gen.V5_main_arg9 m (outsOf m) c),
    (k main_arg10 (by decide)).trans (Gen.V5_main_arg10 m (outsOf m) c),
    (k main_arg11 (by decide)).trans (Gen.V5_main_arg11 m (outsOf m) c),
    (k main_arg12 (by decide)).trans (Gen.V5_main_arg12 m (outsOf m) c),
    (k main_arg13 (by decide)).trans (Gen.V5_main_arg13 m (outsOf m) c),
    (k main_arg14 (by decide)).trans (Gen.V5_main_arg14 m (outsOf m) c),
    (k main_arg15 (by decide)).trans (Gen.V5_main_arg15 m (outsOf m) c),
    (k main_arg16 (by decide)).trans (Gen.V5_main_arg16 m (outsOf m) c)⟩

end Cert.KernelIdeal.Run

end
-- ==== Proof.Spec.lean ====
import Idealize.ShloMosaic.PureOps.Ideal
import Idealize.ShloMosaic.Lib.ValueIdx

noncomputable section

namespace EncSpec

open Idealize.ShloMosaic Idealize.ShloMosaic.ValueIdx
open scoped BigOperators

abbrev A3 (a b c : Nat) : Type := Fin a → Fin b → Fin c → EReal

abbrev A2 (a b : Nat) : Type := Fin a → Fin b → EReal

def c512 : EReal := Ideal.ofBits .f32 0x44000000#32

def epsLit : EReal := Ideal.ofBits .f32 0x3727C5AC#32

def half : EReal := Ideal.ofBits .f32 0x3F000000#32

def eighth : EReal := Ideal.ofBits .f32 0x3E000000#32

-- A row-wise linear map: row `x b s` against the rows of `W`, plus a bias.
def linear {K N : Nat} (x : A3 8 1024 K) (W : A2 N K) (bias : Fin N → EReal) : A3 8 1024 N :=
  fun b s e => (∑ d : Fin K, x b s d * W e d) + bias e

def hcol (h : Fin 8) (d : Fin 64) : Fin 512 := ⟨64 * h.val + d.val, by omega⟩

def headOf (c : Fin 512) : Fin 8 := ⟨c.val / 64, by omega⟩

-- Head `h`'s scaled scores: the dot product of query row `l` and key row `s` over the head's 64 features, times 1/8.
def score (q k : A3 8 1024 512) : Fin 8 → Fin 8 → Fin 1024 → Fin 1024 → EReal :=
  fun b h l s => (∑ d : Fin 64, q b l (hcol h d) * k b s (hcol h d)) * eighth

def rowMax (f : Fin 1024 → EReal) : EReal := Finset.univ.sup f

def expo (f : Fin 1024 → EReal) : Fin 1024 → EReal := fun s => Ideal.exp (f s - rowMax f)

-- The softmax of a row of scores, shifted by the row's maximum.
def softmax (f : Fin 1024 → EReal) : Fin 1024 → EReal :=
  fun s => Ideal.div (expo f s) (∑ s' : Fin 1024, expo f s')

-- The two streams' probabilities mixed half and half, weighing the values.
def mixedAttn (sc sc' : Fin 8 → Fin 8 → Fin 1024 → Fin 1024 → EReal) (v : A3 8 1024 512) : A3 8 1024 512 :=
  fun b l c => ∑ s : Fin 1024,
    (half * softmax (sc b (headOf c) l) s + half * softmax (sc' b (headOf c) l) s) * v b s c

def mean (f : Fin 512 → EReal) : EReal := Ideal.div (∑ d : Fin 512, f d) c512

-- Each row minus its mean, over the root of its mean squared deviation plus epsilon, times a gain plus an offset.
def layerNorm (x : A3 8 1024 512) (g o : Fin 512 → EReal) : A3 8 1024 512 :=
  fun b s d =>
    (x b s d - mean (x b s))
      * Ideal.rsqrt (mean (fun d' => (x b s d' - mean (x b s)) * (x b s d' - mean (x b s))) + epsLit)
      * g d + o d

def relu (x : EReal) : EReal := max x 0

def ffn (x : A3 8 1024 512) (w1 : A2 2048 512) (b1 : Fin 2048 → EReal) (w2 : A2 512 2048) (b2 : Fin 512 → EReal) :
    A3 8 1024 512 :=
  linear (fun b s f => relu (linear x w1 b1 b s f)) w2 b2

structure Args where
  src : (⟨3, ![1024, 8, 512]⟩ : Shape).Idx → EReal
  srcd : (⟨3, ![1024, 8, 512]⟩ : Shape).Idx → EReal
  pos : (⟨3, ![1024, 8, 512]⟩ : Shape).Idx → EReal
  wi : (⟨3, ![4, 512, 512]⟩ : Shape).Idx → EReal
  bi : (⟨2, ![4, 512]⟩ : Shape).Idx → EReal
  wd : (⟨3, ![4, 512, 512]⟩ : Shape).Idx → EReal
  bd : (⟨2, ![4, 512]⟩ : Shape).Idx → EReal
  w1i : (⟨2, ![2048, 512]⟩ : Shape).Idx → EReal
  b1i : (⟨1, ![2048]⟩ : Shape).Idx → EReal
  w2i : (⟨2, ![512, 2048]⟩ : Shape).Idx → EReal
  b2i : (⟨1, ![512]⟩ : Shape).Idx → EReal
  w1d : (⟨2, ![2048, 512]⟩ : Shape).Idx → EReal
  b1d : (⟨1, ![2048]⟩ : Shape).Idx → EReal
  w2d : (⟨2, ![512, 2048]⟩ : Shape).Idx → EReal
  b2d : (⟨1, ![512]⟩ : Shape).Idx → EReal
  lni : (⟨2, ![4, 512]⟩ : Shape).Idx → EReal
  lnd : (⟨2, ![4, 512]⟩ : Shape).Idx → EReal

variable (a : Args)

def xI : A3 8 1024 512 := fun b s d => a.src (ix3 s b d)

def xD : A3 8 1024 512 := fun b s d => a.srcd (ix3 s b d)

def xP : A3 8 1024 512 := fun b s d => a.src (ix3 s b d) + a.pos (ix3 s b d)

def wI (k : Fin 4) : A2 512 512 := fun e d => a.wi (ix3 k e d)

def wD (k : Fin 4) : A2 512 512 := fun e d => a.wd (ix3 k e d)
def bI (k : Fin 4) : Fin 512 → EReal := fun e => a.bi (ix2 k e)
def bD (k : Fin 4) : Fin 512 → EReal := fun e => a.bd (ix2 k e)
def lnI (k : Fin 4) : Fin 512 → EReal := fun e => a.lni (ix2 k e)
def lnD (k : Fin 4) : Fin 512 → EReal := fun e => a.lnd (ix2 k e)

def scI : Fin 8 → Fin 8 → Fin 1024 → Fin 1024 → EReal :=
  score (linear (xP a) (wI a 0) (bI a 0)) (linear (xP a) (wI a 1) (bI a 1))

def scD : Fin 8 → Fin 8 → Fin 1024 → Fin 1024 → EReal :=
  score (linear (xD a) (wD a 0) (bD a 0)) (linear (xD a) (wD a 1) (bD a 1))

-- The attention stage of the image stream: mixed attention, output projection, residual sum, normalisation.
def stage1I : A3 8 1024 512 :=
  layerNorm (fun b s d => xI a b s d
      + linear (mixedAttn (scI a) (scD a) (linear (xI a) (wI a 2) (bI a 2))) (wI a 3) (bI a 3) b s d)
    (lnI a 0) (lnI a 1)

def stage1D : A3 8 1024 512 :=
  layerNorm (fun b s d => xD a b s d
      + linear (mixedAttn (scD a) (scI a) (linear (xD a) (wD a 2) (bD a 2))) (wD a 3) (bD a 3) b s d)
    (lnD a 0) (lnD a 1)

-- The perceptron stage: two linear layers around a rectifier, residual sum, normalisation.
def stage2 (y : A3 8 1024 512) (w1 : A2 2048 512) (b1 : Fin 2048 → EReal) (w2 : A2 512 2048) (b2 : Fin 512 → EReal)
    (g o : Fin 512 → EReal) : A3 8 1024 512 :=
  layerNorm (fun b s d => y b s d + ffn y w1 b1 w2 b2 b s d) g o

def w1I : A2 2048 512 := fun f d => a.w1i (ix2 f d)
def w2I : A2 512 2048 := fun e f => a.w2i (ix2 e f)
def b1I : Fin 2048 → EReal := fun f => a.b1i (ix1 f)
def b2I : Fin 512 → EReal := fun e => a.b2i (ix1 e)
def w1D : A2 2048 512 := fun f d => a.w1d (ix2 f d)
def w2D : A2 512 2048 := fun e f => a.w2d (ix2 e f)
def b1D : Fin 2048 → EReal := fun f => a.b1d (ix1 f)
def b2D : Fin 512 → EReal := fun e => a.b2d (ix1 e)

def outI : A3 8 1024 512 := stage2 (stage1I a) (w1I a) (b1I a) (w2I a) (b2I a) (lnI a 2) (lnI a 3)

def outD : A3 8 1024 512 := stage2 (stage1D a) (w1D a) (b1D a) (w2D a) (b2D a) (lnD a 2) (lnD a 3)

-- The layer's outputs, laid out sequence first.
def res0 : (⟨3, ![1024, 8, 512]⟩ : Shape).Idx → EReal := fun i => outI a (i 1) (i 0) (i 2)

def res1 : (⟨3, ![1024, 8, 512]⟩ : Shape).Idx → EReal := fun i => outD a (i 1) (i 0) (i 2)

-- Every entry of the seven arrays the attention stage's distributive step touches is a real number.
def Args.Finite : Prop :=
  (∀ i, ∃ r : ℝ, a.src i = r) ∧ (∀ i, ∃ r : ℝ, a.srcd i = r) ∧ (∀ i, ∃ r : ℝ, a.pos i = r)
  ∧ (∀ i, ∃ r : ℝ, a.wi i = r) ∧ (∀ i, ∃ r : ℝ, a.bi i = r)
  ∧ (∀ i, ∃ r : ℝ, a.wd i = r) ∧ (∀ i, ∃ r : ℝ, a.bd i = r)

end EncSpec

end
-- ==== Proof.KHost.lean ====
import proofs.«400912_j69947837382775_3_alg».proof.Proof.Gen.KernelIdeal.Regions
import proofs.«400912_j69947837382775_3_alg».proof.Proof.Gen.KernelIdeal.Launch
import proofs.«400912_j69947837382775_3_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 4096

noncomputable section

namespace Cert.KernelIdeal.Host

open Cert.KernelIdeal Cert.KernelIdeal.Gen
open Idealize.ShloMosaic Idealize.ShloMosaic.TcCoe Idealize.ShloMosaic.ValueIdx
open Idealize.SL.Sem

theorem transpose_ix3_102_apply {a b n : ℕ} (x : (⟨3, ![a, b, n]⟩ : Shape).Idx → EReal)
    (h : (⟨3, ![a, b, n]⟩ : Shape).Transposes [1, 0, 2] ⟨3, ![b, a, n]⟩) (j : Fin b) (i : Fin a) (k : Fin n) :
    transpose ⟨3, ![b, a, n]⟩ [1, 0, 2] x h (ix3 j i k) = x (ix3 i j k) :=
  transpose_apply _ x h _ _ fun c => match c with | ⟨0, _⟩ => rfl | ⟨1, _⟩ => rfl | ⟨2, _⟩ => rfl

theorem narrow_transpose_apply {a b : ℕ} (x : (⟨2, ![a, b]⟩ : Shape).Idx → EReal)
    (h : (⟨2, ![a, b]⟩ : Shape).Transposes [1, 0] ⟨2, ![b, a]⟩) (hw : FTy.bits .bf16 < FTy.bits .f32)
    (j : Fin b) (i : Fin a) :
    truncf (F := Ideal) .bf16 (transpose ⟨2, ![b, a]⟩ [1, 0] x h) hw (ix2 j i) = x (ix2 i j) :=
  transpose_ix2_apply x h j i

abbrev prep (T : S4x512x512.Idx → EReal) (k : ℕ) (h : S4x512x512.Slices ![k, 0, 0] S1x512x512) :
    S512x512.Idx → EReal :=
  truncf (F := Ideal) .bf16
    (transpose S512x512 [1, 0]
      (shapeCast S512x512 (extractStridedSlice S1x512x512 ![k, 0, 0] T h) shapeCasts_S1x512x512_S512x512)
      transposes_S512x512_S512x512_1_0)
    bitsLt_bf16_f32

theorem prep_apply (T : S4x512x512.Idx → EReal) (k : ℕ) (hk : k < 4)
    (h : S4x512x512.Slices ![k, 0, 0] S1x512x512) (d e : Fin 512) :
    prep T k h (ix2 d e) = T (ix3 (⟨k, hk⟩ : Fin 4) e d) := by
  refine (narrow_transpose_apply _ _ _ d e).trans ?_
  refine (shapeCast_1ab_ab_apply _ _ e d).trans ?_
  exact extractStridedSlice_apply _ T h _ _ fun a => match a with
    | ⟨0, _⟩ => rfl
    | ⟨1, _⟩ => (Nat.zero_add _).symm
    | ⟨2, _⟩ => (Nat.zero_add _).symm

theorem stream_of {a b n : ℕ} {x : (⟨3, ![a, b, n]⟩ : Shape).Idx → EReal} {y : (⟨3, ![b, a, n]⟩ : Shape).Idx → EReal}
    {h : (⟨3, ![a, b, n]⟩ : Shape).Transposes [1, 0, 2] ⟨3, ![b, a, n]⟩} (e : y = transpose ⟨3, ![b, a, n]⟩ [1, 0, 2] x h)
    (j : Fin b) (i : Fin a) (k : Fin n) : y (ix3 j i k) = x (ix3 i j k) := by
  subst e; exact transpose_ix3_102_apply x h j i k

theorem narrow_of {a b : ℕ} {x : (⟨2, ![a, b]⟩ : Shape).Idx → EReal} {y : (⟨2, ![b, a]⟩ : Shape).Idx → EReal}
    {h : (⟨2, ![a, b]⟩ : Shape).Transposes [1, 0] ⟨2, ![b, a]⟩} {hw : FTy.bits .bf16 < FTy.bits .f32}
    (e : y = truncf (F := Ideal) .bf16 (transpose ⟨2, ![b, a]⟩ [1, 0] x h) hw) (j : Fin b) (i : Fin a) :
    y (ix2 j i) = x (ix2 i j) := by
  subst e; exact narrow_transpose_apply x h hw j i

theorem prep_of {T : S4x512x512.Idx → EReal} {y : S512x512.Idx → EReal} (k : ℕ) (hk : k < 4)
    (h : S4x512x512.Slices ![k, 0, 0] S1x512x512) (e : y = prep T k h) (d e' : Fin 512) :
    y (ix2 d e') = T (ix3 (⟨k, hk⟩ : Fin 4) e' d) := by
  subst e; exact prep_apply T k hk h d e'

variable (m : (ℓ : Loc nD τ sig) → Buf (Elt Ideal) ℓ) (outs : Gen.Outs (F := Ideal)) (c : Dev nD)

theorem V1_v0 (b : Fin 8) (s : Fin 1024) (d : Fin 512) :
    (Gen.V1 m c main_v0 : S8x1024x512.Idx → EReal) (ix3 b s d)
      = (m ((c : Thread nD τ).loc main_arg0) : S1024x8x512.Idx → EReal) (ix3 s b d) :=
  stream_of (h := transposes_S1024x8x512_S8x1024x512_1_0_2) (by dsimp only [Gen.V1, Gen.V0, hostOps0]; after_results) b s d

theorem V1_v1 (b : Fin 8) (s : Fin 1024) (d : Fin 512) :
    (Gen.V1 m c main_v1 : S8x1024x512.Idx → EReal) (ix3 b s d)
      = (m ((c : Thread nD τ).loc main_arg1) : S1024x8x512.Idx → EReal) (ix3 s b d) :=
  stream_of (h := transposes_S1024x8x512_S8x1024x512_1_0_2) (by dsimp only [Gen.V1, Gen.V0, hostOps0]; after_results) b s d

theorem V1_v2 (b : Fin 8) (s : Fin 1024) (d : Fin 512) :
    (Gen.V1 m c main_v2 : S8x1024x512.Idx → EReal) (ix3 b s d)
      = (m ((c : Thread nD τ).loc main_arg2) : S1024x8x512.Idx → EReal) (ix3 s b d) :=
  stream_of (h := transposes_S1024x8x512_S8x1024x512_1_0_2) (by dsimp only [Gen.V1, Gen.V0, hostOps0]; after_results) b s d

theorem V1_v6 (d e : Fin 512) :
    (Gen.V1 m c main_v6 : S512x512.Idx → EReal) (ix2 d e)
      = (m ((c : Thread nD τ).loc main_arg3) : S4x512x512.Idx → EReal) (ix3 (0 : Fin 4) e d) :=
  prep_of 0 (by decide) slices_S4x512x512_S1x512x512_0_0_0 (by dsimp only [Gen.V1, Gen.V0, hostOps0]; after_results; rfl) d e

theorem V1_v10 (d e : Fin 512) :
    (Gen.V1 m c main_v10 : S512x512.Idx → EReal) (ix2 d e)
      = (m ((c : Thread nD τ).loc main_arg3) : S4x512x512.Idx → EReal) (ix3 (1 : Fin 4) e d) :=
  prep_of 1 (by decide) slices_S4x512x512_S1x512x512_1_0_0 (by dsimp only [Gen.V1, Gen.V0, hostOps0]; after_results; rfl) d e

theorem V1_v14 (d e : Fin 512) :
    (Gen.V1 m c main_v14 : S512x512.Idx → EReal) (ix2 d e)
      = (m ((c : Thread nD τ).loc main_arg3) : S4x512x512.Idx → EReal) (ix3 (2 : Fin 4) e d) :=
  prep_of 2 (by decide) slices_S4x512x512_S1x512x512_2_0_0 (by dsimp only [Gen.V1, Gen.V0, hostOps0]; after_results; rfl) d e

theorem V1_v18 (d e : Fin 512) :
    (Gen.V1 m c main_v18 : S512x512.Idx → EReal) (ix2 d e)
      = (m ((c : Thread nD τ).loc main_arg3) : S4x512x512.Idx → EReal) (ix3 (3 : Fin 4) e d) :=
  prep_of 3 (by decide) slices_S4x512x512_S1x512x512_3_0_0 (by dsimp only [Gen.V1, Gen.V0, hostOps0]; after_results; rfl) d e

theorem V1_v22 (d e : Fin 512) :
    (Gen.V1 m c main_v22 : S512x512.Idx → EReal) (ix2 d e)
      = (m ((c : Thread nD τ).loc main_arg5) : S4x512x512.Idx → EReal) (ix3 (0 : Fin 4) e d) :=
  prep_of 0 (by decide) slices_S4x512x512_S1x512x512_0_0_0 (by dsimp only [Gen.V1, Gen.V0, hostOps0]; after_results; rfl) d e

theorem V1_v26 (d e : Fin 512) :
    (Gen.V1 m c main_v26 : S512x512.Idx → EReal) (ix2 d e)
      = (m ((c : Thread nD τ).loc main_arg5) : S4x512x512.Idx → EReal) (ix3 (1 : Fin 4) e d) :=
  prep_of 1 (by decide) slices_S4x512x512_S1x512x512_1_0_0 (by dsimp only [Gen.V1, Gen.V0, hostOps0]; after_results; rfl) d e

theorem V1_v30 (d e : Fin 512) :
    (Gen.V1 m c main_v30 : S512x512.Idx → EReal) (ix2 d e)
      = (m ((c : Thread nD τ).loc main_arg5) : S4x512x512.Idx → EReal) (ix3 (2 : Fin 4) e d) :=
  prep_of 2 (by decide) slices_S4x512x512_S1x512x512_2_0_0 (by dsimp only [Gen.V1, Gen.V0, hostOps0]; after_results; rfl) d e

theorem V1_v34 (d e : Fin 512) :
    (Gen.V1 m c main_v34 : S512x512.Idx → EReal) (ix2 d e)
      = (m ((c : Thread nD τ).loc main_arg5) : S4x512x512.Idx → EReal) (ix3 (3 : Fin 4) e d) :=
  prep_of 3 (by decide) slices_S4x512x512_S1x512x512_3_0_0 (by dsimp only [Gen.V1, Gen.V0, hostOps0]; after_results; rfl) d e

theorem V1_arg4 : Gen.V1 m c main_arg4 = m ((c : Thread nD τ).loc main_arg4) :=
  (Gen.V1_of m c main_arg4 (by decide)).trans rfl

theorem V1_arg6 : Gen.V1 m c main_arg6 = m ((c : Thread nD τ).loc main_arg6) :=
  (Gen.V1_of m c main_arg6 (by decide)).trans rfl

theorem V1_arg15 : Gen.V1 m c main_arg15 = m ((c : Thread nD τ).loc main_arg15) :=
  (Gen.V1_of m c main_arg15 (by decide)).trans rfl

theorem V1_arg16 : Gen.V1 m c main_arg16 = m ((c : Thread nD τ).loc main_arg16) :=
  (Gen.V1_of m c main_arg16 (by decide)).trans rfl

theorem V2_launch (r : Ref sig .tc) (h2 : r ∉ ([main_v35_0, main_v35_1] : List (Ref sig .tc))) (h1 : r ∉ hostOps0_W) :
    Gen.V2 m outs c r = m ((c : Thread nD τ).loc r) :=
  (Gen.V2_of m outs c r h2).trans ((Gen.V1_of m c r h1).trans rfl)

theorem V3_launch (r : Ref sig .tc) (h3 : r ∉ hostOps1_W) (h2 : r ∉ ([main_v35_0, main_v35_1] : List (Ref sig .tc)))
    (h1 : r ∉ hostOps0_W) : Gen.V3 m outs c r = m ((c : Thread nD τ).loc r) :=
  (Gen.V3_of m outs c r h3).trans (V2_launch m outs c r h2 h1)

theorem V3_v37 (i : Fin 512) (j : Fin 2048) :
    (Gen.V3 m outs c main_v37 : S512x2048.Idx → EReal) (ix2 i j)
      = (m ((c : Thread nD τ).loc main_arg7) : S2048x512.Idx → EReal) (ix2 j i) :=
  (narrow_of (x := (Gen.V2 m outs c main_arg7 : S2048x512.Idx → EReal)) (h := transposes_S2048x512_S512x2048_1_0) (hw := bitsLt_bf16_f32)
    (by dsimp only [Gen.V3, hostOps1]; after_results) i j).trans
    (congrFun (V2_launch m outs c main_arg7 (by decide) (by decide)) _)

theorem V3_v39 (i : Fin 2048) (j : Fin 512) :
    (Gen.V3 m outs c main_v39 : S2048x512.Idx → EReal) (ix2 i j)
      = (m ((c : Thread nD τ).loc main_arg9) : S512x2048.Idx → EReal) (ix2 j i) :=
  (narrow_of (x := (Gen.V2 m outs c main_arg9 : S512x2048.Idx → EReal)) (h := transposes_S512x2048_S2048x512_1_0) (hw := bitsLt_bf16_f32)
    (by dsimp only [Gen.V3, hostOps1]; after_results) i j).trans
    (congrFun (V2_launch m outs c main_arg9 (by decide) (by decide)) _)

theorem V3_v41 (i : Fin 512) (j : Fin 2048) :
    (Gen.V3 m outs c main_v41 : S512x2048.Idx → EReal) (ix2 i j)
      = (m ((c : Thread nD τ).loc main_arg11) : S2048x512.Idx → EReal) (ix2 j i) :=
  (narrow_of (x := (Gen.V2 m outs c main_arg11 : S2048x512.Idx → EReal)) (h := transposes_S2048x512_S512x2048_1_0) (hw := bitsLt_bf16_f32)
    (by dsimp only [Gen.V3, hostOps1]; after_results) i j).trans
    (congrFun (V2_launch m outs c main_arg11 (by decide) (by decide)) _)

theorem V3_v43 (i : Fin 2048) (j : Fin 512) :
    (Gen.V3 m outs c main_v43 : S2048x512.Idx → EReal) (ix2 i j)
      = (m ((c : Thread nD τ).loc main_arg13) : S512x2048.Idx → EReal) (ix2 j i) :=
  (narrow_of (x := (Gen.V2 m outs c main_arg13 : S512x2048.Idx → EReal)) (h := transposes_S512x2048_S2048x512_1_0) (hw := bitsLt_bf16_f32)
    (by dsimp only [Gen.V3, hostOps1]; after_results) i j).trans
    (congrFun (V2_launch m outs c main_arg13 (by decide) (by decide)) _)

theorem V3_v35_0 : Gen.V3 m outs c main_v35_0 = outs 2 main_v35_0 c :=
  (Gen.V3_of m outs c main_v35_0 (by decide)).trans <| by
    dsimp only [Gen.V2]
    rw [Function.update_of_ne (StableHlo.devRef_ne_of_ne (by decide : main_v35_0 ≠ main_v35_1)), Function.update_self]

theorem V3_v35_1 : Gen.V3 m outs c main_v35_1 = outs 2 main_v35_1 c :=
  (Gen.V3_of m outs c main_v35_1 (by decide)).trans <| by
    dsimp only [Gen.V2]
    rw [Function.update_self]

theorem V3_arg8 : Gen.V3 m outs c main_arg8 = m ((c : Thread nD τ).loc main_arg8) :=
  V3_launch m outs c main_arg8 (by decide) (by decide) (by decide)

theorem V3_arg10 : Gen.V3 m outs c main_arg10 = m ((c : Thread nD τ).loc main_arg10) :=
  V3_launch m outs c main_arg10 (by decide) (by decide) (by decide)

theorem V3_arg12 : Gen.V3 m outs c main_arg12 = m ((c : Thread nD τ).loc main_arg12) :=
  V3_launch m outs c main_arg12 (by decide) (by decide) (by decide)

theorem V3_arg14 : Gen.V3 m outs c main_arg14 = m ((c : Thread nD τ).loc main_arg14) :=
  V3_launch m outs c main_arg14 (by decide) (by decide) (by decide)

theorem V3_arg15 : Gen.V3 m outs c main_arg15 = m ((c : Thread nD τ).loc main_arg15) :=
  V3_launch m outs c main_arg15 (by decide) (by decide) (by decide)

theorem V3_arg16 : Gen.V3 m outs c main_arg16 = m ((c : Thread nD τ).loc main_arg16) :=
  V3_launch m outs c main_arg16 (by decide) (by decide) (by decide)

theorem V4_v44_0 : Gen.V4 m outs c main_v44_0 = outs 4 main_v44_0 c := by
  dsimp only [Gen.V4]
  rw [Function.update_of_ne (StableHlo.devRef_ne_of_ne (by decide : main_v44_0 ≠ main_v44_1)), Function.update_self]

theorem V4_v44_1 : Gen.V4 m outs c main_v44_1 = outs 4 main_v44_1 c := by
  dsimp only [Gen.V4]
  rw [Function.update_self]

theorem V5_v45 (s : Fin 1024) (b : Fin 8) (d : Fin 512) :
    (Gen.V5 m outs c main_v45 : S1024x8x512.Idx → EReal) (ix3 s b d)
      = (outs 4 main_v44_0 c : S8x1024x512.Idx → EReal) (ix3 b s d) :=
  (stream_of (x := (Gen.V4 m outs c main_v44_0 : S8x1024x512.Idx → EReal)) (h := transposes_S8x1024x512_S1024x8x512_1_0_2)
    (by dsimp only [Gen.V5, hostOps2]; after_results) s b d).trans (congrFun (V4_v44_0 m outs c) _)

theorem V5_v46 (s : Fin 1024) (b : Fin 8) (d : Fin 512) :
    (Gen.V5 m outs c main_v46 : S1024x8x512.Idx → EReal) (ix3 s b d)
      = (outs 4 main_v44_1 c : S8x1024x512.Idx → EReal) (ix3 b s d) :=
  (stream_of (x := (Gen.V4 m outs c main_v44_1 : S8x1024x512.Idx → EReal)) (h := transposes_S8x1024x512_S1024x8x512_1_0_2)
    (by dsimp only [Gen.V5, hostOps2]; after_results) s b d).trans (congrFun (V4_v44_1 m outs c) _)

end Cert.KernelIdeal.Host
-- ==== Proof.KBlocks.lean ====
import proofs.«400912_j69947837382775_3_alg».proof.Proof.Gen.KernelIdeal.Launch
import proofs.«400912_j69947837382775_3_alg».proof.Proof.Gen.KernelIdeal.Points
import Idealize.ShloMosaic.Lib.Pipeline.Value
import Idealize.ShloMosaic.Lib.ValueIdx

namespace Cert.KernelIdeal.Blocks

open Cert.KernelIdeal Cert.KernelIdeal.Gen Idealize.ShloMosaic Idealize.ShloMosaic.ValueIdx

variable {σ : RefSig} {G : Pipeline.Grid} (w : Pipeline.Window σ G) (t : Fin G.N)

/-- Entry `y` of the block at point `t` sits in the array at the block's offset plus `y` on each axis. -/
theorem rect_emb_eq (y : (w.xblock (G.coords t)).Idx) (i : w.shape.Idx) (o : Fin w.shape.rank → Nat)
    (ho : ∀ a, w.index t a * w.size a = o a) (hi : ∀ a, (i a).val = o a + y a) : (w.rect t).emb y = i :=
  funext fun a => Fin.ext ((w.rect_emb_val t y a).trans ((hi a).trans (congrArg (· + _) (ho a).symm)).symm)

/-- So an array holding `x` there reads `x` through the block at `y`. -/
theorem read_at {α : Type} {A : w.shape.Idx → α} {i : w.shape.Idx} {x : α} (hx : A i = x)
    (y : (w.xblock (G.coords t)).Idx) (o : Fin w.shape.rank → Nat) (ho : ∀ a, w.index t a * w.size a = o a)
    (hi : ∀ a, (i a).val = o a + y a) : A ((w.rect t).emb y) = x :=
  (congrArg A (rect_emb_eq w t y i o ho hi)).trans hx

/-- A block at the array's origin reads the array at the same coordinates. -/
theorem read_zero {α : Type} {A : w.shape.Idx → α} {i : w.shape.Idx} {x : α} (hx : A i = x)
    (y : (w.xblock (G.coords t)).Idx) (ho : ∀ a, w.index t a * w.size a = 0) (hi : ∀ a, (i a).val = y a) :
    A ((w.rect t).emb y) = x :=
  read_at w t hx y _ ho fun a => (hi a).trans (Nat.zero_add _).symm

/-- Index `(b, s, d)` of an [8,1024,512] array is offset `(b, 0, 0)` plus index `(0, s, d)` of a [1,1024,512] block. -/
theorem batch_coord (i : S8x1024x512.Idx) (a : Fin 3) :
    (i a).val = (if a.val = 0 then (i 0).val else 0) + (ix3 (0 : Fin 1) (i 1) (i 2) a).val := by
  match a with
  | ⟨0, _⟩ => rfl
  | ⟨1, _⟩ => exact (Nat.zero_add _).symm
  | ⟨2, _⟩ => exact (Nat.zero_add _).symm

/-- Two blocks with one entry on the first axis that agree at every `(0, s, d)` are equal. -/
theorem ext_ix3_zero {α : Type} {n1 n2 : Nat} {B C : (⟨3, ![1, n1, n2]⟩ : Shape).Idx → α}
    (h : ∀ s d, B (ix3 0 s d) = C (ix3 0 s d)) : B = C :=
  funext fun j => by rw [eq_ix3 j, Fin.eq_zero (j 0)]; exact h _ _

/-- In region 0 the blocks of windows 0, 1, 2, 15 and 16 at point `t` start at `(t, 0, 0)`, -/
theorem off0_batch : ∀ w : Fin 17, w.val < 3 ∨ 14 < w.val → ∀ (t : Fin grid0.N) a,
    (cfg0.win w).index t a * (cfg0.win w).size a = if a.val = 0 then t.val else 0 := by decide +kernel

/-- and every other window's block starts at the origin. -/
theorem off0_zero : ∀ w : Fin 17, 3 ≤ w.val ∧ w.val ≤ 14 → ∀ (t : Fin grid0.N) a,
    (cfg0.win w).index t a * (cfg0.win w).size a = 0 := by decide +kernel

/-- In region 1 the blocks of windows 0, 1, 12 and 13 at point `t` start at `(t, 0, 0)`, -/
theorem off1_batch : ∀ w : Fin 14, w.val < 2 ∨ 11 < w.val → ∀ (t : Fin grid1.N) a,
    (cfg1.win w).index t a * (cfg1.win w).size a = if a.val = 0 then t.val else 0 := by decide +kernel

/-- and every other window's block starts at the origin. -/
theorem off1_zero : ∀ w : Fin 14, 2 ≤ w.val ∧ w.val ≤ 11 → ∀ (t : Fin grid1.N) a,
    (cfg1.win w).index t a * (cfg1.win w).size a = 0 := by decide +kernel

variable {F : FTy → Type}

theorem blk0_0_read (A : Vec F S8x1024x512 .f32) (t : Fin cfg0.N) (s : Fin 1024) (d : Fin 512) :
    ((cfg0.win 0).blk t).view.read (Elt F) A (ix3 0 s d) = A (ix3 (t.cast N_0) s d) :=
  read_at (cfg0.win 0) t rfl (ix3 0 s d) _ (off0_batch 0 (by decide) t) (batch_coord (ix3 (t.cast N_0) s d))

theorem blk0_1_read (A : Vec F S8x1024x512 .f32) (t : Fin cfg0.N) (s : Fin 1024) (d : Fin 512) :
    ((cfg0.win 1).blk t).view.read (Elt F) A (ix3 0 s d) = A (ix3 (t.cast N_0) s d) :=
  read_at (cfg0.win 1) t rfl (ix3 0 s d) _ (off0_batch 1 (by decide) t) (batch_coord (ix3 (t.cast N_0) s d))

theorem blk0_2_read (A : Vec F S8x1024x512 .f32) (t : Fin cfg0.N) (s : Fin 1024) (d : Fin 512) :
    ((cfg0.win 2).blk t).view.read (Elt F) A (ix3 0 s d) = A (ix3 (t.cast N_0) s d) :=
  read_at (cfg0.win 2) t rfl (ix3 0 s d) _ (off0_batch 2 (by decide) t) (batch_coord (ix3 (t.cast N_0) s d))

theorem blk0_3_read (A : Vec F S512x512 .bf16) (t : Fin cfg0.N) (p : Fin 512) (q : Fin 512) :
    ((cfg0.win 3).blk t).view.read (Elt F) A (ix2 p q) = A (ix2 p q) :=
  read_zero (cfg0.win 3) t rfl (ix2 p q) (off0_zero 3 (by decide) t) fun _ => rfl

theorem blk0_4_read (A : Vec F S512x512 .bf16) (t : Fin cfg0.N) (p : Fin 512) (q : Fin 512) :
    ((cfg0.win 4).blk t).view.read (Elt F) A (ix2 p q) = A (ix2 p q) :=
  read_zero (cfg0.win 4) t rfl (ix2 p q) (off0_zero 4 (by decide) t) fun _ => rfl

theorem blk0_5_read (A : Vec F S512x512 .bf16) (t : Fin cfg0.N) (p : Fin 512) (q : Fin 512) :
    ((cfg0.win 5).blk t).view.read (Elt F) A (ix2 p q) = A (ix2 p q) :=
  read_zero (cfg0.win 5) t rfl (ix2 p q) (off0_zero 5 (by decide) t) fun _ => rfl

theorem blk0_6_read (A : Vec F S512x512 .bf16) (t : Fin cfg0.N) (p : Fin 512) (q : Fin 512) :
    ((cfg0.win 6).blk t).view.read (Elt F) A (ix2 p q) = A (ix2 p q) :=
  read_zero (cfg0.win 6) t rfl (ix2 p q) (off0_zero 6 (by decide) t) fun _ => rfl

theorem blk0_7_read (A : Vec F S512x512 .bf16) (t : Fin cfg0.N) (p : Fin 512) (q : Fin 512) :
    ((cfg0.win 7).blk t).view.read (Elt F) A (ix2 p q) = A (ix2 p q) :=
  read_zero (cfg0.win 7) t rfl (ix2 p q) (off0_zero 7 (by decide) t) fun _ => rfl

theorem blk0_8_read (A : Vec F S512x512 .bf16) (t : Fin cfg0.N) (p : Fin 512) (q : Fin 512) :
    ((cfg0.win 8).blk t).view.read (Elt F) A (ix2 p q) = A (ix2 p q) :=
  read_zero (cfg0.win 8) t rfl (ix2 p q) (off0_zero 8 (by decide) t) fun _ => rfl

theorem blk0_9_read (A : Vec F S512x512 .bf16) (t : Fin cfg0.N) (p : Fin 512) (q : Fin 512) :
    ((cfg0.win 9).blk t).view.read (Elt F) A (ix2 p q) = A (ix2 p q) :=
  read_zero (cfg0.win 9) t rfl (ix2 p q) (off0_zero 9 (by decide) t) fun _ => rfl

theorem blk0_10_read (A : Vec F S512x512 .bf16) (t : Fin cfg0.N) (p : Fin 512) (q : Fin 512) :
    ((cfg0.win 10).blk t).view.read (Elt F) A (ix2 p q) = A (ix2 p q) :=
  read_zero (cfg0.win 10) t rfl (ix2 p q) (off0_zero 10 (by decide) t) fun _ => rfl

theorem blk0_11_read (A : Vec F S4x512 .f32) (t : Fin cfg0.N) (p : Fin 4) (q : Fin 512) :
    ((cfg0.win 11).blk t).view.read (Elt F) A (ix2 p q) = A (ix2 p q) :=
  read_zero (cfg0.win 11) t rfl (ix2 p q) (off0_zero 11 (by decide) t) fun _ => rfl

theorem blk0_12_read (A : Vec F S4x512 .f32) (t : Fin cfg0.N) (p : Fin 4) (q : Fin 512) :
    ((cfg0.win 12).blk t).view.read (Elt F) A (ix2 p q) = A (ix2 p q) :=
  read_zero (cfg0.win 12) t rfl (ix2 p q) (off0_zero 12 (by decide) t) fun _ => rfl

theorem blk0_13_read (A : Vec F S4x512 .f32) (t : Fin cfg0.N) (p : Fin 4) (q : Fin 512) :
    ((cfg0.win 13).blk t).view.read (Elt F) A (ix2 p q) = A (ix2 p q) :=
  read_zero (cfg0.win 13) t rfl (ix2 p q) (off0_zero 13 (by decide) t) fun _ => rfl

theorem blk0_14_read (A : Vec F S4x512 .f32) (t : Fin cfg0.N) (p : Fin 4) (q : Fin 512) :
    ((cfg0.win 14).blk t).view.read (Elt F) A (ix2 p q) = A (ix2 p q) :=
  read_zero (cfg0.win 14) t rfl (ix2 p q) (off0_zero 14 (by decide) t) fun _ => rfl

end Cert.KernelIdeal.Blocks
-- ==== Proof.KPay0.lean ====
import proofs.«400912_j69947837382775_3_alg».proof.Proof.Gen.KernelIdeal.Skeleton
import proofs.«400912_j69947837382775_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay0

open Idealize.ShloMosaic Idealize.ShloMosaic.ValueIdx Idealize.SL.Sem
open Cert.KernelIdeal Cert.KernelIdeal.Gen
open scoped BigOperators

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem concat2_left_apply {a n : ℕ} (x₁ x₂ : (⟨2, ![a, n]⟩ : Shape).Idx → α)
    (h : Shape.Concatenates [⟨2, ![a, n]⟩, ⟨2, ![a, n]⟩] ⟨2, ![a, n + n]⟩ 1) (p : Fin a) (c : Fin (n + n)) (c' : Fin n)
    (hc : c'.val = c.val) :
    concatenate ⟨2, ![a, n + n]⟩ 1 [⟨⟨2, ![a, n]⟩, x₁⟩, ⟨⟨2, ![a, n]⟩, x₂⟩] h (ix2 p c) = x₁ (ix2 p c') :=
  concatenate_pair_apply_left _ x₁ x₂ h (ix2 p c) rfl (ix2 p c') (fun b => by
    match b with
    | ⟨0, _⟩ => rfl
    | ⟨1, _⟩ => exact hc)

theorem concat2_right_apply {a n : ℕ} (x₁ x₂ : (⟨2, ![a, n]⟩ : Shape).Idx → α)
    (h : Shape.Concatenates [⟨2, ![a, n]⟩, ⟨2, ![a, n]⟩] ⟨2, ![a, n + n]⟩ 1) (p : Fin a) (c : Fin (n + n)) (c' : Fin n)
    (hc : c'.val + n = c.val) :
    concatenate ⟨2, ![a, n + n]⟩ 1 [⟨⟨2, ![a, n]⟩, x₁⟩, ⟨⟨2, ![a, n]⟩, x₂⟩] h (ix2 p c) = x₂ (ix2 p c') :=
  concatenate_pair_apply_right _ x₁ x₂ h (ix2 p c) rfl rfl (ix2 p c') (fun b hb => by
    match b with
    | ⟨0, _⟩ => rfl
    | ⟨1, _⟩ => exact absurd rfl hb) hc

theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

theorem rowSum_apply {m n : ℕ} {φ : FTy} (src : FVec Ideal ⟨2, ![m, n]⟩ φ)
    (h : Shape.Reduces ⟨2, ![m, n]⟩ [1] ⟨1, ![m]⟩) (hφ : FKind.Formats φ) (acc : BitVec φ.bits)
    (hacc : acc = FKind.add.neutral φ hφ) (r : Fin m) :
    multiReduction (F := Ideal) .add [1] ⟨1, ![m]⟩ src acc h hφ hacc (ix1 r) = ∑ c : Fin n, src (ix2 r c) := by
  refine (Ideal.multiReduction_add_single src acc h hφ hacc (ix1 r)).trans ?_
  refine Finset.sum_congr rfl fun c _ => congrArg src ?_
  funext ax; apply Fin.ext
  match ax with
  | ⟨0, _⟩ => rfl
  | ⟨1, _⟩ => rfl

theorem rowMax_apply {m n : ℕ} {φ : FTy} (src : FVec Ideal ⟨2, ![m, n]⟩ φ)
    (h : Shape.Reduces ⟨2, ![m, n]⟩ [1] ⟨1, ![m]⟩) (hφ : FKind.Formats φ) (acc : BitVec φ.bits)
    (hacc : acc = FKind.maximumf.neutral φ hφ) (r : Fin m) :
    multiReduction (F := Ideal) .maximumf [1] ⟨1, ![m]⟩ src acc h hφ hacc (ix1 r)
      = (Finset.univ : Finset (Fin n)).fold max (Ideal.ofBits φ acc) (fun c => src (ix2 r c)) := by
  refine (Ideal.multiReduction_maximumf_single src acc h hφ hacc (ix1 r)).trans ?_
  refine congrArg (fun f => (Finset.univ : Finset (Fin n)).fold max (Ideal.ofBits φ acc) f) ?_
  funext c
  refine congrArg src ?_
  funext ax; apply Fin.ext
  match ax with
  | ⟨0, _⟩ => rfl
  | ⟨1, _⟩ => rfl

theorem rowSum512_apply (v : FVec Ideal S1024x512 .f32) (s : Fin 1024) :
    multiReduction (F := Ideal) .add [1] S1024 v 0x00000000#32 reduces_S1024x512_S1024 (.inl rfl) rfl (ix1 s)
      = ∑ d : Fin 512, v (ix2 s d) :=
  rowSum_apply v reduces_S1024x512_S1024 (.inl rfl) _ rfl s

theorem zero1 : (![0] : Fin 1 → Nat) = fun _ => 0 := funext fun a => by fin_cases a; rfl
theorem zero2 : (![0, 0] : Fin 2 → Nat) = fun _ => 0 := funext fun a => by fin_cases a <;> rfl
theorem zero3 : (![0, 0, 0] : Fin 3 → Nat) = fun _ => 0 := funext fun a => by fin_cases a <;> rfl

-- Row `j` of a table of four 512-vectors, read through its one-row rectangle.
theorem ld_row (T : Vec Ideal S4x512 .f32) (j : Nat) (hj : j < 4) (inb : ∀ a, (![j, 0] : Fin 2 → Nat) a + S1x512.size a ≤ S4x512.size a)
    (u : Fin 1) (e : Fin 512) :
    View.ld T (Rect.unit (s := S4x512) ![j, 0] S1x512.size inb) (ix2 u e) = T (ix2 ⟨j, hj⟩ e) := by
  show T _ = T _
  refine congrArg T (funext fun a => Fin.ext ?_)
  match a with
  | ⟨0, _⟩ => show j + 1 * u.val = j; have := u.isLt; omega
  | ⟨1, _⟩ => show 0 + 1 * e.val = e.val; omega

theorem rsqrt_apply {s : Shape} {φ : FTy} (a : FVec Ideal s φ) (i : s.Idx) : rsqrt a i = Ideal.rsqrt (a i) := rfl

end Cert.KernelIdeal.Pay0
end
-- ==== Proof.LibIdealReal.lean ====
import Idealize.ShloMosaic.PureOps.Ideal
import Idealize.ShloMosaic.PureOps.Ideal.Laws

namespace IdealReal

open Idealize.ShloMosaic
open scoped BigOperators

-- An extended real that is (the image of) a real number.
def IsReal (x : EReal) : Prop := ∃ r : ℝ, x = r

theorem coe_finset_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem IsReal.coe_toReal {x : EReal} (h : IsReal x) : ((x.toReal : ℝ) : EReal) = x := by
  obtain ⟨r, rfl⟩ := h
  rw [EReal.toReal_coe]

theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.sub {x y : EReal} (hx : IsReal x) (hy : IsReal y) : IsReal (x - y) := by
  obtain ⟨a, rfl⟩ := hx
  obtain ⟨b, rfl⟩ := hy
  exact ⟨a - b, (EReal.coe_sub a b).symm⟩
theorem IsReal.max {x y : EReal} (hx : IsReal x) (hy : IsReal y) : IsReal (max x y) := by
  rcases max_choice x y with h | h <;> rw [h] <;> assumption
theorem IsReal.sum {ι : Type*} (s : Finset ι) (f : ι → EReal) (hf : ∀ i ∈ s, IsReal (f i)) :
    IsReal (∑ i ∈ s, f i) := by
  refine ⟨∑ i ∈ s, (f i).toReal, ?_⟩
  rw [coe_finset_sum]
  exact Finset.sum_congr rfl fun i hi => ((hf i hi).coe_toReal).symm

theorem IsReal.sum_mul {ι : Type*} (s : Finset ι) (f g : ι → EReal) (hf : ∀ i ∈ s, IsReal (f i))
    (hg : ∀ i ∈ s, IsReal (g i)) : IsReal (∑ i ∈ s, f i * g i) := by
  exact IsReal.sum s _ fun i hi => (hf i hi).mul (hg i hi)

section Fields
variable {φ : FTy} {x y : Ideal φ}

theorem IsReal.maximumf (hx : IsReal x) (hy : IsReal y) : IsReal (FloatOps.maximumf x y) := hx.max hy
end Fields

theorem div_coe_coe (a : ℝ) {b : ℝ} (hb : b ≠ 0) : Ideal.div (a : EReal) (b : EReal) = ((a / b : ℝ) : EReal) := by
  rw [Ideal.div, if_neg (by exact_mod_cast hb), ← EReal.coe_inv, ← EReal.coe_mul, div_eq_mul_inv]

theorem IsReal.div_of_ne_zero {x y : EReal} (hx : IsReal x) (hy : ∃ r : ℝ, r ≠ 0 ∧ y = r) :
    IsReal (Ideal.div x y) := by
  obtain ⟨a, rfl⟩ := hx
  obtain ⟨b, hb, rfl⟩ := hy
  exact ⟨a / b, div_coe_coe a hb⟩

theorem IsReal.div_of_pos {x y : EReal} (hx : IsReal x) (hy : ∃ r : ℝ, 0 < r ∧ y = r) :
    IsReal (Ideal.div x y) := by
  obtain ⟨b, hb, rfl⟩ := hy
  exact hx.div_of_ne_zero ⟨b, hb.ne', rfl⟩

theorem IsReal.divf {φ : FTy} {x y : Ideal φ} (hx : IsReal x) (hy : ∃ r : ℝ, 0 < r ∧ y = r) :
    IsReal (FloatOps.divf x y) := hx.div_of_pos hy

theorem IsReal.exp {x : EReal} (hx : IsReal x) : IsReal (Ideal.exp x) := by
  obtain ⟨r, rfl⟩ := hx
  exact ⟨Real.exp r, rfl⟩

theorem exp_pos_real {x : EReal} (hx : IsReal x) : ∃ q : ℝ, 0 < q ∧ Ideal.exp x = q := by
  obtain ⟨r, rfl⟩ := hx
  exact ⟨Real.exp r, Real.exp_pos r, rfl⟩

theorem ofBits_f32_one : Ideal.ofBits .f32 0x3F800000#32 = 1 := by
  simp [Ideal.ofBits, Ideal.ieee]
  rw [← EReal.coe_mul]
  norm_num

end IdealReal
-- ==== Proof.LibIdealPos.lean ====
import proofs.«400912_j69947837382775_3_alg».proof.Proof.LibIdealReal

namespace IdealReal

open Idealize.ShloMosaic
open scoped BigOperators

-- A positive real among the extended reals.
def IsPos (x : EReal) : Prop := ∃ q : ℝ, 0 < q ∧ x = q

theorem IsPos.isReal {x : EReal} (h : IsPos x) : IsReal x := by
  obtain ⟨q, _, rfl⟩ := h
  exact ⟨q, rfl⟩

theorem isPos_coe {q : ℝ} (hq : 0 < q) : IsPos (q : EReal) := ⟨q, hq, rfl⟩

theorem IsPos.pos {x : EReal} (h : IsPos x) : 0 < x := by
  obtain ⟨q, hq, rfl⟩ := h
  exact EReal.coe_pos.mpr hq

theorem IsPos.add {x y : EReal} (hx : IsPos x) (hy : IsPos y) : IsPos (x + y) := by
  obtain ⟨a, ha, rfl⟩ := hx
  obtain ⟨b, hb, rfl⟩ := hy
  exact ⟨a + b, add_pos ha hb, (EReal.coe_add a b).symm⟩

theorem IsPos.mul {x y : EReal} (hx : IsPos x) (hy : IsPos y) : IsPos (x * y) := by
  obtain ⟨a, ha, rfl⟩ := hx
  obtain ⟨b, hb, rfl⟩ := hy
  exact ⟨a * b, mul_pos ha hb, (EReal.coe_mul a b).symm⟩

theorem IsPos.zero_add {x : EReal} (hx : IsPos x) : IsPos (0 + x) := by
  rw [_root_.zero_add]; exact hx

theorem IsPos.sum {ι : Type*} (s : Finset ι) (hs : s.Nonempty) (f : ι → EReal)
    (hf : ∀ i ∈ s, IsPos (f i)) : IsPos (∑ i ∈ s, f i) := by
  refine ⟨∑ i ∈ s, (f i).toReal, ?_, ?_⟩
  · refine Finset.sum_pos (fun i hi => ?_) hs
    obtain ⟨q, hq, hqe⟩ := hf i hi
    rw [hqe, EReal.toReal_coe]; exact hq
  · rw [coe_finset_sum]
    exact Finset.sum_congr rfl fun i hi => ((hf i hi).isReal.coe_toReal).symm

theorem IsPos.div {x y : EReal} (hx : IsPos x) (hy : IsPos y) : IsPos (Ideal.div x y) := by
  obtain ⟨a, ha, rfl⟩ := hx
  obtain ⟨b, hb, rfl⟩ := hy
  exact ⟨a / b, div_pos ha hb, div_coe_coe a hb.ne'⟩

theorem IsReal.isPos_exp {x : EReal} (hx : IsReal x) : IsPos (Ideal.exp x) := exp_pos_real hx

end IdealReal
-- ==== Proof.Consts.lean ====
import Idealize.ShloMosaic.PureOps.Ideal
import proofs.«400912_j69947837382775_3_alg».proof.Proof.Spec
import proofs.«400912_j69947837382775_3_alg».proof.Proof.LibIdealReal
import proofs.«400912_j69947837382775_3_alg».proof.Proof.LibIdealPos

noncomputable section

namespace EncConsts

open Idealize.ShloMosaic

theorem c512_eq : EncSpec.c512 = ((512 : ℝ) : EReal) := by
  simp [EncSpec.c512, Ideal.ofBits, Ideal.ieee, -EReal.coe_mul]; norm_num

theorem half_eq : EncSpec.half = ((1/2 : ℝ) : EReal) := by
  simp [EncSpec.half, Ideal.ofBits, Ideal.ieee, -EReal.coe_mul]; norm_num

theorem eighth_eq : EncSpec.eighth = ((1/8 : ℝ) : EReal) := by
  simp [EncSpec.eighth, Ideal.ofBits, Ideal.ieee, -EReal.coe_mul]; norm_num

theorem zero_eq : Ideal.ofBits .f32 0x00000000#32 = 0 := by
  simp [Ideal.ofBits, Ideal.ieee]

theorem ninf_eq : Ideal.ofBits .f32 0xFF800000#32 = ⊥ := by
  simp [Ideal.ofBits, Ideal.ieee]

theorem isPos_half : IdealReal.IsPos EncSpec.half := half_eq ▸ IdealReal.isPos_coe (by norm_num)
theorem isPos_eighth : IdealReal.IsPos EncSpec.eighth := eighth_eq ▸ IdealReal.isPos_coe (by norm_num)

end EncConsts

end
-- ==== Proof.KPay0b.lean ====
import proofs.«400912_j69947837382775_3_alg».proof.Proof.KPay0
import proofs.«400912_j69947837382775_3_alg».proof.Proof.Consts

noncomputable section

namespace Cert.KernelIdeal.Pay0

open Idealize.ShloMosaic Idealize.ShloMosaic.ValueIdx Idealize.SL.Sem
open Cert.KernelIdeal Cert.KernelIdeal.Gen
open scoped BigOperators

def lo (d : Fin 64) : Fin 128 := ⟨d.val, by omega⟩
def hi (d : Fin 64) : Fin 128 := ⟨64 + d.val, by omega⟩

abbrev oneW : EReal := Ideal.ofBits .f32 0x3F800000#32

section
variable (Q K : Vec Ideal S1024x128 .bf16) (l s : Fin 1024)

-- The first head's scores of a pair: q·kᵀ over the pair's first 64 columns, times one eighth.
theorem pay5_apply : k0_pay5 Q K (ix2 l s) = (∑ d : Fin 64, Q (ix2 l (lo d)) * K (ix2 s (lo d))) * EncSpec.eighth := by
  unfold k0_pay5
  simp only [shapeCast_self]
  exact congrArg (· * EncSpec.eighth) ((matmul_plain_zero_apply _ none _ _ l s).trans
    (Finset.sum_congr rfl fun d _ => congrArg₂ (· * ·)
      (slice2_axis1_apply 0 Q _ l d (lo d) (Nat.zero_add _).symm)
      ((transpose_ix2_apply _ _ d s).trans (slice2_axis1_apply 0 K _ s d (lo d) (Nat.zero_add _).symm))))

-- The second head's: the same over the last 64 columns.
theorem pay22_apply : k0_pay22 Q K (ix2 l s) = (∑ d : Fin 64, Q (ix2 l (hi d)) * K (ix2 s (hi d))) * EncSpec.eighth := by
  unfold k0_pay22
  simp only [shapeCast_self]
  exact congrArg (· * EncSpec.eighth) ((matmul_plain_zero_apply _ none _ _ l s).trans
    (Finset.sum_congr rfl fun d _ => congrArg₂ (· * ·)
      (slice2_axis1_apply 64 Q _ l d (hi d) rfl)
      ((transpose_ix2_apply _ _ d s).trans (slice2_axis1_apply 64 K _ s d (hi d) rfl))))

end

abbrev rowOf (S : FVec Ideal S1024x1024 .f32) (l : Fin 1024) : Fin 1024 → EReal := fun s => S (ix2 l s)

-- The fold of max from −∞ over a row is the row's supremum.
theorem rowMaxCol_apply (S : FVec Ideal S1024x1024 .f32) (h : Shape.Reduces S1024x1024 [1] S1024) (hφ : FKind.Formats .f32)
    (hacc : (0xFF800000#32 : BitVec 32) = FKind.maximumf.neutral .f32 hφ) (l : Fin 1024) :
    multiReduction (F := Ideal) .maximumf [1] S1024 S 0xFF800000#32 h hφ hacc (ix1 l) = EncSpec.rowMax (rowOf S l) := by
  refine (rowMax_apply S h hφ _ hacc l).trans ?_
  show (Finset.univ : Finset (Fin 1024)).fold max (Ideal.ofBits .f32 0xFF800000#32) (rowOf S l) = Finset.univ.fold max ⊥ (rowOf S l)
  rw [EncConsts.ninf_eq]

theorem pay6_apply (S : Vec Ideal S1024x1024 .f32) (l s : Fin 1024) :
    k0_pay6 S S (ix2 l s) = EncSpec.expo (rowOf S l) s := by
  unfold k0_pay6
  simp only [shapeCast_self]
  exact congrArg (fun m => Ideal.exp (S (ix2 l s) - m))
    ((broadcastTo_a1_ab_apply _ _ l s).trans ((shapeCast_a_a1_apply _ _ l 0).trans (rowMaxCol_apply S _ _ _ l)))

theorem rowSumCol_apply (E : FVec Ideal S1024x1024 .f32) (h : Shape.Reduces S1024x1024 [1] S1024) (hφ : FKind.Formats .f32)
    (hacc : (0x00000000#32 : BitVec 32) = FKind.add.neutral .f32 hφ) (hc : S1024.ShapeCasts S1024x1) (l : Fin 1024) :
    shapeCast S1024x1 (multiReduction (F := Ideal) .add [1] S1024 E 0x00000000#32 h hφ hacc) hc (ix2 l (0 : Fin 1))
      = ∑ s : Fin 1024, E (ix2 l s) :=
  (shapeCast_a_a1_apply _ _ l 0).trans (rowSum_apply E h hφ _ hacc l)

section
variable (E : Vec Ideal S1024x1024 .f32) (l : Fin 1024)

theorem pay8_apply : k0_pay8 E (ix2 l (0 : Fin 1)) = Ideal.div oneW (∑ s : Fin 1024, E (ix2 l s)) :=
  congrArg (Ideal.div oneW) (rowSumCol_apply E _ _ _ _ l)

theorem pay13_apply : k0_pay13 E (ix2 l (0 : Fin 1)) = ∑ s : Fin 1024, E (ix2 l s) :=
  rowSumCol_apply E _ _ _ _ l

theorem pay31_apply : k0_pay31 E (ix1 l) = ∑ s : Fin 1024, E (ix2 l s) := by
  unfold k0_pay31
  exact rowSum_apply E _ _ _ _ l

theorem pay14_eq : k0_pay14 E = E := rfl

end

theorem pay16_apply (v : FVec Ideal S1024x1 .f32) (l : Fin 1024) :
    k0_pay16 v (ix2 l (0 : Fin 1)) = Ideal.div oneW (v (ix2 l (0 : Fin 1))) := rfl

theorem pay54_apply (v : FVec Ideal S1024 .f32) (l : Fin 1024) :
    k0_pay54 v (ix2 l (0 : Fin 1)) = Ideal.div oneW (v (ix1 l)) :=
  congrArg (Ideal.div oneW) (shapeCast_a_a1_apply _ _ l 0)

end Cert.KernelIdeal.Pay0
end
-- ==== Proof.KPay0c.lean ====
import proofs.«400912_j69947837382775_3_alg».proof.Proof.KPay0b

noncomputable section

namespace Cert.KernelIdeal.Pay0

open Idealize.ShloMosaic Idealize.ShloMosaic.ValueIdx Idealize.SL.Sem
open Cert.KernelIdeal Cert.KernelIdeal.Gen
open scoped BigOperators

theorem pay7_apply (C : FVec Ideal S1024x128 .bf16) (E : Vec Ideal S1024x1024 .f32) (l : Fin 1024) (c : Fin 128) :
    k0_pay7 C E (ix2 l c) = ∑ s : Fin 1024, E (ix2 l s) * C (ix2 s c) := by
  unfold k0_pay7
  exact matmul_plain_zero_apply _ none _ C l c

theorem pay15_apply (C : FVec Ideal S1024x128 .bf16) (E : FVec Ideal S1024x1024 .bf16) (l : Fin 1024) (c : Fin 128) :
    k0_pay15 C E (ix2 l c) = ∑ s : Fin 1024, E (ix2 l s) * C (ix2 s c) := by
  unfold k0_pay15
  exact matmul_plain_zero_apply _ none E C l c

section
variable (V Vd : Vec Ideal S1024x128 .bf16) (s : Fin 1024) (d : Fin 64)

-- The first head's [values | other values] block: the two streams' first 64 columns side by side.
theorem pay4_lo : k0_pay4 V Vd (ix2 s (lo d)) = V (ix2 s (lo d)) := by
  unfold k0_pay4
  exact (concat2_left_apply (n := 64) _ _ _ s (lo d) d rfl).trans
    (slice2_axis1_apply 0 V slices_S1024x128_o0_0_S1024x64 s d (lo d) (Nat.zero_add _).symm)
theorem pay4_hi : k0_pay4 V Vd (ix2 s (hi d)) = Vd (ix2 s (lo d)) := by
  unfold k0_pay4
  exact (concat2_right_apply (n := 64) _ _ _ s (hi d) d (Nat.add_comm _ _)).trans
    (slice2_axis1_apply 0 Vd slices_S1024x128_o0_0_S1024x64 s d (lo d) (Nat.zero_add _).symm)
-- The second head's: the two streams' last 64 columns side by side.
theorem pay21_lo : k0_pay21 V Vd (ix2 s (lo d)) = V (ix2 s (hi d)) := by
  unfold k0_pay21
  exact (concat2_left_apply (n := 64) _ _ _ s (lo d) d rfl).trans
    (slice2_axis1_apply 64 V slices_S1024x128_o0_64_S1024x64 s d (hi d) rfl)
theorem pay21_hi : k0_pay21 V Vd (ix2 s (hi d)) = Vd (ix2 s (hi d)) := by
  unfold k0_pay21
  exact (concat2_right_apply (n := 64) _ _ _ s (hi d) d (Nat.add_comm _ _)).trans
    (slice2_axis1_apply 64 Vd slices_S1024x128_o0_64_S1024x64 s d (hi d) rfl)

end

section
variable (C : FVec Ideal S1024x128 .bf16) (E E' : Vec Ideal S1024x1024 .f32) (n : FVec Ideal S1024x64 .f32) (l : Fin 1024) (d : Fin 64)

-- The first 64 columns of the weighted sums times the reciprocal of the row's total; the last 64 likewise.
theorem pay9_apply : k0_pay9 C E E' (ix2 l d) = k0_pay7 C E' (ix2 l (lo d)) * k0_pay8 E (ix2 l (0 : Fin 1)) := by
  unfold k0_pay9
  exact congrArg₂ (· * ·) (slice2_axis1_apply 0 (k0_pay7 C E') slices_S1024x128_o0_0_S1024x64 l d (lo d) (Nat.zero_add _).symm)
    (broadcastTo_a1_ab_apply _ _ l d)
theorem pay10_apply : k0_pay10 C E E' (ix2 l d) = k0_pay7 C E' (ix2 l (hi d)) * k0_pay8 E (ix2 l (0 : Fin 1)) := by
  unfold k0_pay10
  exact congrArg₂ (· * ·) (slice2_axis1_apply 64 (k0_pay7 C E') slices_S1024x128_o0_64_S1024x64 l d (hi d) rfl)
    (broadcastTo_a1_ab_apply _ _ l d)

variable (t : FVec Ideal S1024x1 .f32) (B : FVec Ideal S1024x1024 .bf16)

-- A head's two outputs: half one stream's normalised sum plus half the other's.
theorem pay17_apply : k0_pay17 C n t B (ix2 l d)
      = EncSpec.half * n (ix2 l d) + EncSpec.half * (k0_pay15 C B (ix2 l (lo d)) * k0_pay16 t (ix2 l (0 : Fin 1))) := by
  unfold k0_pay17
  exact congrArg (fun z => EncSpec.half * n (ix2 l d) + EncSpec.half * z)
    (congrArg₂ (· * ·) (slice2_axis1_apply 0 (k0_pay15 C B) slices_S1024x128_o0_0_S1024x64 l d (lo d) (Nat.zero_add _).symm)
      (broadcastTo_a1_ab_apply _ _ l d))
theorem pay18_apply : k0_pay18 C n t B (ix2 l d)
      = EncSpec.half * (k0_pay15 C B (ix2 l (hi d)) * k0_pay16 t (ix2 l (0 : Fin 1))) + EncSpec.half * n (ix2 l d) := by
  unfold k0_pay18
  exact congrArg (fun z => EncSpec.half * z + EncSpec.half * n (ix2 l d))
    (congrArg₂ (· * ·) (slice2_axis1_apply 64 (k0_pay15 C B) slices_S1024x128_o0_64_S1024x64 l d (hi d) rfl)
      (broadcastTo_a1_ab_apply _ _ l d))

variable (o : FVec Ideal S1024x64 .bf16) (r : FVec Ideal S1024 .f32)

-- A pair's output block: the first head's 64 columns as given, then the second head's mix.
theorem pay55_lo : k0_pay55 o C n r E (ix2 l (lo d)) = o (ix2 l d) := by
  unfold k0_pay55
  simp only [shapeCast_self]
  exact concat2_left_apply (n := 64) _ _ _ l (lo d) d rfl
theorem pay55_hi : k0_pay55 o C n r E (ix2 l (hi d))
      = EncSpec.half * n (ix2 l d) + EncSpec.half * (k0_pay7 C E (ix2 l (lo d)) * k0_pay54 r (ix2 l (0 : Fin 1))) := by
  unfold k0_pay55
  simp only [shapeCast_self]
  exact (concat2_right_apply (n := 64) _ _ _ l (hi d) d (Nat.add_comm _ _)).trans
    (congrArg (fun z => EncSpec.half * n (ix2 l d) + EncSpec.half * z)
      (congrArg₂ (· * ·) (slice2_axis1_apply 0 (k0_pay7 C E) slices_S1024x128_o0_0_S1024x64 l d (lo d) (Nat.zero_add _).symm)
        (broadcastTo_a1_ab_apply _ _ l d)))
theorem pay56_lo : k0_pay56 o C n r E (ix2 l (lo d)) = o (ix2 l d) := by
  unfold k0_pay56
  simp only [shapeCast_self]
  exact concat2_left_apply (n := 64) _ _ _ l (lo d) d rfl
theorem pay56_hi : k0_pay56 o C n r E (ix2 l (hi d))
      = EncSpec.half * (k0_pay7 C E (ix2 l (hi d)) * k0_pay54 r (ix2 l (0 : Fin 1))) + EncSpec.half * n (ix2 l d) := by
  unfold k0_pay56
  simp only [shapeCast_self]
  exact (concat2_right_apply (n := 64) _ _ _ l (hi d) d (Nat.add_comm _ _)).trans
    (congrArg (fun z => EncSpec.half * z + EncSpec.half * n (ix2 l d))
      (congrArg₂ (· * ·) (slice2_axis1_apply 64 (k0_pay7 C E) slices_S1024x128_o0_64_S1024x64 l d (hi d) rfl)
        (broadcastTo_a1_ab_apply _ _ l d)))

end

end Cert.KernelIdeal.Pay0
end
-- ==== Proof.AttnAlgebra.lean ====
import Idealize.ShloMosaic.PureOps.Ideal
import proofs.«400912_j69947837382775_3_alg».proof.Proof.Spec
import proofs.«400912_j69947837382775_3_alg».proof.Proof.LibIdealReal
import proofs.«400912_j69947837382775_3_alg».proof.Proof.LibIdealPos
import proofs.«400912_j69947837382775_3_alg».proof.Proof.Consts

namespace EncAlgebra

open Idealize.ShloMosaic IdealReal
open scoped BigOperators

-- Normalising and mixing the weights before the weighted sum, or after it, gives the same number (on the reals).
theorem mix_law_real {ι : Type*} (t : Finset ι) (h : ℝ) (a a' w : ι → ℝ)
    (hA : (∑ s ∈ t, a s) ≠ 0) (hA' : (∑ s ∈ t, a' s) ≠ 0) :
    h * ((∑ s ∈ t, a s * w s) * (1 / ∑ s ∈ t, a s))
      + h * ((∑ s ∈ t, a' s * w s) * (1 / ∑ s ∈ t, a' s))
    = ∑ s ∈ t, (h * (a s / ∑ s' ∈ t, a s') + h * (a' s / ∑ s' ∈ t, a' s')) * w s := by
  simp only [add_mul, Finset.sum_add_distrib]
  congr 1
  · rw [Finset.sum_mul, Finset.mul_sum]
    refine Finset.sum_congr rfl fun s _ => ?_
    ring
  · rw [Finset.sum_mul, Finset.mul_sum]
    refine Finset.sum_congr rfl fun s _ => ?_
    ring

theorem sum_coe_mul_coe {ι : Type*} (t : Finset ι) (a w : ι → ℝ) :
    ∑ s ∈ t, ((a s : EReal) * (w s : EReal)) = ((∑ s ∈ t, a s * w s : ℝ) : EReal) := by
  rw [coe_finset_sum]
  exact Finset.sum_congr rfl fun s _ => (EReal.coe_mul _ _).symm

-- The same on the extended reals for positive real weights and real values: distributivity fails at the infinities, so it is carried back from real witnesses.
theorem mix_law_gen {ι : Type*} (t : Finset ι) (ht : t.Nonempty) (h : EReal) (hh : IsReal h)
    (e e' v : ι → EReal)
    (he : ∀ s, IsPos (e s)) (he' : ∀ s, IsPos (e' s)) (hv : ∀ s, IsReal (v s)) :
    h * ((∑ s ∈ t, e s * v s) * Ideal.div 1 (∑ s ∈ t, e s))
      + h * ((∑ s ∈ t, e' s * v s) * Ideal.div 1 (∑ s ∈ t, e' s))
    = ∑ s ∈ t, (h * Ideal.div (e s) (∑ s' ∈ t, e s') + h * Ideal.div (e' s) (∑ s' ∈ t, e' s')) * v s := by
  obtain ⟨c, rfl⟩ := hh
  choose a ha hae using he
  choose a' ha' hae' using he'
  choose w hwe using hv
  obtain rfl : e = fun s => (a s : EReal) := funext hae
  obtain rfl : e' = fun s => (a' s : EReal) := funext hae'
  obtain rfl : v = fun s => (w s : EReal) := funext hwe
  have hA : 0 < ∑ s ∈ t, a s := Finset.sum_pos (fun s _ => ha s) ht
  have hA' : 0 < ∑ s ∈ t, a' s := Finset.sum_pos (fun s _ => ha' s) ht
  have h1 : (1 : EReal) = ((1 : ℝ) : EReal) := rfl
  simp only [sum_coe_mul_coe, ← coe_finset_sum, h1, div_coe_coe _ hA.ne', div_coe_coe _ hA'.ne',
    ← EReal.coe_mul, ← EReal.coe_add]
  rw [mix_law_real t c a a' w hA.ne' hA'.ne']

theorem isReal_half : IsReal EncSpec.half := EncConsts.isPos_half.isReal

theorem isReal_eighth : IsReal EncSpec.eighth := EncConsts.isPos_eighth.isReal

theorem mix_law (e e' v : Fin 1024 → EReal)
    (he : ∀ s, IsPos (e s)) (he' : ∀ s, IsPos (e' s)) (hv : ∀ s, IsReal (v s)) :
    EncSpec.half * ((∑ s, e s * v s) * Ideal.div (Ideal.ofBits .f32 0x3F800000#32) (∑ s, e s))
      + EncSpec.half * ((∑ s, e' s * v s) * Ideal.div (Ideal.ofBits .f32 0x3F800000#32) (∑ s, e' s))
    = ∑ s, (EncSpec.half * Ideal.div (e s) (∑ s', e s')
            + EncSpec.half * Ideal.div (e' s) (∑ s', e' s')) * v s := by
  rw [ofBits_f32_one]
  exact mix_law_gen Finset.univ Finset.univ_nonempty _ isReal_half e e' v he he' hv

theorem rowMax_mem (f : Fin 1024 → EReal) : ∃ s, EncSpec.rowMax f = f s := by
  obtain ⟨s, _, hs⟩ := Finset.exists_mem_eq_sup Finset.univ Finset.univ_nonempty f
  exact ⟨s, hs⟩

theorem isReal_rowMax {f : Fin 1024 → EReal} (hf : ∀ s, IsReal (f s)) : IsReal (EncSpec.rowMax f) := by
  obtain ⟨s, hs⟩ := rowMax_mem f
  rw [hs]; exact hf s

theorem isPos_expo {f : Fin 1024 → EReal} (hf : ∀ s, IsReal (f s)) (s : Fin 1024) :
    IsPos (EncSpec.expo f s) :=
  ((hf s).sub (isReal_rowMax hf)).isPos_exp

theorem isReal_linear {K N : Nat} {x : EncSpec.A3 8 1024 K} {W : EncSpec.A2 N K} {bias : Fin N → EReal}
    (hx : ∀ b s d, IsReal (x b s d)) (hW : ∀ e d, IsReal (W e d)) (hb : ∀ e, IsReal (bias e))
    (b : Fin 8) (s : Fin 1024) (e : Fin N) : IsReal (EncSpec.linear x W bias b s e) :=
  (IsReal.sum_mul Finset.univ _ _ (fun d _ => hx b s d) (fun d _ => hW e d)).add (hb e)

theorem mix_law_expo (f f' v : Fin 1024 → EReal)
    (hf : ∀ s, IsReal (f s)) (hf' : ∀ s, IsReal (f' s)) (hv : ∀ s, IsReal (v s)) :
    EncSpec.half * ((∑ s, EncSpec.expo f s * v s)
        * Ideal.div (Ideal.ofBits .f32 0x3F800000#32) (∑ s, EncSpec.expo f s))
      + EncSpec.half * ((∑ s, EncSpec.expo f' s * v s)
        * Ideal.div (Ideal.ofBits .f32 0x3F800000#32) (∑ s, EncSpec.expo f' s))
    = ∑ s, (EncSpec.half * EncSpec.softmax f s + EncSpec.half * EncSpec.softmax f' s) * v s :=
  mix_law (EncSpec.expo f) (EncSpec.expo f') v (isPos_expo hf) (isPos_expo hf') hv

end EncAlgebra
-- ==== Proof.KPay0e.lean ====
import proofs.«400912_j69947837382775_3_alg».proof.Proof.KPay0c
import proofs.«400912_j69947837382775_3_alg».proof.Proof.AttnAlgebra

noncomputable section

namespace Cert.KernelIdeal.Pay0

open Idealize.ShloMosaic Idealize.ShloMosaic.ValueIdx Idealize.SL.Sem
open Cert.KernelIdeal Cert.KernelIdeal.Gen
open scoped BigOperators

section Pair
variable (Q K V Qd Kd Vd : Vec Ideal S1024x128 .bf16)

abbrev expLo : FVec Ideal S1024x1024 .f32 := k0_pay6 (k0_pay5 Q K) (k0_pay5 Q K)
abbrev expHi : FVec Ideal S1024x1024 .f32 := k0_pay6 (k0_pay22 Q K) (k0_pay22 Q K)

-- A head pair's two output blocks, from its six 128-column blocks (the two streams' queries, keys, values).
def pairI : FVec Ideal S1024x128 .bf16 :=
  k0_pay55
    (k0_pay17 (k0_pay4 V Vd) (k0_pay9 (k0_pay4 V Vd) (expLo Q K) (expLo Q K)) (k0_pay13 (expLo Qd Kd)) (k0_pay14 (expLo Qd Kd)))
    (k0_pay21 V Vd) (k0_pay9 (k0_pay21 V Vd) (expHi Q K) (expHi Q K)) (k0_pay31 (expHi Qd Kd)) (expHi Qd Kd)
def pairD : FVec Ideal S1024x128 .bf16 :=
  k0_pay56
    (k0_pay18 (k0_pay4 V Vd) (k0_pay10 (k0_pay4 V Vd) (expLo Q K) (expLo Q K)) (k0_pay13 (expLo Qd Kd)) (k0_pay14 (expLo Qd Kd)))
    (k0_pay21 V Vd) (k0_pay10 (k0_pay21 V Vd) (expHi Q K) (expHi Q K)) (k0_pay31 (expHi Qd Kd)) (expHi Qd Kd)

-- A row of one head's scores, the head's 64 columns of the pair being `f`.
def sc (f : Fin 64 → Fin 128) (Q K : Vec Ideal S1024x128 .bf16) (l : Fin 1024) : Fin 1024 → EReal :=
  fun s => (∑ d : Fin 64, Q (ix2 l (f d)) * K (ix2 s (f d))) * EncSpec.eighth

theorem expLo_apply (l s : Fin 1024) : expLo Q K (ix2 l s) = EncSpec.expo (sc lo Q K l) s :=
  (pay6_apply _ l s).trans (congrArg (fun f => EncSpec.expo f s) (funext fun s' => pay5_apply Q K l s'))
theorem expHi_apply (l s : Fin 1024) : expHi Q K (ix2 l s) = EncSpec.expo (sc hi Q K l) s :=
  (pay6_apply _ l s).trans (congrArg (fun f => EncSpec.expo f s) (funext fun s' => pay22_apply Q K l s'))

open IdealReal

abbrev RealBlk (X : Vec Ideal S1024x128 .bf16) : Prop := ∀ l c, IsReal (X (ix2 l c))

theorem isReal_sc {f : Fin 64 → Fin 128} {Q K : Vec Ideal S1024x128 .bf16} (hQ : RealBlk Q) (hK : RealBlk K)
    (l s : Fin 1024) : IsReal (sc f Q K l s) :=
  (IsReal.sum_mul Finset.univ _ _ (fun d _ => hQ _ _) (fun d _ => hK _ _)).mul EncAlgebra.isReal_eighth

variable (hQ : RealBlk Q) (hK : RealBlk K) (hQd : RealBlk Qd) (hKd : RealBlk Kd)
include hQ hK hQd hKd

-- Each head of each output block is the value columns against the half-and-half mix of the two streams' softmaxes.
theorem pairI_lo (hV : RealBlk V) (l : Fin 1024) (d : Fin 64) :
    pairI Q K V Qd Kd Vd (ix2 l (lo d))
      = ∑ s, (EncSpec.half * EncSpec.softmax (sc lo Q K l) s + EncSpec.half * EncSpec.softmax (sc lo Qd Kd l) s) * V (ix2 s (lo d)) := by
  unfold pairI
  rw [pay55_lo, pay17_apply, pay9_apply, pay7_apply, pay8_apply, pay15_apply, pay16_apply, pay13_apply]
  simp only [pay14_eq, expLo_apply, pay4_lo]
  exact EncAlgebra.mix_law_expo _ _ _ (isReal_sc hQ hK l) (isReal_sc hQd hKd l) (fun s => hV s _)

theorem pairI_hi (hV : RealBlk V) (l : Fin 1024) (d : Fin 64) :
    pairI Q K V Qd Kd Vd (ix2 l (hi d))
      = ∑ s, (EncSpec.half * EncSpec.softmax (sc hi Q K l) s + EncSpec.half * EncSpec.softmax (sc hi Qd Kd l) s) * V (ix2 s (hi d)) := by
  unfold pairI
  rw [pay55_hi, pay9_apply, pay7_apply, pay8_apply, pay7_apply, pay54_apply, pay31_apply]
  simp only [expHi_apply, pay21_lo]
  exact EncAlgebra.mix_law_expo _ _ _ (isReal_sc hQ hK l) (isReal_sc hQd hKd l) (fun s => hV s _)

theorem pairD_lo (hVd : RealBlk Vd) (l : Fin 1024) (d : Fin 64) :
    pairD Q K V Qd Kd Vd (ix2 l (lo d))
      = ∑ s, (EncSpec.half * EncSpec.softmax (sc lo Qd Kd l) s + EncSpec.half * EncSpec.softmax (sc lo Q K l) s) * Vd (ix2 s (lo d)) := by
  unfold pairD
  rw [pay56_lo, pay18_apply, pay10_apply, pay7_apply, pay8_apply, pay15_apply, pay16_apply, pay13_apply]
  simp only [pay14_eq, expLo_apply, pay4_hi]
  exact EncAlgebra.mix_law_expo _ _ _ (isReal_sc hQd hKd l) (isReal_sc hQ hK l) (fun s => hVd s _)

theorem pairD_hi (hVd : RealBlk Vd) (l : Fin 1024) (d : Fin 64) :
    pairD Q K V Qd Kd Vd (ix2 l (hi d))
      = ∑ s, (EncSpec.half * EncSpec.softmax (sc hi Qd Kd l) s + EncSpec.half * EncSpec.softmax (sc hi Q K l) s) * Vd (ix2 s (hi d)) := by
  unfold pairD
  rw [pay56_hi, pay10_apply, pay7_apply, pay8_apply, pay7_apply, pay54_apply, pay31_apply]
  simp only [expHi_apply, pay21_hi]
  exact EncAlgebra.mix_law_expo _ _ _ (isReal_sc hQd hKd l) (isReal_sc hQ hK l) (fun s => hVd s _)

end Pair

end Cert.KernelIdeal.Pay0
end
-- ==== Proof.KPay0f.lean ====
import proofs.«400912_j69947837382775_3_alg».proof.Proof.KPay0e

noncomputable section

namespace Cert.KernelIdeal.Pay0

open Idealize.ShloMosaic Idealize.ShloMosaic.ValueIdx Idealize.SL.Sem
open Cert.KernelIdeal Cert.KernelIdeal.Gen
open scoped BigOperators

def col (t : Fin 4) (c : Fin 128) : Fin 512 := ⟨128 * t.val + c.val, by omega⟩

theorem hcol_lo (t : Fin 4) (d d' : Fin 64) : EncSpec.hcol (EncSpec.headOf (col t (lo d))) d' = col t (lo d') :=
  Fin.ext (by
    show 64 * ((128 * t.val + d.val) / 64) + d'.val = 128 * t.val + d'.val
    have := d.isLt; omega)
theorem hcol_hi (t : Fin 4) (d d' : Fin 64) : EncSpec.hcol (EncSpec.headOf (col t (hi d))) d' = col t (hi d') :=
  Fin.ext (by
    show 64 * ((128 * t.val + (64 + d.val)) / 64) + d'.val = 128 * t.val + (64 + d'.val)
    have := d.isLt; omega)

section PairSpec
open IdealReal

variable (q k v qd kd vd : EncSpec.A3 8 1024 512) (b : Fin 8) (t : Fin 4) (Q K V Qd Kd Vd : Vec Ideal S1024x128 .bf16)
  (hQ : ∀ l c, Q (ix2 l c) = q b l (col t c)) (hK : ∀ l c, K (ix2 l c) = k b l (col t c))
  (hQd : ∀ l c, Qd (ix2 l c) = qd b l (col t c)) (hKd : ∀ l c, Kd (ix2 l c) = kd b l (col t c))
include hQ hK

-- A head's score row is the specification's score row of that head.
theorem sc_spec (f : Fin 64 → Fin 128) (d : Fin 64) (hf : ∀ d', EncSpec.hcol (EncSpec.headOf (col t (f d))) d' = col t (f d'))
    (l : Fin 1024) : sc f Q K l = EncSpec.score q k b (EncSpec.headOf (col t (f d))) l := by
  funext s
  unfold sc EncSpec.score
  simp only [hQ, hK, hf]

variable (hq : ∀ b s d, IsReal (q b s d)) (hk : ∀ b s d, IsReal (k b s d))
  (hqd : ∀ b s d, IsReal (qd b s d)) (hkd : ∀ b s d, IsReal (kd b s d))
include hQd hKd hq hk hqd hkd

-- A block whose two heads are the mixes of the two softmaxes against the value columns is the mixed attention there.
theorem pair_spec (P : FVec Ideal S1024x128 .bf16) (hv : ∀ b s d, IsReal (v b s d)) (hV : ∀ l c, V (ix2 l c) = v b l (col t c))
    (hP : RealBlk Q → RealBlk K → RealBlk Qd → RealBlk Kd → RealBlk V →
      (∀ l d, P (ix2 l (lo d)) = ∑ s, (EncSpec.half * EncSpec.softmax (sc lo Q K l) s
        + EncSpec.half * EncSpec.softmax (sc lo Qd Kd l) s) * V (ix2 s (lo d)))
      ∧ ∀ l d, P (ix2 l (hi d)) = ∑ s, (EncSpec.half * EncSpec.softmax (sc hi Q K l) s
        + EncSpec.half * EncSpec.softmax (sc hi Qd Kd l) s) * V (ix2 s (hi d)))
    (l : Fin 1024) (c : Fin 128) :
    P (ix2 l c) = EncSpec.mixedAttn (EncSpec.score q k) (EncSpec.score qd kd) v b l (col t c) := by
  have rb : ∀ (x : EncSpec.A3 8 1024 512) (X : Vec Ideal S1024x128 .bf16), (∀ b s d, IsReal (x b s d)) →
      (∀ l c, X (ix2 l c) = x b l (col t c)) → RealBlk X := fun x X hx hX l c => by rw [hX]; exact hx _ _ _
  obtain ⟨hlo, hhi⟩ := hP (rb q Q hq hQ) (rb k K hk hK) (rb qd Qd hqd hQd) (rb kd Kd hkd hKd) (rb v V hv hV)
  unfold EncSpec.mixedAttn
  by_cases hc : c.val < 64
  · obtain ⟨d, rfl⟩ : ∃ d : Fin 64, c = lo d := ⟨⟨c.val, hc⟩, Fin.ext rfl⟩
    rw [hlo, sc_spec q k b t Q K hQ hK lo d (hcol_lo t d) l, sc_spec qd kd b t Qd Kd hQd hKd lo d (hcol_lo t d) l]
    simp only [hV]
  · obtain ⟨d, rfl⟩ : ∃ d : Fin 64, c = hi d :=
      ⟨⟨c.val - 64, by have := c.isLt; omega⟩, Fin.ext (by show c.val = 64 + (c.val - 64); omega)⟩
    rw [hhi, sc_spec q k b t Q K hQ hK hi d (hcol_hi t d) l, sc_spec qd kd b t Qd Kd hQd hKd hi d (hcol_hi t d) l]
    simp only [hV]

theorem pairI_spec (hv : ∀ b s d, IsReal (v b s d)) (hV : ∀ l c, V (ix2 l c) = v b l (col t c)) (l : Fin 1024) (c : Fin 128) :
    pairI Q K V Qd Kd Vd (ix2 l c)
      = EncSpec.mixedAttn (EncSpec.score q k) (EncSpec.score qd kd) v b l (col t c) :=
  pair_spec q k v qd kd b t Q K V Qd Kd hQ hK hQd hKd hq hk hqd hkd _ hv hV
    (fun a b c d e => ⟨pairI_lo Q K V Qd Kd Vd a b c d e, pairI_hi Q K V Qd Kd Vd a b c d e⟩) l c

theorem pairD_spec (hvd : ∀ b s d, IsReal (vd b s d)) (hVd : ∀ l c, Vd (ix2 l c) = vd b l (col t c)) (l : Fin 1024) (c : Fin 128) :
    pairD Q K V Qd Kd Vd (ix2 l c)
      = EncSpec.mixedAttn (EncSpec.score qd kd) (EncSpec.score q k) vd b l (col t c) :=
  pair_spec qd kd vd q k b t Qd Kd Vd Q K hQd hKd hQ hK hqd hkd hq hk _ hvd hVd
    (fun a b c d e => ⟨pairD_lo Q K V Qd Kd Vd c d a b e, pairD_hi Q K V Qd Kd Vd c d a b e⟩) l c

end PairSpec

end Cert.KernelIdeal.Pay0
end
-- ==== Proof.KPay0d.lean ====
import proofs.«400912_j69947837382775_3_alg».proof.Proof.KPay0

noncomputable section

namespace Cert.KernelIdeal.Pay0

open Idealize.ShloMosaic Idealize.ShloMosaic.ValueIdx Idealize.SL.Sem
open Cert.KernelIdeal Cert.KernelIdeal.Gen
open scoped BigOperators

theorem pay47_apply (X : FVec Ideal S1024x512 .bf16) (bv : FVec Ideal S512 .f32) (W : Vec Ideal S512x512 .bf16)
    (s : Fin 1024) (e : Fin 512) :
    k0_pay47 X bv W (ix2 s e) = (∑ d : Fin 512, X (ix2 s d) * W (ix2 d e)) + bv (ix1 e) := by
  unfold k0_pay47
  simp only [shapeCast_self]
  exact congrArg₂ (· + ·) (matmul_plain_zero_apply _ none X W s e)
    ((broadcastTo_1b_ab_apply _ _ s e).trans (shapeCast_a_1a_apply bv _ 0 e))

end Cert.KernelIdeal.Pay0
end
-- ==== Proof.KPay0g.lean ====
import proofs.«400912_j69947837382775_3_alg».proof.Proof.KPay0f
import proofs.«400912_j69947837382775_3_alg».proof.Proof.KPay0d

noncomputable section

namespace Cert.KernelIdeal.Pay0

open Idealize.ShloMosaic Idealize.ShloMosaic.ValueIdx Idealize.SL.Sem
open Cert.KernelIdeal Cert.KernelIdeal.Gen
open scoped BigOperators

-- The rectangle of head pair `t` places `(l, c)` at `(l, 128·t + c)`.
theorem emb_pair (t : Fin k0_t1_loop.trips) (t' : Fin 4) (ht : t'.val = t.val) (l : Fin 1024) (c : Fin 128) :
    (Rect.unit (s := S1024x512) (k0_off1 t) S1024x128.size (k0_off1_inb t)).emb (ix2 l c) = ix2 l (col t' c) := by
  refine funext fun a => Fin.ext ?_
  match a with
  | ⟨0, _⟩ => show (k0_off1 t) 0 + 1 * l.val = l.val; rw [k0_off1_eq]; show 0 + 1 * l.val = l.val; omega
  | ⟨1, _⟩ => show (k0_off1 t) 1 + 1 * c.val = 128 * t'.val + c.val; rw [k0_off1_eq, ht]; show 128 * t.val + 1 * c.val = _; omega

theorem ld_pair (X : Vec Ideal S1024x512 .bf16) (x : EncSpec.A3 8 1024 512) (b : Fin 8) (hX : ∀ l c, X (ix2 l c) = x b l c)
    (t : Fin k0_t1_loop.trips) (t' : Fin 4) (ht : t'.val = t.val) (l : Fin 1024) (c : Fin 128) :
    View.ld X (Rect.unit (s := S1024x512) (k0_off1 t) S1024x128.size (k0_off1_inb t)) (ix2 l c) = x b l (col t' c) :=
  (congrArg X (emb_pair t t' ht l c)).trans (hX _ _)

end Cert.KernelIdeal.Pay0
end
-- ==== Proof.KPay0N.lean ====
import proofs.«400912_j69947837382775_3_alg».proof.Proof.KPay0

noncomputable section

namespace Cert.KernelIdeal.Pay0N

open Cert.KernelIdeal Cert.KernelIdeal.Gen Cert.KernelIdeal.Pay0
open Idealize.ShloMosaic Idealize.ShloMosaic.ValueIdx
open scoped BigOperators

theorem pay62_apply (x : FVec Ideal S1024x512 .f32) (s : Fin 1024) (u : Fin 1) :
    k0_pay62 x (ix2 s u) = EncSpec.mean (fun d => x (ix2 s d)) := by
  unfold k0_pay62
  simp only [divf_apply, broadcast_apply]
  rw [shapeCast_a_a1_apply, rowSum512_apply]
  rfl

-- With the mean column taken from the same rows, the normalised block is the layer normalisation of those rows.
theorem ln_block (x : FVec Ideal S1024x512 .f32) (g o : FVec Ideal S512 .f32)
    (X : EncSpec.A3 8 1024 512) (G O : Fin 512 → EReal) (b : Fin 8)
    (hx : ∀ s d, x (ix2 s d) = X b s d) (hg : ∀ d, g (ix1 d) = G d) (ho : ∀ d, o (ix1 d) = O d)
    (u : Fin 1) (s : Fin 1024) (d : Fin 512) :
    k0_pay1 x g o (k0_pay62 x) (ix3 u s d) = EncSpec.layerNorm X G O b s d := by
  unfold k0_pay1
  simp only [shapeCast_ab_1ab_apply, addf_apply, mulf_apply, subf_apply, divf_apply, broadcast_apply, rsqrt_apply,
    broadcastTo_a1_ab_apply, broadcastTo_1b_ab_apply, shapeCast_a_1a_apply, shapeCast_a_a1_apply]
  rw [rowSum512_apply]
  simp only [mulf_apply, subf_apply, broadcastTo_a1_ab_apply, pay62_apply, hg, ho, hx]
  rfl

-- The residual sum is the input rows plus the linear layer of the attention output, the matrix read transposed.
theorem proj_block (x : FVec Ideal S1024x512 .f32) (bias : FVec Ideal S512 .f32) (o : Vec Ideal S1024x512 .bf16)
    (W : Vec Ideal S512x512 .bf16) (X O : EncSpec.A3 8 1024 512) (Wm : EncSpec.A2 512 512) (B : Fin 512 → EReal)
    (b : Fin 8) (hx : ∀ s d, x (ix2 s d) = X b s d) (ho : ∀ s c, o (ix2 s c) = O b s c)
    (hW : ∀ c e, W (ix2 c e) = Wm e c) (hb : ∀ e, bias (ix1 e) = B e) (s : Fin 1024) (e : Fin 512) :
    k0_pay57 x bias o W (ix2 s e) = X b s e + EncSpec.linear O Wm B b s e := by
  unfold k0_pay57 dot_S1024x512_S512x512_S1024x512_1_0_0_1_n_n
  simp only [addf_apply, broadcastTo_1b_ab_apply, shapeCast_a_1a_apply, shapeCast_self]
  rw [matmul_plain_zero_apply, hx, hb]
  unfold EncSpec.linear
  simp only [ho, hW]

theorem pay32_apply (v : Vec Ideal S1x1024x512 .f32) (s : Fin 1024) (d : Fin 512) :
    k0_pay32 v (ix2 s d) = v (ix3 (0 : Fin 1) s d) :=
  shapeCast_1ab_ab_apply v _ s d

theorem pay34_apply (v p : Vec Ideal S1x1024x512 .f32) (s : Fin 1024) (d : Fin 512) :
    k0_pay34 v p (ix2 s d) = v (ix3 (0 : Fin 1) s d) + p (ix3 (0 : Fin 1) s d) := by
  unfold k0_pay34
  rw [truncf_apply, addf_apply, pay32_apply, shapeCast_1ab_ab_apply]

theorem pay37_apply (v : Vec Ideal S1x512 .f32) (e : Fin 512) : k0_pay37 v (ix1 e) = v (ix2 (0 : Fin 1) e) :=
  shapeCast_1a_a_apply v _ e

end Cert.KernelIdeal.Pay0N

end
-- ==== Proof.KPay0h.lean ====
import proofs.«400912_j69947837382775_3_alg».proof.Proof.KBody0
import proofs.«400912_j69947837382775_3_alg».proof.Proof.KPay0g
import proofs.«400912_j69947837382775_3_alg».proof.Proof.KPay0N

noncomputable section

namespace Cert.KernelIdeal.Pay0

open Idealize.ShloMosaic Idealize.ShloMosaic.ValueIdx Idealize.SL.Sem
open Cert.KernelIdeal Cert.KernelIdeal.Gen
open scoped BigOperators

open Cert.KernelIdeal.Body0 Cert.KernelIdeal.Pay0N IdealReal

-- Four head-pair blocks, each agreeing with `G` on its own 128 columns, tile the 512 columns.
theorem pairs_apply (G : Fin 1024 → Fin 512 → EReal) (P : Fin k0_t1_loop.trips → FVec Ideal S1024x128 .bf16)
    (h : ∀ t (t' : Fin 4), t'.val = t.val → ∀ l c, P t (ix2 l c) = G l (col t' c)) (l : Fin 1024) (c : Fin 512) :
    View.canon ([⟨rH hp3, P hp3⟩, ⟨rH hp2, P hp2⟩, ⟨rH hp1, P hp1⟩, ⟨rH hp0, P hp0⟩] : List (View.Piece (Elt Ideal) S1024x512 .bf16))
      (ix2 l c) = G l c := by
  have key : ∀ t (t' : Fin 4), t'.val = t.val → ∀ x, P t x = G ((rH t).emb x 0) ((rH t).emb x 1) := fun t t' ht x => by
    obtain ⟨l', c', rfl⟩ : ∃ (l' : Fin 1024) (c' : Fin 128), x = ix2 l' c' := ⟨x 0, x 1, eq_ix2 (n0 := 1024) (n1 := 128) x⟩
    rw [show (rH t).emb (ix2 l' c') = ix2 l' (col t' c') from emb_pair t t' ht l' c']; exact h t t' ht l' c'
  refine View.canon_apply_of_pieces (Val := Elt Ideal) (S := S1024x512) (e := .bf16) (fun y => G (y 0) (y 1)) _ ?_ (ix2 l c)
    (cover_pairs _ _ _ _ _)
  intro p hp
  simp only [List.mem_cons, List.not_mem_nil, or_false] at hp
  rcases hp with rfl | rfl | rfl | rfl
  exacts [key hp3 3 rfl, key hp2 2 rfl, key hp1 1 rfl, key hp0 0 rfl]

section Attn
variable (q k v qd kd vd : EncSpec.A3 8 1024 512)
  (hq : ∀ b s d, IsReal (q b s d)) (hk : ∀ b s d, IsReal (k b s d))
  (hqd : ∀ b s d, IsReal (qd b s d)) (hkd : ∀ b s d, IsReal (kd b s d))
  (b : Fin 8) (Q K V Q' K' V' : Vec Ideal S1024x512 .bf16)
  (hQ : ∀ l c, Q (ix2 l c) = q b l c) (hK : ∀ l c, K (ix2 l c) = k b l c)
  (hQ' : ∀ l c, Q' (ix2 l c) = qd b l c) (hK' : ∀ l c, K' (ix2 l c) = kd b l c)
include hq hk hqd hkd hQ hK hQ' hK'

theorem attn24_val (hv : ∀ b s d, IsReal (v b s d)) (hV : ∀ l c, V (ix2 l c) = v b l c) (l : Fin 1024) (c : Fin 512) :
    attn24 Q K V Q' K' V' (ix2 l c) = EncSpec.mixedAttn (EncSpec.score q k) (EncSpec.score qd kd) v b l c := by
  unfold attn24
  exact pairs_apply _ (fun t => pair24 (View.ld Q (rH t)) (View.ld K (rH t)) (View.ld V (rH t)) (View.ld Q' (rH t)) (View.ld K' (rH t))
    (View.ld V' (rH t))) (fun t t' ht => pairI_spec q k v qd kd b t' _ _ _ _ _ _
    (ld_pair Q _ b hQ t t' ht) (ld_pair K _ b hK t t' ht) (ld_pair Q' _ b hQ' t t' ht) (ld_pair K' _ b hK' t t' ht)
    hq hk hqd hkd hv (ld_pair V _ b hV t t' ht)) l c

theorem attn25_val (hvd : ∀ b s d, IsReal (vd b s d)) (hV' : ∀ l c, V' (ix2 l c) = vd b l c) (l : Fin 1024) (c : Fin 512) :
    attn25 Q K V Q' K' V' (ix2 l c) = EncSpec.mixedAttn (EncSpec.score qd kd) (EncSpec.score q k) vd b l c := by
  unfold attn25
  exact pairs_apply _ (fun t => pair25 (View.ld Q (rH t)) (View.ld K (rH t)) (View.ld V (rH t)) (View.ld Q' (rH t)) (View.ld K' (rH t))
    (View.ld V' (rH t))) (fun t t' ht => pairD_spec q k qd kd vd b t' _ _ _ _ _ _
    (ld_pair Q _ b hQ t t' ht) (ld_pair K _ b hK t t' ht) (ld_pair Q' _ b hQ' t t' ht) (ld_pair K' _ b hK' t t' ht)
    hq hk hqd hkd hvd (ld_pair V' _ b hV' t t' ht)) l c

end Attn

section Final
variable (a : EncSpec.Args) (ha : a.Finite) (b : Fin 8)
  (x0 x1 x2 : Vec Ideal S1x1024x512 .f32) (w3 w4 w5 w6 w7 w8 w9 w10 : Vec Ideal S512x512 .bf16)
  (b11 b12 l13 l14 : Vec Ideal S4x512 .f32)
  (hx0 : ∀ s d, x0 (ix3 (0 : Fin 1) s d) = EncSpec.xI a b s d)
  (hx1 : ∀ s d, x1 (ix3 (0 : Fin 1) s d) = EncSpec.xD a b s d)
  (hx2 : ∀ s d, x2 (ix3 (0 : Fin 1) s d) = a.pos (ix3 s b d))
  (hw3 : ∀ d e, w3 (ix2 d e) = EncSpec.wI a 0 e d) (hw4 : ∀ d e, w4 (ix2 d e) = EncSpec.wI a 1 e d)
  (hw5 : ∀ d e, w5 (ix2 d e) = EncSpec.wI a 2 e d) (hw6 : ∀ d e, w6 (ix2 d e) = EncSpec.wD a 0 e d)
  (hw7 : ∀ d e, w7 (ix2 d e) = EncSpec.wD a 1 e d) (hw8 : ∀ d e, w8 (ix2 d e) = EncSpec.wD a 2 e d)
  (hw9 : ∀ d e, w9 (ix2 d e) = EncSpec.wI a 3 e d) (hw10 : ∀ d e, w10 (ix2 d e) = EncSpec.wD a 3 e d)
  (hb11 : ∀ k e, b11 (ix2 k e) = EncSpec.bI a k e) (hb12 : ∀ k e, b12 (ix2 k e) = EncSpec.bD a k e)
  (hl13 : ∀ k e, l13 (ix2 k e) = EncSpec.lnI a k e) (hl14 : ∀ k e, l14 (ix2 k e) = EncSpec.lnD a k e)

-- One projection array: its rows against a weight image read transposed, plus row `j` of the bias table.
theorem proj_val {X : EncSpec.A3 8 1024 512} {Wm : EncSpec.A2 512 512} {B : Fin 512 → EReal} {x : FVec Ideal S1024x512 .bf16}
    (w : Vec Ideal S512x512 .bf16) (T : Vec Ideal S4x512 .f32) (j : ℕ) (hj : j < 4)
    {inb : ∀ a, (![j, 0] : Fin 2 → ℕ) a + S1x512.size a ≤ S4x512.size a}
    (hx : ∀ s d, x (ix2 s d) = X b s d) (hW : ∀ d e, w (ix2 d e) = Wm e d) (hT : ∀ e, T (ix2 ⟨j, hj⟩ e) = B e)
    (l : Fin 1024) (c : Fin 512) :
    View.canon ([⟨rA, k0_pay47 x (k0_pay37 (View.ld T (Rect.unit (s := S4x512) ![j, 0] S1x512.size inb))) (View.ld w rW)⟩] :
      List (View.Piece (Elt Ideal) S1024x512 .bf16)) (ix2 l c) = EncSpec.linear X Wm B b l c := by
  rw [View.canon_unit_zero zero2, View.ld_unit_zero (S := S512x512) zero2, pay47_apply, pay37_apply, ld_row T j hj, hT]
  unfold EncSpec.linear
  simp only [hx, hW]

section
variable {a b x0 x1 x2}
include hx0 in
theorem blkI (s : Fin 1024) (d : Fin 512) : k0_pay32 (View.ld x0 rX) (ix2 s d) = EncSpec.xI a b s d := by
  rw [View.ld_unit_zero (S := S1x1024x512) zero3]; exact (pay32_apply x0 s d).trans (hx0 s d)
include hx1 in
theorem blkD (s : Fin 1024) (d : Fin 512) : k0_pay32 (View.ld x1 rX) (ix2 s d) = EncSpec.xD a b s d := by
  rw [View.ld_unit_zero (S := S1x1024x512) zero3]; exact (pay32_apply x1 s d).trans (hx1 s d)
include hx0 hx2 in
theorem blkP (s : Fin 1024) (d : Fin 512) : k0_pay34 (View.ld x0 rX) (View.ld x2 rX) (ix2 s d) = EncSpec.xP a b s d := by
  rw [View.ld_unit_zero (S := S1x1024x512) zero3, View.ld_unit_zero (S := S1x1024x512) zero3, pay34_apply, hx0, hx2]; rfl
end

include ha in
theorem isReal_xP (b : Fin 8) (s : Fin 1024) (d : Fin 512) : IsReal (EncSpec.xP a b s d) := IsReal.add (ha.1 _) (ha.2.2.1 _)
include ha in
theorem isReal_xI (b : Fin 8) (s : Fin 1024) (d : Fin 512) : IsReal (EncSpec.xI a b s d) := ha.1 _
include ha in
theorem isReal_xD (b : Fin 8) (s : Fin 1024) (d : Fin 512) : IsReal (EncSpec.xD a b s d) := ha.2.1 _
include ha in
theorem isReal_linI (x : EncSpec.A3 8 1024 512) (hx : ∀ b s d, IsReal (x b s d)) (k : Fin 4) (b : Fin 8) (s : Fin 1024) (e : Fin 512) :
    IsReal (EncSpec.linear x (EncSpec.wI a k) (EncSpec.bI a k) b s e) :=
  EncAlgebra.isReal_linear hx (fun e d => ha.2.2.2.1 _) (fun e => ha.2.2.2.2.1 _) b s e
include ha in
theorem isReal_linD (x : EncSpec.A3 8 1024 512) (hx : ∀ b s d, IsReal (x b s d)) (k : Fin 4) (b : Fin 8) (s : Fin 1024) (e : Fin 512) :
    IsReal (EncSpec.linear x (EncSpec.wD a k) (EncSpec.bD a k) b s e) :=
  EncAlgebra.isReal_linear hx (fun e d => ha.2.2.2.2.2.1 _) (fun e => ha.2.2.2.2.2.2 _) b s e

-- A stream's rows after the output projection of its attention array and the residual sum.
theorem pre_val (X O : EncSpec.A3 8 1024 512) (Wm : EncSpec.A2 512 512) (B : Fin 512 → EReal) (x : Vec Ideal S1x1024x512 .f32)
    (T : Vec Ideal S4x512 .f32) (A : Vec Ideal S1024x512 .bf16) (w : Vec Ideal S512x512 .bf16)
    (hx : ∀ s d, x (ix3 (0 : Fin 1) s d) = X b s d) (hA : ∀ l c, A (ix2 l c) = O b l c) (hW : ∀ d e, w (ix2 d e) = Wm e d)
    (hT : ∀ e, T (ix2 3 e) = B e) (s : Fin 1024) (e : Fin 512) :
    k0_pay57 (k0_pay32 (View.ld x rX)) (k0_pay37 (View.ld T rB3)) (View.ld A rA) (View.ld w rW) (ix2 s e)
      = X b s e + EncSpec.linear O Wm B b s e := by
  rw [View.ld_unit_zero (S := S1x1024x512) zero3, View.ld_unit_zero (S := S512x512) zero2, View.ld_unit_zero (S := S1024x512) zero2]
  exact proj_block _ _ _ w X O Wm B b (fun s d => (pay32_apply x s d).trans (hx s d)) hA hW
    (fun e => (pay37_apply _ e).trans ((ld_row T 3 (by omega) _ 0 e).trans (hT e))) s e

include ha hx0 hx1 hx2 hw3 hw4 hw5 hw6 hw7 hw8 hw9 hw10 hb11 hb12 hl13 hl14

theorem out15_val (s : Fin 1024) (d : Fin 512) :
    out0_15 x0 x1 x2 w3 w4 w5 w6 w7 w8 w9 w10 b11 b12 l13 l14 (ix3 (0 : Fin 1) s d) = EncSpec.stage1I a b s d := by
  unfold out0_15
  rw [View.canon_unit_zero zero3]
  exact ln_block _ (k0_pay37 _) (k0_pay37 _) _ _ _ b
    (pre_val b _ _ _ _ x0 b11 _ w9 hx0
      (attn24_val _ _ _ _ _ (isReal_linI a ha _ (isReal_xP a ha) 0) (isReal_linI a ha _ (isReal_xP a ha) 1)
        (isReal_linD a ha _ (isReal_xD a ha) 0) (isReal_linD a ha _ (isReal_xD a ha) 1) b _ _ _ _ _ _
        (proj_val b w3 b11 0 (by omega) (blkP hx0 hx2) hw3 (hb11 _))
        (proj_val b w4 b11 1 (by omega) (blkP hx0 hx2) hw4 (hb11 _))
        (proj_val b w6 b12 0 (by omega) (blkD hx1) hw6 (hb12 _))
        (proj_val b w7 b12 1 (by omega) (blkD hx1) hw7 (hb12 _))
        (isReal_linI a ha _ (isReal_xI a ha) 2) (proj_val b w5 b11 2 (by omega) (blkI hx0) hw5 (hb11 _)))
      hw9 (hb11 3))
    (fun d => (pay37_apply _ d).trans ((ld_row l13 0 (by omega) _ 0 d).trans (hl13 _ d)))
    (fun d => (pay37_apply _ d).trans ((ld_row l13 1 (by omega) _ 0 d).trans (hl13 _ d))) 0 s d

theorem out16_val (s : Fin 1024) (d : Fin 512) :
    out0_16 x0 x1 x2 w3 w4 w5 w6 w7 w8 w9 w10 b11 b12 l13 l14 (ix3 (0 : Fin 1) s d) = EncSpec.stage1D a b s d := by
  unfold out0_16
  rw [View.canon_unit_zero zero3]
  exact ln_block _ _ _ _ _ _ b
    (pre_val b _ _ _ _ x1 b12 _ w10 hx1
      (attn25_val _ _ _ _ _ (isReal_linI a ha _ (isReal_xP a ha) 0) (isReal_linI a ha _ (isReal_xP a ha) 1)
        (isReal_linD a ha _ (isReal_xD a ha) 0) (isReal_linD a ha _ (isReal_xD a ha) 1) b _ _ _ _ _ _
        (proj_val b w3 b11 0 (by omega) (blkP hx0 hx2) hw3 (hb11 _))
        (proj_val b w4 b11 1 (by omega) (blkP hx0 hx2) hw4 (hb11 _))
        (proj_val b w6 b12 0 (by omega) (blkD hx1) hw6 (hb12 _))
        (proj_val b w7 b12 1 (by omega) (blkD hx1) hw7 (hb12 _))
        (isReal_linD a ha _ (isReal_xD a ha) 2) (proj_val b w8 b12 2 (by omega) (blkD hx1) hw8 (hb12 _)))
      hw10 (hb12 3))
    (fun d => (pay37_apply _ d).trans ((ld_row l14 0 (by omega) _ 0 d).trans (hl14 _ d)))
    (fun d => (pay37_apply _ d).trans ((ld_row l14 1 (by omega) _ 0 d).trans (hl14 _ d))) 0 s d

end Final

end Cert.KernelIdeal.Pay0
end
-- ==== Proof.KFinal0.lean ====
import proofs.«400912_j69947837382775_3_alg».proof.Proof.KDat0
import proofs.«400912_j69947837382775_3_alg».proof.Proof.KBlocks
import proofs.«400912_j69947837382775_3_alg».proof.Proof.KPay0h
import proofs.«400912_j69947837382775_3_alg».proof.Proof.Spec
import Idealize.ShloMosaic.Lib.ValueIdx
import Idealize.ShloMosaic.Lib.Pipeline.Value

set_option maxRecDepth 16384

noncomputable section

namespace Cert.KernelIdeal.Final0

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The image stream after the attention stage, as one array, batch first. -/
def G15 (a : EncSpec.Args) : Vec Ideal S8x1024x512 .f32 := fun i => EncSpec.stage1I a (i 0) (i 1) (i 2)

/-- The depth stream after the attention stage, as one array, batch first. -/
def G16 (a : EncSpec.Args) : Vec Ideal S8x1024x512 .f32 := fun i => EncSpec.stage1D a (i 0) (i 1) (i 2)

variable (c : Dev nD) (a : EncSpec.Args) (ha : a.Finite)
    (hV0 : ∀ b s d, V c (Pipeline.arrRef spec0 0) (ix3 b s d) = EncSpec.xI a b s d)
    (hV1 : ∀ b s d, V c (Pipeline.arrRef spec0 1) (ix3 b s d) = EncSpec.xD a b s d)
    (hV2 : ∀ b s d, V c (Pipeline.arrRef spec0 2) (ix3 b s d) = a.pos (ix3 s b d))
    (hV3 : ∀ d e, V c (Pipeline.arrRef spec0 3) (ix2 d e) = EncSpec.wI a 0 e d)
    (hV4 : ∀ d e, V c (Pipeline.arrRef spec0 4) (ix2 d e) = EncSpec.wI a 1 e d)
    (hV5 : ∀ d e, V c (Pipeline.arrRef spec0 5) (ix2 d e) = EncSpec.wI a 2 e d)
    (hV6 : ∀ d e, V c (Pipeline.arrRef spec0 6) (ix2 d e) = EncSpec.wD a 0 e d)
    (hV7 : ∀ d e, V c (Pipeline.arrRef spec0 7) (ix2 d e) = EncSpec.wD a 1 e d)
    (hV8 : ∀ d e, V c (Pipeline.arrRef spec0 8) (ix2 d e) = EncSpec.wD a 2 e d)
    (hV9 : ∀ d e, V c (Pipeline.arrRef spec0 9) (ix2 d e) = EncSpec.wI a 3 e d)
    (hV10 : ∀ d e, V c (Pipeline.arrRef spec0 10) (ix2 d e) = EncSpec.wD a 3 e d)
    (hV11 : ∀ k e, V c (Pipeline.arrRef spec0 11) (ix2 k e) = EncSpec.bI a k e)
    (hV12 : ∀ k e, V c (Pipeline.arrRef spec0 12) (ix2 k e) = EncSpec.bD a k e)
    (hV13 : ∀ k e, V c (Pipeline.arrRef spec0 13) (ix2 k e) = EncSpec.lnI a k e)
    (hV14 : ∀ k e, V c (Pipeline.arrRef spec0 14) (ix2 k e) = EncSpec.lnD a k e)
include ha hV0 hV1 hV2 hV3 hV4 hV5 hV6 hV7 hV8 hV9 hV10 hV11 hV12 hV13 hV14

/-- Both output blocks at point `t` are batch entry `t` of the attention stage, whose inputs are the input blocks there. -/
theorem flushed_eq (t : Fin cfg0.N) :
    (Dat0.dat0 V c).flushed 15 t = ((cfg0.win 15).blk t).view.read (Elt Ideal) (G15 a) ∧
    (Dat0.dat0 V c).flushed 16 t = ((cfg0.win 16).blk t).view.read (Elt Ideal) (G16 a) := by
  have b := fun w hw => Blocks.off0_batch w hw t
  have h0 := fun s d => (Blocks.blk0_0_read _ t s d).trans (hV0 _ s d)
  have h1 := fun s d => (Blocks.blk0_1_read _ t s d).trans (hV1 _ s d)
  have h2 := fun s d => (Blocks.blk0_2_read _ t s d).trans (hV2 _ s d)
  have h3 := fun p q => (Blocks.blk0_3_read _ t p q).trans (hV3 p q)
  have h4 := fun p q => (Blocks.blk0_4_read _ t p q).trans (hV4 p q)
  have h5 := fun p q => (Blocks.blk0_5_read _ t p q).trans (hV5 p q)
  have h6 := fun p q => (Blocks.blk0_6_read _ t p q).trans (hV6 p q)
  have h7 := fun p q => (Blocks.blk0_7_read _ t p q).trans (hV7 p q)
  have h8 := fun p q => (Blocks.blk0_8_read _ t p q).trans (hV8 p q)
  have h9 := fun p q => (Blocks.blk0_9_read _ t p q).trans (hV9 p q)
  have h10 := fun p q => (Blocks.blk0_10_read _ t p q).trans (hV10 p q)
  have h11 := fun p q => (Blocks.blk0_11_read _ t p q).trans (hV11 p q)
  have h12 := fun p q => (Blocks.blk0_12_read _ t p q).trans (hV12 p q)
  have h13 := fun p q => (Blocks.blk0_13_read _ t p q).trans (hV13 p q)
  have h14 := fun p q => (Blocks.blk0_14_read _ t p q).trans (hV14 p q)
  constructor
  · show (cfg0.win 15).cut (grid0.coords t) ((Dat0.dat0 V c).after 15 t) = _
    rw [Dat0.after0_15]
    exact Blocks.ext_ix3_zero fun s d => (Pay0.out15_val a ha (t.cast N_0) _ _ _ _ _ _ _ _ _ _ _ _ _ _ _
      h0 h1 h2 h3 h4 h5 h6 h7 h8 h9 h10 h11 h12 h13 h14 s d).trans
      (congrArg (G15 a) (Blocks.rect_emb_eq (cfg0.win 15) t (ix3 0 s d) (ix3 (t.cast N_0) s d) _ (b 15 (by decide)) (Blocks.batch_coord _))).symm
  · show (cfg0.win 16).cut (grid0.coords t) ((Dat0.dat0 V c).after 16 t) = _
    rw [Dat0.after0_16]
    exact Blocks.ext_ix3_zero fun s d => (Pay0.out16_val a ha (t.cast N_0) _ _ _ _ _ _ _ _ _ _ _ _ _ _ _
      h0 h1 h2 h3 h4 h5 h6 h7 h8 h9 h10 h11 h12 h13 h14 s d).trans
      (congrArg (G16 a) (Blocks.rect_emb_eq (cfg0.win 16) t (ix3 0 s d) (ix3 (t.cast N_0) s d) _ (b 16 (by decide)) (Blocks.batch_coord _))).symm

/-- The eight blocks tile window 15's array, so after the grid it holds the image stream's attention stage. -/
theorem arr15 : ∀ b s d, (Dat0.dat0 V c).arrAt 15 cfg0.N (ix3 b s d) = EncSpec.stage1I a b s d := fun b s d =>
  (Dat0.dat0 V c).arrAt_apply_of_mem 15 (G15 a)
    (fun t _ => (flushed_eq V c a ha hV0 hV1 hV2 hV3 hV4 hV5 hV6 hV7 hV8 hV9 hV10 hV11 hV12 hV13 hV14 t).1)
    cfg0.N (b.cast N_0.symm) (ix3 b s d) (Fin.isLt _) (flush0_15 _) (by
      rw [← Blocks.rect_emb_eq (cfg0.win 15) (b.cast N_0.symm) (ix3 0 s d) (ix3 b s d) _
        (Blocks.off0_batch 15 (by decide) _) (Blocks.batch_coord _)]
      exact View.emb_mem_set _ _)

/-- The eight blocks tile window 16's array, so after the grid it holds the depth stream's attention stage. -/
theorem arr16 : ∀ b s d, (Dat0.dat0 V c).arrAt 16 cfg0.N (ix3 b s d) = EncSpec.stage1D a b s d := fun b s d =>
  (Dat0.dat0 V c).arrAt_apply_of_mem 16 (G16 a)
    (fun t _ => (flushed_eq V c a ha hV0 hV1 hV2 hV3 hV4 hV5 hV6 hV7 hV8 hV9 hV10 hV11 hV12 hV13 hV14 t).2)
    cfg0.N (b.cast N_0.symm) (ix3 b s d) (Fin.isLt _) (flush0_16 _) (by
      rw [← Blocks.rect_emb_eq (cfg0.win 16) (b.cast N_0.symm) (ix3 0 s d) (ix3 b s d) _
        (Blocks.off0_batch 16 (by decide) _) (Blocks.batch_coord _)]
      exact View.emb_mem_set _ _)

end Cert.KernelIdeal.Final0

end
-- ==== Proof.KPay1.lean ====
import proofs.«400912_j69947837382775_3_alg».proof.Proof.KPay0

noncomputable section

namespace Cert.KernelIdeal.Pay1

open Cert.KernelIdeal Cert.KernelIdeal.Gen Cert.KernelIdeal.Pay0
open Idealize.ShloMosaic Idealize.ShloMosaic.ValueIdx Idealize.SL.Sem
open scoped BigOperators

theorem matmul1_apply (A : FVec Ideal S1024x512 .bf16) (B : FVec Ideal S512x2048 .bf16) (s : Fin 1024) (f : Fin 2048) :
    matmul dot_S1024x512_S512x2048_S1024x2048_1_0_0_1_n_n none A B (constant (F := Ideal) S1024x2048 .f32 0x00000000#32) (ix2 s f)
      = ∑ d : Fin 512, A (ix2 s d) * B (ix2 d f) :=
  matmul_plain_zero_apply _ none A B s f

theorem matmul2_apply (A : FVec Ideal S1024x2048 .bf16) (B : FVec Ideal S2048x512 .bf16) (s : Fin 1024) (e : Fin 512) :
    matmul dot_S1024x2048_S2048x512_S1024x512_1_0_0_1_n_n none A B (constant (F := Ideal) S1024x512 .f32 0x00000000#32) (ix2 s e)
      = ∑ f : Fin 2048, A (ix2 s f) * B (ix2 f e) :=
  matmul_plain_zero_apply _ none A B s e

theorem zeroWord : (FloatOps.ofBits .f32 0x00000000#32 : Ideal .f32) = (0 : EReal) := Ideal.ofBits_zero_f32

def res (v0 : Vec Ideal S1x1024x512 .f32) (v2 : Vec Ideal S512x2048 .bf16) (v4 : Vec Ideal S2048 .f32)
    (v5 : Vec Ideal S2048x512 .bf16) (v7 : Vec Ideal S512 .f32) (s : Fin 1024) (e : Fin 512) : EReal :=
  v0 (ix3 (0 : Fin 1) s e)
    + ((∑ f : Fin 2048, max ((∑ d : Fin 512, v0 (ix3 (0 : Fin 1) s d) * v2 (ix2 d f)) + v4 (ix1 f)) 0 * v5 (ix2 f e))
        + v7 (ix1 e))

def csq (R : Fin 512 → EReal) (d : Fin 512) : EReal := (R d - EncSpec.mean R) * (R d - EncSpec.mean R)

def normAt (R : Fin 512 → EReal) (g o : EReal) (d : Fin 512) : EReal :=
  (R d - EncSpec.mean R) * Ideal.rsqrt (EncSpec.mean (csq R) + EncSpec.epsLit) * g + o

theorem pay9_apply (v0 : Vec Ideal S1x1024x512 .f32) (v2 : Vec Ideal S512x2048 .bf16) (v4 : Vec Ideal S2048 .f32)
    (v5 : Vec Ideal S2048x512 .bf16) (v7 : Vec Ideal S512 .f32) (s : Fin 1024) (e : Fin 512) :
    k1_pay9 v0 v2 v4 v5 v7 (ix2 s e) = res v0 v2 v4 v5 v7 s e := by
  unfold k1_pay9 res
  simp only [addf_apply, shapeCast_self]
  rw [shapeCast_1ab_ab_apply, matmul2_apply, broadcastTo_1b_ab_apply, shapeCast_a_1a_apply]
  simp only [truncf_apply, maximumf_apply, addf_apply, broadcast_apply, matmul1_apply, broadcastTo_1b_ab_apply,
    shapeCast_a_1a_apply, shapeCast_1ab_ab_apply, zeroWord]

theorem pay10_apply (v : Vec Ideal S1x512 .f32) (e : Fin 512) : k1_pay10 v (ix1 e) = v (ix2 (0 : Fin 1) e) :=
  shapeCast_1a_a_apply v _ e

theorem pay1_apply (v74 : FVec Ideal S1024x512 .f32) (v76 : FVec Ideal S512 .f32) (v77 : Vec Ideal S1x512 .f32)
    (u : Fin 1) (s : Fin 1024) (d : Fin 512) :
    k1_pay1 v74 v76 v77 (ix3 u s d)
      = normAt (fun d' => v74 (ix2 s d')) (v76 (ix1 d)) (v77 (ix2 (0 : Fin 1) d)) d := by
  unfold k1_pay1 normAt csq EncSpec.mean EncSpec.epsLit EncSpec.c512
  rw [shapeCast_ab_1ab_apply]
  simp only [addf_apply, mulf_apply, subf_apply, divf_apply, broadcastTo_a1_ab_apply, broadcastTo_1b_ab_apply,
    shapeCast_a_1a_apply, shapeCast_1a_a_apply, shapeCast_a_a1_apply, rsqrt_apply, broadcast_apply]
  rw [rowSum512_apply v74, rowSum512_apply]
  simp only [mulf_apply, subf_apply, divf_apply, broadcastTo_a1_ab_apply, shapeCast_a_a1_apply, broadcast_apply]
  rw [rowSum512_apply v74]
  rfl

end Cert.KernelIdeal.Pay1
-- ==== Proof.KPay1Out.lean ====
import proofs.«400912_j69947837382775_3_alg».proof.Proof.KPay1
import proofs.«400912_j69947837382775_3_alg».proof.Proof.KBody1

noncomputable section

namespace Cert.KernelIdeal.Pay1

open Cert.KernelIdeal Cert.KernelIdeal.Gen Cert.KernelIdeal.Pay0
open Idealize.ShloMosaic Idealize.ShloMosaic.ValueIdx Idealize.SL.Sem
open scoped BigOperators

variable (y : EncSpec.A3 8 1024 512) (w1 : EncSpec.A2 2048 512) (b1 : Fin 2048 → EReal)
  (w2 : EncSpec.A2 512 2048) (b2 g o : Fin 512 → EReal) (b : Fin 8)

-- One stream's output block, from its own blocks and table, is the specification's second stage of that stream.
theorem out_val (v0 : Vec Ideal S1x1024x512 .f32) (v2 : Vec Ideal S512x2048 .bf16) (v4 : Vec Ideal S2048 .f32)
    (v5 : Vec Ideal S2048x512 .bf16) (v7 : Vec Ideal S512 .f32) (T : Vec Ideal S4x512 .f32)
    (h0 : ∀ s d, v0 (ix3 (0 : Fin 1) s d) = y b s d) (h2 : ∀ d f, v2 (ix2 d f) = w1 f d) (h4 : ∀ f, v4 (ix1 f) = b1 f)
    (h5 : ∀ f e, v5 (ix2 f e) = w2 e f) (h7 : ∀ e, v7 (ix1 e) = b2 e)
    (hg : ∀ e, T (ix2 (2 : Fin 4) e) = g e) (ho : ∀ e, T (ix2 (3 : Fin 4) e) = o e) (s : Fin 1024) (d : Fin 512) :
    View.canon ([⟨Body1.rA, k1_pay1 (k1_pay9 (View.ld v0 Body1.rA) (View.ld v2 Body1.rW1) (View.ld v4 Body1.rB1)
        (View.ld v5 Body1.rW2) (View.ld v7 Body1.rB2)) (k1_pay10 (View.ld T Body1.rT2)) (View.ld T Body1.rT3)⟩] :
          List (View.Piece (Elt Ideal) S1x1024x512 .f32)) (ix3 (0 : Fin 1) s d)
      = EncSpec.stage2 y w1 b1 w2 b2 g o b s d := by
  rw [View.canon_unit_zero zero3]
  simp only [View.ld_unit_zero (S := S1x1024x512) zero3, View.ld_unit_zero (S := S512x2048) zero2,
    View.ld_unit_zero (S := S2048x512) zero2, View.ld_unit_zero (S := S2048) zero1, View.ld_unit_zero (S := S512) zero1]
  rw [pay1_apply, pay10_apply, show View.ld T Body1.rT2 (ix2 0 d) = g d from (ld_row T 2 (by omega) _ 0 d).trans (hg d),
    show View.ld T Body1.rT3 (ix2 0 d) = o d from (ld_row T 3 (by omega) _ 0 d).trans (ho d)]
  simp only [pay9_apply]
  rw [show (fun d' => res v0 v2 v4 v5 v7 s d') = fun e => y b s e + EncSpec.ffn y w1 b1 w2 b2 b s e from
    funext fun e => by unfold res EncSpec.ffn EncSpec.linear EncSpec.relu; simp only [h0, h2, h4, h5, h7]]
  rfl

variable (x0 x1 : Vec Ideal S1x1024x512 .f32) (x2 : Vec Ideal S512x2048 .bf16) (x3 : Vec Ideal S2048 .f32)
  (x4 : Vec Ideal S2048x512 .bf16) (x5 : Vec Ideal S512 .f32) (x6 : Vec Ideal S512x2048 .bf16) (x7 : Vec Ideal S2048 .f32)
  (x8 : Vec Ideal S2048x512 .bf16) (x9 : Vec Ideal S512 .f32) (x10 x11 : Vec Ideal S4x512 .f32)

theorem out12_val (hx0 : ∀ s d, x0 (ix3 (0 : Fin 1) s d) = y b s d) (hx2 : ∀ d f, x2 (ix2 d f) = w1 f d)
    (hx3 : ∀ f, x3 (ix1 f) = b1 f) (hx4 : ∀ f e, x4 (ix2 f e) = w2 e f) (hx5 : ∀ e, x5 (ix1 e) = b2 e)
    (hx10g : ∀ e, x10 (ix2 (2 : Fin 4) e) = g e) (hx10o : ∀ e, x10 (ix2 (3 : Fin 4) e) = o e) :
    ∀ s d, Body1.out1_12 (F := Ideal) x0 x1 x2 x3 x4 x5 x6 x7 x8 x9 x10 x11 (ix3 (0 : Fin 1) s d)
      = EncSpec.stage2 y w1 b1 w2 b2 g o b s d :=
  out_val y w1 b1 w2 b2 g o b x0 x2 x3 x4 x5 x10 hx0 hx2 hx3 hx4 hx5 hx10g hx10o

theorem out13_val (hx1 : ∀ s d, x1 (ix3 (0 : Fin 1) s d) = y b s d) (hx6 : ∀ d f, x6 (ix2 d f) = w1 f d)
    (hx7 : ∀ f, x7 (ix1 f) = b1 f) (hx8 : ∀ f e, x8 (ix2 f e) = w2 e f) (hx9 : ∀ e, x9 (ix1 e) = b2 e)
    (hx11g : ∀ e, x11 (ix2 (2 : Fin 4) e) = g e) (hx11o : ∀ e, x11 (ix2 (3 : Fin 4) e) = o e) :
    ∀ s d, Body1.out1_13 (F := Ideal) x0 x1 x2 x3 x4 x5 x6 x7 x8 x9 x10 x11 (ix3 (0 : Fin 1) s d)
      = EncSpec.stage2 y w1 b1 w2 b2 g o b s d :=
  out_val y w1 b1 w2 b2 g o b x1 x6 x7 x8 x9 x11 hx1 hx6 hx7 hx8 hx9 hx11g hx11o

end Cert.KernelIdeal.Pay1
-- ==== Proof.KFinal1.lean ====
import proofs.«400912_j69947837382775_3_alg».proof.Proof.KDat1
import proofs.«400912_j69947837382775_3_alg».proof.Proof.KBlocks
import proofs.«400912_j69947837382775_3_alg».proof.Proof.KPay1Out
import proofs.«400912_j69947837382775_3_alg».proof.Proof.Spec
import Idealize.ShloMosaic.Lib.Pipeline.Value
import Idealize.ShloMosaic.Lib.ValueIdx

noncomputable section

namespace Cert.KernelIdeal.Final1

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b)) (c : Dev nD)

/-- A batch-first function of three coordinates laid out as an [8, 1024, 512] array. -/
abbrev asArr (f : EncSpec.A3 8 1024 512) : S8x1024x512.Idx → EReal := fun i => f (i 0) (i 1) (i 2)

variable (y : EncSpec.A3 8 1024 512) (w1 : EncSpec.A2 2048 512) (b1 : Fin 2048 → EReal)
    (w2 : EncSpec.A2 512 2048) (b2 g o : Fin 512 → EReal)

/-- Window 12's block at point `t` is batch entry `t` of the perceptron stage of `y`, and the eight blocks tile the array. -/
theorem arr12 (hV0 : ∀ b s d, (V c (Pipeline.arrRef spec1 0) : S8x1024x512.Idx → EReal) (ix3 b s d) = y b s d)
    (hV2 : ∀ d f, (V c (Pipeline.arrRef spec1 2) : S512x2048.Idx → EReal) (ix2 d f) = w1 f d)
    (hV3 : ∀ f, (V c (Pipeline.arrRef spec1 3) : S2048.Idx → EReal) (ix1 f) = b1 f)
    (hV4 : ∀ f e, (V c (Pipeline.arrRef spec1 4) : S2048x512.Idx → EReal) (ix2 f e) = w2 e f)
    (hV5 : ∀ e, (V c (Pipeline.arrRef spec1 5) : S512.Idx → EReal) (ix1 e) = b2 e)
    (hV10g : ∀ e, (V c (Pipeline.arrRef spec1 10) : S4x512.Idx → EReal) (ix2 (2 : Fin 4) e) = g e)
    (hV10o : ∀ e, (V c (Pipeline.arrRef spec1 10) : S4x512.Idx → EReal) (ix2 (3 : Fin 4) e) = o e) :
    ∀ (b : Fin 8) (s : Fin 1024) (d : Fin 512),
      ((Dat1.dat1 V c).arrAt 12 cfg1.N : S8x1024x512.Idx → EReal) (ix3 b s d)
        = EncSpec.stage2 y w1 b1 w2 b2 g o b s d := fun b s d =>
  (Dat1.dat1 V c).arrAt_apply_of_mem 12 (asArr (EncSpec.stage2 y w1 b1 w2 b2 g o)) (fun t _ => by
      show (Dat1.dat1 V c).after 12 t = _
      rw [Dat1.after1_12]
      exact Blocks.ext_ix3_zero fun s d => (Pay1.out12_val y w1 b1 w2 b2 g o (t.cast N_1) _ _ _ _ _ _ _ _ _ _ _ _
        (fun s d => Blocks.read_at (cfg1.win 0) t (hV0 _ s d) (ix3 0 s d) _ (Blocks.off1_batch 0 (by decide) t) (Blocks.batch_coord _))
        (fun d f => Blocks.read_zero (cfg1.win 2) t (hV2 d f) (ix2 d f) (Blocks.off1_zero 2 (by decide) t) fun _ => rfl)
        (fun f => Blocks.read_zero (cfg1.win 3) t (hV3 f) (ix1 f) (Blocks.off1_zero 3 (by decide) t) fun _ => rfl)
        (fun f e => Blocks.read_zero (cfg1.win 4) t (hV4 f e) (ix2 f e) (Blocks.off1_zero 4 (by decide) t) fun _ => rfl)
        (fun e => Blocks.read_zero (cfg1.win 5) t (hV5 e) (ix1 e) (Blocks.off1_zero 5 (by decide) t) fun _ => rfl)
        (fun e => Blocks.read_zero (cfg1.win 10) t (hV10g e) (ix2 2 e) (Blocks.off1_zero 10 (by decide) t) fun _ => rfl)
        (fun e => Blocks.read_zero (cfg1.win 10) t (hV10o e) (ix2 3 e) (Blocks.off1_zero 10 (by decide) t) fun _ => rfl) s d).trans
        (congrArg (asArr (EncSpec.stage2 y w1 b1 w2 b2 g o)) (Blocks.rect_emb_eq (cfg1.win 12) t (ix3 0 s d) (ix3 (t.cast N_1) s d) _ (Blocks.off1_batch 12 (by decide) t) (Blocks.batch_coord _))).symm)
    cfg1.N (b.cast N_1.symm) (ix3 b s d) (Fin.isLt _) (flush1_12 _) (by
      rw [← Blocks.rect_emb_eq (cfg1.win 12) (b.cast N_1.symm) (ix3 0 s d) (ix3 b s d) _
        (Blocks.off1_batch 12 (by decide) _) (Blocks.batch_coord _)]
      exact View.emb_mem_set _ _)

/-- The same for window 13, from the depth stream's arrays. -/
theorem arr13 (hV1 : ∀ b s d, (V c (Pipeline.arrRef spec1 1) : S8x1024x512.Idx → EReal) (ix3 b s d) = y b s d)
    (hV6 : ∀ d f, (V c (Pipeline.arrRef spec1 6) : S512x2048.Idx → EReal) (ix2 d f) = w1 f d)
    (hV7 : ∀ f, (V c (Pipeline.arrRef spec1 7) : S2048.Idx → EReal) (ix1 f) = b1 f)
    (hV8 : ∀ f e, (V c (Pipeline.arrRef spec1 8) : S2048x512.Idx → EReal) (ix2 f e) = w2 e f)
    (hV9 : ∀ e, (V c (Pipeline.arrRef spec1 9) : S512.Idx → EReal) (ix1 e) = b2 e)
    (hV11g : ∀ e, (V c (Pipeline.arrRef spec1 11) : S4x512.Idx → EReal) (ix2 (2 : Fin 4) e) = g e)
    (hV11o : ∀ e, (V c (Pipeline.arrRef spec1 11) : S4x512.Idx → EReal) (ix2 (3 : Fin 4) e) = o e) :
    ∀ (b : Fin 8) (s : Fin 1024) (d : Fin 512),
      ((Dat1.dat1 V c).arrAt 13 cfg1.N : S8x1024x512.Idx → EReal) (ix3 b s d)
        = EncSpec.stage2 y w1 b1 w2 b2 g o b s d := fun b s d =>
  (Dat1.dat1 V c).arrAt_apply_of_mem 13 (asArr (EncSpec.stage2 y w1 b1 w2 b2 g o)) (fun t _ => by
      show (Dat1.dat1 V c).after 13 t = _
      rw [Dat1.after1_13]
      exact Blocks.ext_ix3_zero fun s d => (Pay1.out13_val y w1 b1 w2 b2 g o (t.cast N_1) _ _ _ _ _ _ _ _ _ _ _ _
        (fun s d => Blocks.read_at (cfg1.win 1) t (hV1 _ s d) (ix3 0 s d) _ (Blocks.off1_batch 1 (by decide) t) (Blocks.batch_coord _))
        (fun d f => Blocks.read_zero (cfg1.win 6) t (hV6 d f) (ix2 d f) (Blocks.off1_zero 6 (by decide) t) fun _ => rfl)
        (fun f => Blocks.read_zero (cfg1.win 7) t (hV7 f) (ix1 f) (Blocks.off1_zero 7 (by decide) t) fun _ => rfl)
        (fun f e => Blocks.read_zero (cfg1.win 8) t (hV8 f e) (ix2 f e) (Blocks.off1_zero 8 (by decide) t) fun _ => rfl)
        (fun e => Blocks.read_zero (cfg1.win 9) t (hV9 e) (ix1 e) (Blocks.off1_zero 9 (by decide) t) fun _ => rfl)
        (fun e => Blocks.read_zero (cfg1.win 11) t (hV11g e) (ix2 2 e) (Blocks.off1_zero 11 (by decide) t) fun _ => rfl)
        (fun e => Blocks.read_zero (cfg1.win 11) t (hV11o e) (ix2 3 e) (Blocks.off1_zero 11 (by decide) t) fun _ => rfl) s d).trans
        (congrArg (asArr (EncSpec.stage2 y w1 b1 w2 b2 g o)) (Blocks.rect_emb_eq (cfg1.win 13) t (ix3 0 s d) (ix3 (t.cast N_1) s d) _ (Blocks.off1_batch 13 (by decide) t) (Blocks.batch_coord _))).symm)
    cfg1.N (b.cast N_1.symm) (ix3 b s d) (Fin.isLt _) (flush1_13 _) (by
      rw [← Blocks.rect_emb_eq (cfg1.win 13) (b.cast N_1.symm) (ix3 0 s d) (ix3 b s d) _
        (Blocks.off1_batch 13 (by decide) _) (Blocks.batch_coord _)]
      exact View.emb_mem_set _ _)

end Cert.KernelIdeal.Final1

end
-- ==== Proof.KValue.lean ====
import proofs.«400912_j69947837382775_3_alg».proof.Proof.KRun
import proofs.«400912_j69947837382775_3_alg».proof.Proof.KHost
import proofs.«400912_j69947837382775_3_alg».proof.Proof.KFinal0
import proofs.«400912_j69947837382775_3_alg».proof.Proof.KFinal1
import proofs.«400912_j69947837382775_3_alg».proof.Proof.Spec
import Idealize.ShloMosaic.Lib.ValueIdx

set_option maxRecDepth 16384

noncomputable section

namespace Cert.KernelIdeal.Value

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

-- The seventeen argument arrays as launched.
def argsOf : EncSpec.Args :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14),
   m ((c.tc : Thread nD τ).loc main_arg15),
   m ((c.tc : Thread nD τ).loc main_arg16)⟩

-- The attention region leaves the image stream's attention stage in its first output array.
theorem attnI (ha : (argsOf m c).Finite) (b : Fin 8) (s : Fin 1024) (d : Fin 512) :
    ((Dat0.dat0 (Run.VR1 m) c).arrAt 15 cfg0.N : S8x1024x512.Idx → EReal) (ix3 b s d)
      = EncSpec.stage1I (argsOf m c) b s d :=
  Final0.arr15 (Run.VR1 m) c (argsOf m c) ha
    (fun b s d => Host.V1_v0 m c b s d) (fun b s d => Host.V1_v1 m c b s d) (fun b s d => Host.V1_v2 m c b s d)
    (fun d e => Host.V1_v6 m c d e) (fun d e => Host.V1_v10 m c d e) (fun d e => Host.V1_v14 m c d e)
    (fun d e => Host.V1_v22 m c d e) (fun d e => Host.V1_v26 m c d e) (fun d e => Host.V1_v30 m c d e)
    (fun d e => Host.V1_v18 m c d e) (fun d e => Host.V1_v34 m c d e)
    (fun k e => congrFun (Host.V1_arg4 m c) (ix2 k e)) (fun k e => congrFun (Host.V1_arg6 m c) (ix2 k e))
    (fun k e => congrFun (Host.V1_arg15 m c) (ix2 k e)) (fun k e => congrFun (Host.V1_arg16 m c) (ix2 k e))
    b s d

theorem attnD (ha : (argsOf m c).Finite) (b : Fin 8) (s : Fin 1024) (d : Fin 512) :
    ((Dat0.dat0 (Run.VR1 m) c).arrAt 16 cfg0.N : S8x1024x512.Idx → EReal) (ix3 b s d)
      = EncSpec.stage1D (argsOf m c) b s d :=
  Final0.arr16 (Run.VR1 m) c (argsOf m c) ha
    (fun b s d => Host.V1_v0 m c b s d) (fun b s d => Host.V1_v1 m c b s d) (fun b s d => Host.V1_v2 m c b s d)
    (fun d e => Host.V1_v6 m c d e) (fun d e => Host.V1_v10 m c d e) (fun d e => Host.V1_v14 m c d e)
    (fun d e => Host.V1_v22 m c d e) (fun d e => Host.V1_v26 m c d e) (fun d e => Host.V1_v30 m c d e)
    (fun d e => Host.V1_v18 m c d e) (fun d e => Host.V1_v34 m c d e)
    (fun k e => congrFun (Host.V1_arg4 m c) (ix2 k e)) (fun k e => congrFun (Host.V1_arg6 m c) (ix2 k e))
    (fun k e => congrFun (Host.V1_arg15 m c) (ix2 k e)) (fun k e => congrFun (Host.V1_arg16 m c) (ix2 k e))
    b s d

theorem foundI (ha : (argsOf m c).Finite) (b : Fin 8) (s : Fin 1024) (d : Fin 512) :
    (Run.VR3 m c main_v35_0 : S8x1024x512.Idx → EReal) (ix3 b s d) = EncSpec.stage1I (argsOf m c) b s d := by
  have e : Run.VR3 m c main_v35_0 = (Dat0.dat0 (Run.VR1 m) c).arrAt 15 cfg0.N :=
    (Host.V3_v35_0 m (Run.outs2 m) c).trans (Run.W2_out0 m c)
  rw [e]
  exact attnI m c ha b s d

theorem foundD (ha : (argsOf m c).Finite) (b : Fin 8) (s : Fin 1024) (d : Fin 512) :
    (Run.VR3 m c main_v35_1 : S8x1024x512.Idx → EReal) (ix3 b s d) = EncSpec.stage1D (argsOf m c) b s d := by
  have e : Run.VR3 m c main_v35_1 = (Dat0.dat0 (Run.VR1 m) c).arrAt 16 cfg0.N :=
    (Host.V3_v35_1 m (Run.outs2 m) c).trans (Run.W2_out1 m c)
  rw [e]
  exact attnD m c ha b s d

-- The perceptron region, which finds the attention stages where they were left, leaves the layer's image output, batch first.
theorem ffnI (ha : (argsOf m c).Finite) (b : Fin 8) (s : Fin 1024) (d : Fin 512) :
    ((Dat1.dat1 (Run.VR3 m) c).arrAt 12 cfg1.N : S8x1024x512.Idx → EReal) (ix3 b s d)
      = EncSpec.outI (argsOf m c) b s d :=
  Final1.arr12 (Run.VR3 m) c (EncSpec.stage1I (argsOf m c)) (EncSpec.w1I (argsOf m c)) (EncSpec.b1I (argsOf m c))
    (EncSpec.w2I (argsOf m c)) (EncSpec.b2I (argsOf m c)) (EncSpec.lnI (argsOf m c) 2) (EncSpec.lnI (argsOf m c) 3)
    (fun b s d => foundI m c ha b s d)
    (fun d f => Host.V3_v37 m (Run.outs2 m) c d f)
    (fun f => congrFun (Host.V3_arg8 m (Run.outs2 m) c) (ix1 f))
    (fun f e => Host.V3_v39 m (Run.outs2 m) c f e)
    (fun e => congrFun (Host.V3_arg10 m (Run.outs2 m) c) (ix1 e))
    (fun e => congrFun (Host.V3_arg15 m (Run.outs2 m) c) (ix2 (2 : Fin 4) e))
    (fun e => congrFun (Host.V3_arg15 m (Run.outs2 m) c) (ix2 (3 : Fin 4) e))
    b s d

theorem ffnD (ha : (argsOf m c).Finite) (b : Fin 8) (s : Fin 1024) (d : Fin 512) :
    ((Dat1.dat1 (Run.VR3 m) c).arrAt 13 cfg1.N : S8x1024x512.Idx → EReal) (ix3 b s d)
      = EncSpec.outD (argsOf m c) b s d :=
  Final1.arr13 (Run.VR3 m) c (EncSpec.stage1D (argsOf m c)) (EncSpec.w1D (argsOf m c)) (EncSpec.b1D (argsOf m c))
    (EncSpec.w2D (argsOf m c)) (EncSpec.b2D (argsOf m c)) (EncSpec.lnD (argsOf m c) 2) (EncSpec.lnD (argsOf m c) 3)
    (fun b s d => foundD m c ha b s d)
    (fun d f => Host.V3_v41 m (Run.outs2 m) c d f)
    (fun f => congrFun (Host.V3_arg12 m (Run.outs2 m) c) (ix1 f))
    (fun f e => Host.V3_v43 m (Run.outs2 m) c f e)
    (fun e => congrFun (Host.V3_arg14 m (Run.outs2 m) c) (ix1 e))
    (fun e => congrFun (Host.V3_arg16 m (Run.outs2 m) c) (ix2 (2 : Fin 4) e))
    (fun e => congrFun (Host.V3_arg16 m (Run.outs2 m) c) (ix2 (3 : Fin 4) e))
    b s d

-- Transposed back to sequence first, the first result is the specification's.
theorem v45_eq (ha : (argsOf m c).Finite) :
    (Gen.V5 m (Run.outsOf m) c main_v45 : S1024x8x512.Idx → EReal) = EncSpec.res0 (argsOf m c) := by
  funext i
  obtain ⟨s, b, d, rfl⟩ : ∃ s b d, i = ix3 s b d := ⟨i 0, i 1, i 2, eq_ix3 i⟩
  refine (Host.V5_v45 m (Run.outsOf m) c s b d).trans ?_
  have e : Run.outsOf m 4 main_v44_0 c = (Dat1.dat1 (Run.VR3 m) c).arrAt 12 cfg1.N := by
    unfold Run.outsOf; exact Run.W4_out0 m c
  rw [e]
  exact ffnI m c ha b s d

theorem v46_eq (ha : (argsOf m c).Finite) :
    (Gen.V5 m (Run.outsOf m) c main_v46 : S1024x8x512.Idx → EReal) = EncSpec.res1 (argsOf m c) := by
  funext i
  obtain ⟨s, b, d, rfl⟩ : ∃ s b d, i = ix3 s b d := ⟨i 0, i 1, i 2, eq_ix3 i⟩
  refine (Host.V5_v46 m (Run.outsOf m) c s b d).trans ?_
  have e : Run.outsOf m 4 main_v44_1 c = (Dat1.dat1 (Run.VR3 m) c).arrAt 13 cfg1.N := by
    unfold Run.outsOf; exact Run.W4_out1 m c
  rw [e]
  exact ffnD m c ha b s d

end Cert.KernelIdeal.Value
-- ==== Proof.RefTerm.lean ====
import proofs.«400912_j69947837382775_3_alg».proof.ReferenceIdeal
import proofs.«400912_j69947837382775_3_alg».proof.Proof.Spec

noncomputable section

namespace Cert.ReferenceIdeal.RefTerm

open Idealize.ShloMosaic Cert.ReferenceIdeal Cert.ReferenceIdeal.Facts₀

variable [Facts₀]

abbrev T (s : Shape) : Type := FVec Ideal s .f32

def zero : T S_ := constant (F := Ideal) S_ .f32 0x00000000#32

def c512 : T S_ := constant (F := Ideal) S_ .f32 0x44000000#32

def eps : T S_ := constant (F := Ideal) S_ .f32 0x3727C5AC#32

def half : T S_ := constant (F := Ideal) S_ .f32 0x3F000000#32

def eighth : T S_ := constant (F := Ideal) S_ .f32 0x3E000000#32

def negInf : T S_ := constant (F := Ideal) S_ .f32 0xFF800000#32

def nan : T S_ := constant (F := Ideal) S_ .f32 0x7FC00000#32

def toBatch (x : T S1024x8x512) : T S8x1024x512 :=
  transpose (s := S1024x8x512) S8x1024x512 [1, 0, 2] x transposes_S1024x8x512_S8x1024x512_1_0_2

def fromBatch (x : T S8x1024x512) : T S1024x8x512 :=
  transpose (s := S8x1024x512) S1024x8x512 [1, 0, 2] x transposes_S8x1024x512_S1024x8x512_1_0_2

def wMat (w : T S4x512x512) (k : Nat) (h : S4x512x512.Slices ![k, 0, 0] S1x512x512) : T S512x512 :=
  shapeCast (s := S1x512x512) S512x512
    (extractStridedSlice (s := S4x512x512) S1x512x512 ![k, 0, 0] w h) shapeCasts_S1x512x512_S512x512

def bVec (b : T S4x512) (k : Nat) (h : S4x512.Slices ![k, 0] S1x512) : T S512 :=
  shapeCast (s := S1x512) S512 (extractStridedSlice (s := S4x512) S1x512 ![k, 0] b h) shapeCasts_S1x512_S512

def bcRow (v : T S512) : T S8x1024x512 :=
  broadcastInDim (s := S1x1x512) S8x1024x512 ![0, 1, 2] bcast_S1x1x512_S8x1024x512_0_1_2
    (broadcastInDim (s := S512) S1x1x512 ![2] bcast_S512_S1x1x512_2 v)

def bcRow2048 (v : T S2048) : T S8x1024x2048 :=
  broadcastInDim (s := S1x1x2048) S8x1024x2048 ![0, 1, 2] bcast_S1x1x2048_S8x1024x2048_0_1_2
    (broadcastInDim (s := S2048) S1x1x2048 ![2] bcast_S2048_S1x1x2048_2 v)

def heads (y : T S8x1024x512) : T S8x8x1024x64 :=
  transpose (s := S8x1024x8x64) S8x8x1024x64 [0, 2, 1, 3]
    (shapeCast (s := S8x1024x512) S8x1024x8x64 y shapeCasts_S8x1024x512_S8x1024x8x64)
    transposes_S8x1024x8x64_S8x8x1024x64_0_2_1_3

def unheads (z : T S8x8x1024x64) : T S8x1024x512 :=
  shapeCast (s := S8x1024x8x64) S8x1024x512
    (transpose (s := S8x8x1024x64) S8x1024x8x64 [0, 2, 1, 3] z transposes_S8x8x1024x64_S8x1024x8x64_0_2_1_3)
    shapeCasts_S8x1024x8x64_S8x1024x512

def lin (x : T S8x1024x512) (W : T S512x512) (b : T S512) : T S8x1024x512 :=
  addf (Host.dotGeneral (F := Ideal) dot_S8x1024x512_S512x512_S8x1024x512_2_1_01_0_n_n none x W) (bcRow b)

def proj (x : T S8x1024x512) (w : T S4x512x512) (b : T S4x512) (k : Nat)
    (hw : S4x512x512.Slices ![k, 0, 0] S1x512x512) (hb : S4x512.Slices ![k, 0] S1x512) : T S8x8x1024x64 :=
  heads (lin x (wMat w k hw) (bVec b k hb))

def scores (q k : T S8x8x1024x64) : T S8x8x1024x1024 :=
  mulf (Host.dotGeneral (F := Ideal) dot_S8x8x1024x64_S8x8x1024x64_S8x8x1024x1024_3_3_2_2_01_01 none q k)
    (broadcastInDim (s := S_) S8x8x1024x1024 ![] bcast_S_S8x8x1024x1024 eighth)

def smMax (s : T S8x8x1024x1024) : T S8x8x1024 :=
  maximumf (broadcastInDim (s := S_) S8x8x1024 ![] bcast_S_S8x8x1024 negInf)
    (Host.reduce FloatOps.maximumf s negInf reducesTo_S8x8x1024x1024_S8x8x1024_d3 h_S_)

def bcKeys (r : T S8x8x1024) : T S8x8x1024x1024 :=
  broadcastInDim (s := S8x8x1024x1) S8x8x1024x1024 ![0, 1, 2, 3] bcast_S8x8x1024x1_S8x8x1024x1024_0_1_2_3
    (broadcastInDim (s := S8x8x1024) S8x8x1024x1 ![0, 1, 2] bcast_S8x8x1024_S8x8x1024x1_0_1_2 r)

def smExp (s : T S8x8x1024x1024) : T S8x8x1024x1024 :=
  Host.exp (F := Ideal) (subf s (bcKeys (smMax s)))

def softmax (s : T S8x8x1024x1024) : T S8x8x1024x1024 :=
  Host.divf (F := Ideal) (smExp s)
    (bcKeys (Host.reduceAdd (F := Ideal) (smExp s) zero reducesTo_S8x8x1024x1024_S8x8x1024_d3 h_S_))

def mix (p p' : T S8x8x1024x1024) : T S8x8x1024x1024 :=
  addf (mulf (broadcastInDim (s := S_) S8x8x1024x1024 ![] bcast_S_S8x8x1024x1024 half) p)
    (mulf (broadcastInDim (s := S_) S8x8x1024x1024 ![] bcast_S_S8x8x1024x1024 half) p')

def attend (p : T S8x8x1024x1024) (v : T S8x8x1024x64) : T S8x1024x512 :=
  unheads (Host.dotGeneral (F := Ideal) dot_S8x8x1024x1024_S8x8x1024x64_S8x8x1024x64_3_2_2_3_01_01 none p v)

def bcFeat (r : T S8x1024x1) : T S8x1024x512 :=
  broadcastInDim (s := S8x1024x1) S8x1024x512 ![0, 1, 2] bcast_S8x1024x1_S8x1024x512_0_1_2 r

def rowSum (x : T S8x1024x512) : T S8x1024x1 :=
  broadcastInDim (s := S8x1024) S8x1024x1 ![0, 1] bcast_S8x1024_S8x1024x1_0_1
    (Host.reduceAdd (F := Ideal) x zero reducesTo_S8x1024x512_S8x1024_d2 h_S_)

def rowMean (x : T S8x1024x512) : T S8x1024x1 :=
  Host.divf (F := Ideal) (rowSum x) (broadcastInDim (s := S_) S8x1024x1 ![] bcast_S_S8x1024x1 c512)

def centered (x : T S8x1024x512) : T S8x1024x512 := subf x (bcFeat (rowMean x))

def divisor : T S_ := subf c512 (sitofp .f32 (constantI S_ 32 0#32))

def rowVar (x : T S8x1024x512) : T S8x1024x1 :=
  select (broadcastInDim (s := S_) S8x1024x1 ![] bcast_S_S8x1024x1 (cmpf .ogt divisor zero))
    (Host.divf (F := Ideal) (rowSum (mulf (centered x) (centered x)))
      (broadcastInDim (s := S_) S8x1024x1 ![] bcast_S_S8x1024x1 divisor))
    (broadcastInDim (s := S_) S8x1024x1 ![] bcast_S_S8x1024x1 nan)

def layerNorm (x : T S8x1024x512) (g o : T S512) : T S8x1024x512 :=
  addf
    (mulf
      (mulf (centered x)
        (bcFeat (Host.rsqrt (F := Ideal)
          (addf (rowVar x) (broadcastInDim (s := S_) S8x1024x1 ![] bcast_S_S8x1024x1 eps)))))
      (bcRow g))
    (bcRow o)

def ffn (y : T S8x1024x512) (w1 : T S2048x512) (b1 : T S2048) (w2 : T S512x2048) (b2 : T S512) : T S8x1024x512 :=
  addf
    (Host.dotGeneral (F := Ideal) dot_S8x1024x2048_S512x2048_S8x1024x512_2_1_01_0_n_n none
      (maximumf
        (addf (Host.dotGeneral (F := Ideal) dot_S8x1024x512_S2048x512_S8x1024x2048_2_1_01_0_n_n none y w1)
          (bcRow2048 b1))
        (broadcastInDim (s := S_) S8x1024x2048 ![] bcast_S_S8x1024x2048 zero))
      w2)
    (bcRow b2)

def stage2 (y : T S8x1024x512) (w1 : T S2048x512) (b1 : T S2048) (w2 : T S512x2048) (b2 : T S512)
    (g o : T S512) : T S8x1024x512 :=
  layerNorm (addf y (ffn y w1 b1 w2 b2)) g o

-- One stream's attention probabilities, from its rows and its stacks of matrices and offsets.
def probs (x : T S8x1024x512) (w : T S4x512x512) (bs : T S4x512) : T S8x8x1024x1024 :=
  softmax (scores (proj x w bs 0 slices_S4x512x512_S1x512x512_0_0_0 slices_S4x512_S1x512_0_0)
    (proj x w bs 1 slices_S4x512x512_S1x512x512_1_0_0 slices_S4x512_S1x512_1_0))

-- One stream's result, sequence first, from its rows `x`, its own probabilities `p` and the other stream's `p'`.
def stream (x : T S8x1024x512) (p p' : T S8x8x1024x1024) (w : T S4x512x512) (bs ln : T S4x512)
    (w1 : T S2048x512) (b1 : T S2048) (w2 : T S512x2048) (b2 : T S512) : T S1024x8x512 :=
  fromBatch (stage2
    (layerNorm (addf x (lin (attend (mix p p') (proj x w bs 2 slices_S4x512x512_S1x512x512_2_0_0 slices_S4x512_S1x512_2_0))
        (wMat w 3 slices_S4x512x512_S1x512x512_3_0_0) (bVec bs 3 slices_S4x512_S1x512_3_0)))
      (bVec ln 0 slices_S4x512_S1x512_0_0) (bVec ln 1 slices_S4x512_S1x512_1_0))
    w1 b1 w2 b2 (bVec ln 2 slices_S4x512_S1x512_2_0) (bVec ln 3 slices_S4x512_S1x512_3_0))

variable (a : EncSpec.Args)

def xI : T S8x1024x512 := toBatch a.src
def xD : T S8x1024x512 := toBatch a.srcd
def xP : T S8x1024x512 := addf (xI a) (toBatch a.pos)

def pI : T S8x8x1024x1024 := probs (xP a) a.wi a.bi
def pD : T S8x8x1024x1024 := probs (xD a) a.wd a.bd

def t234 : (⟨S1024x8x512, .f32⟩ : BufTy).Contents (Elt Ideal) :=
  stream (xI a) (pI a) (pD a) a.wi a.bi a.lni a.w1i a.b1i a.w2i a.b2i
def t235 : (⟨S1024x8x512, .f32⟩ : BufTy).Contents (Elt Ideal) :=
  stream (xD a) (pD a) (pI a) a.wd a.bd a.lnd a.w1d a.b1d a.w2d a.b2d

end Cert.ReferenceIdeal.RefTerm

end
-- ==== Proof.RefOps.lean ====
import proofs.«400912_j69947837382775_3_alg».proof.ReferenceIdeal
import Idealize.ShloMosaic.Lib.StableHlo.Run

noncomputable section

namespace Cert.ReferenceIdeal.RefOps

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Facts]

-- The operations of the variance function over its operands and the buffers of one call.
def varOps (x : TRef sig ⟨S8x1024x512, .f32⟩) (c : TRef sig ⟨S_, .i32⟩) (φ : fn_var.Bufs) : List (HloOp τ sig (Elt F)) :=
  [ StableHlo.TRef.nullary φ.cst (constant S_ .f32 0x00000000#32),
    StableHlo.TRef.binary x φ.cst φ.v0 (fun x v => Host.reduceAdd x v reducesTo_S8x1024x512_S8x1024_d2 h_S_),
    StableHlo.TRef.unary φ.v0 φ.v1 (broadcastInDim S8x1024x1 ![0, 1] bcast_S8x1024_S8x1024x1_0_1),
    StableHlo.TRef.nullary φ.cst_0 (constant S_ .f32 0x44000000#32),
    StableHlo.TRef.unary φ.cst_0 φ.v2 (broadcastInDim S8x1024x1 ![] bcast_S_S8x1024x1),
    StableHlo.TRef.binary φ.v1 φ.v2 φ.v3 Host.divf,
    StableHlo.TRef.unary φ.v3 φ.v4 (broadcastInDim S8x1024x512 ![0, 1, 2] bcast_S8x1024x1_S8x1024x512_0_1_2),
    StableHlo.TRef.binary x φ.v4 φ.v5 subf,
    StableHlo.TRef.binary φ.v5 φ.v5 φ.v6 mulf,
    StableHlo.TRef.unary c φ.v7 (sitofp .f32),
    StableHlo.TRef.nullary φ.cst_1 (constant S_ .f32 0x44000000#32),
    StableHlo.TRef.binary φ.cst_1 φ.v7 φ.v8 subf,
    StableHlo.TRef.nullary φ.cst_2 (constant S_ .f32 0x00000000#32),
    StableHlo.TRef.binary φ.v6 φ.cst_2 φ.v9 (fun x v => Host.reduceAdd x v reducesTo_S8x1024x512_S8x1024_d2 h_S_),
    StableHlo.TRef.unary φ.v9 φ.v10 (broadcastInDim S8x1024x1 ![0, 1] bcast_S8x1024_S8x1024x1_0_1),
    StableHlo.TRef.unary φ.v8 φ.v11 (broadcastInDim S8x1024x1 ![] bcast_S_S8x1024x1),
    StableHlo.TRef.binary φ.v10 φ.v11 φ.v12 Host.divf,
    StableHlo.TRef.nullary φ.cst_3 (constant S_ .f32 0x00000000#32),
    StableHlo.TRef.binary φ.v8 φ.cst_3 φ.v13 (cmpf .ogt),
    StableHlo.TRef.nullary φ.cst_4 (constant S_ .f32 0x7FC00000#32),
    StableHlo.TRef.unary φ.cst_4 φ.call0.v0 id,
    StableHlo.TRef.unary φ.call0.v0 φ.call0.v1 (broadcastInDim S8x1024x1 ![] bcast_S_S8x1024x1),
    StableHlo.TRef.ternary φ.v13 φ.v12 φ.call0.v1 φ.call0.v2 (fun p a b => select (broadcastInDim S8x1024x1 ![] bcast_S_S8x1024x1 p) a b) ]
noncomputable def varW (φ : fn_var.Bufs) : List (Ref sig .tc) :=
  [φ.cst.ref, φ.v0.ref, φ.v1.ref, φ.cst_0.ref, φ.v2.ref, φ.v3.ref, φ.v4.ref, φ.v5.ref, φ.v6.ref, φ.v7.ref, φ.cst_1.ref, φ.v8.ref, φ.cst_2.ref, φ.v9.ref, φ.v10.ref, φ.v11.ref, φ.v12.ref, φ.cst_3.ref, φ.v13.ref, φ.cst_4.ref, φ.call0.v0.ref, φ.call0.v1.ref, φ.call0.v2.ref]

-- A projection's first operations: matrix and offset `k` of the stacks, the product of the rows with the matrix, the offset as a row.
def projA (w : TRef sig ⟨S4x512x512, .f32⟩) (v : TRef sig ⟨S4x512, .f32⟩) (x : TRef sig ⟨S8x1024x512, .f32⟩) (k : Nat)
    (hw : S4x512x512.Slices ![k, 0, 0] S1x512x512) (hv : S4x512.Slices ![k, 0] S1x512) (r0 : TRef sig ⟨S1x512x512, .f32⟩)
    (r1 : TRef sig ⟨S512x512, .f32⟩) (r2 : TRef sig ⟨S1x512, .f32⟩) (r3 : TRef sig ⟨S512, .f32⟩)
    (r4 : TRef sig ⟨S8x1024x512, .f32⟩) (r5 : TRef sig ⟨S1x1x512, .f32⟩) :
    List (HloOp τ sig (Elt F)) :=
  [ TRef.unary w r0 (extractStridedSlice S1x512x512 ![k, 0, 0] · hw),
    TRef.reshape r0 r1 rfl shapeCasts_S1x512x512_S512x512,
    TRef.unary v r2 (extractStridedSlice S1x512 ![k, 0] · hv),
    TRef.reshape r2 r3 rfl shapeCasts_S1x512_S512,
    TRef.binary x r1 r4 (fun l r => Host.dotGeneral dot_S8x1024x512_S512x512_S8x1024x512_2_1_01_0_n_n none l r),
    TRef.unary r3 r5 (broadcastInDim S1x1x512 ![2] bcast_S512_S1x1x512_2) ]

-- A projection's last operations: the offset added to every row of the product, the result split into heads.
def projB (u : TRef sig ⟨S1x1x512, .f32⟩) (z : TRef sig ⟨S8x1024x512, .f32⟩) (r0 r1 : TRef sig ⟨S8x1024x512, .f32⟩)
    (r2 : TRef sig ⟨S8x1024x8x64, .f32⟩) (r3 : TRef sig ⟨S8x8x1024x64, .f32⟩) :
    List (HloOp τ sig (Elt F)) :=
  [ TRef.unary u r0 (broadcastInDim S8x1024x512 ![0, 1, 2] bcast_S1x1x512_S8x1024x512_0_1_2),
    TRef.binary z r0 r1 addf,
    TRef.reshape r1 r2 rfl shapeCasts_S8x1024x512_S8x1024x8x64,
    TRef.unary r2 r3 (transpose S8x8x1024x64 [0, 2, 1, 3] · transposes_S8x1024x8x64_S8x8x1024x64_0_2_1_3) ]

-- Rows `k` and `k'` of a stack of four vectors: a normalisation's gain and offset.
def lnA (ln : TRef sig ⟨S4x512, .f32⟩) (k k' : Nat) (hk : S4x512.Slices ![k, 0] S1x512) (hk' : S4x512.Slices ![k', 0] S1x512)
    (r0 : TRef sig ⟨S1x512, .f32⟩) (r1 : TRef sig ⟨S512, .f32⟩) (r2 : TRef sig ⟨S1x512, .f32⟩) (r3 : TRef sig ⟨S512, .f32⟩) :
    List (HloOp τ sig (Elt F)) :=
  [ TRef.unary ln r0 (extractStridedSlice S1x512 ![k, 0] · hk),
    TRef.reshape r0 r1 rfl shapeCasts_S1x512_S512,
    TRef.unary ln r2 (extractStridedSlice S1x512 ![k', 0] · hk'),
    TRef.reshape r2 r3 rfl shapeCasts_S1x512_S512 ]

-- The sum of every row.
def lnB (x : TRef sig ⟨S8x1024x512, .f32⟩) (r0 : TRef sig ⟨S_, .f32⟩) (r1 : TRef sig ⟨S8x1024, .f32⟩)
    (r2 : TRef sig ⟨S8x1024x1, .f32⟩) :
    List (HloOp τ sig (Elt F)) :=
  [ TRef.nullary r0 (constant S_ .f32 0x00000000#32),
    TRef.binary x r0 r1 (fun x v => Host.reduceAdd x v reducesTo_S8x1024x512_S8x1024_d2 h_S_),
    TRef.unary r1 r2 (broadcastInDim S8x1024x1 ![0, 1] bcast_S8x1024_S8x1024x1_0_1) ]

-- The rest of a normalisation, from the row sums `m`, the gain `g` and the offset `o`.
def lnC (m : TRef sig ⟨S8x1024x1, .f32⟩) (x : TRef sig ⟨S8x1024x512, .f32⟩) (g o : TRef sig ⟨S512, .f32⟩) (φ : fn_var.Bufs)
    (r0 : TRef sig ⟨S_, .f32⟩) (r1 r2 : TRef sig ⟨S8x1024x1, .f32⟩) (r3 : TRef sig ⟨S_, .i32⟩)
    (r4 r5 : TRef sig ⟨S8x1024x512, .f32⟩) (r6 : TRef sig ⟨S_, .f32⟩) (r7 r8 r9 : TRef sig ⟨S8x1024x1, .f32⟩)
    (r10 r11 : TRef sig ⟨S8x1024x512, .f32⟩) (r12 : TRef sig ⟨S1x1x512, .f32⟩) (r13 r14 : TRef sig ⟨S8x1024x512, .f32⟩)
    (r15 : TRef sig ⟨S1x1x512, .f32⟩) (r16 r17 : TRef sig ⟨S8x1024x512, .f32⟩) :
    List (HloOp τ sig (Elt F)) :=
  [ TRef.nullary r0 (constant S_ .f32 0x44000000#32),
    TRef.unary r0 r1 (broadcastInDim S8x1024x1 ![] bcast_S_S8x1024x1),
    TRef.binary m r1 r2 Host.divf,
    TRef.nullary r3 (constantI S_ 32 0#32) ] ++
  (varOps x r3 φ ++
  [ TRef.unary r2 r4 (broadcastInDim S8x1024x512 ![0, 1, 2] bcast_S8x1024x1_S8x1024x512_0_1_2),
    TRef.binary x r4 r5 subf,
    TRef.nullary r6 (constant S_ .f32 0x3727C5AC#32),
    TRef.unary r6 r7 (broadcastInDim S8x1024x1 ![] bcast_S_S8x1024x1),
    TRef.binary φ.call0.v2 r7 r8 addf,
    TRef.unary r8 r9 Host.rsqrt,
    TRef.unary r9 r10 (broadcastInDim S8x1024x512 ![0, 1, 2] bcast_S8x1024x1_S8x1024x512_0_1_2),
    TRef.binary r5 r10 r11 mulf,
    TRef.unary g r12 (broadcastInDim S1x1x512 ![2] bcast_S512_S1x1x512_2),
    TRef.unary r12 r13 (broadcastInDim S8x1024x512 ![0, 1, 2] bcast_S1x1x512_S8x1024x512_0_1_2),
    TRef.binary r11 r13 r14 mulf,
    TRef.unary o r15 (broadcastInDim S1x1x512 ![2] bcast_S512_S1x1x512_2),
    TRef.unary r15 r16 (broadcastInDim S8x1024x512 ![0, 1, 2] bcast_S1x1x512_S8x1024x512_0_1_2),
    TRef.binary r14 r16 r17 addf ])

-- The reference program's operations in order, cut into consecutive windows; `wNN_W` lists the buffers window `wNN` writes.
def w00 : List (HloOp τ sig (Elt F)) :=
  [ StableHlo.unary main_arg0 main_v0 (transpose S8x1024x512 [1, 0, 2] · transposes_S1024x8x512_S8x1024x512_1_0_2),
    StableHlo.unary main_arg1 main_v1 (transpose S8x1024x512 [1, 0, 2] · transposes_S1024x8x512_S8x1024x512_1_0_2),
    StableHlo.unary main_arg2 main_v2 (transpose S8x1024x512 [1, 0, 2] · transposes_S1024x8x512_S8x1024x512_1_0_2),
    StableHlo.binary main_v0 main_v2 main_v3 addf ]
noncomputable def w00_W : List (Ref sig .tc) :=
  [main_v0, main_v1, main_v2, main_v3]

def w01 : List (HloOp τ sig (Elt F)) :=
  projA (.of main_arg3) (.of main_arg4) (.of main_v3) 0 slices_S4x512x512_S1x512x512_0_0_0 slices_S4x512_S1x512_0_0 (.of main_v4) (.of main_v5) (.of main_v6) (.of main_v7) (.of main_v8) (.of main_v9) ++
  projB (.of main_v9) (.of main_v8) (.of main_v10) (.of main_v11) (.of main_v12) (.of main_v13)
noncomputable def w01_W : List (Ref sig .tc) :=
  [main_v4, main_v5, main_v6, main_v7, main_v8, main_v9, main_v10, main_v11, main_v12, main_v13]

def w02 : List (HloOp τ sig (Elt F)) :=
  projA (.of main_arg3) (.of main_arg4) (.of main_v3) 1 slices_S4x512x512_S1x512x512_1_0_0 slices_S4x512_S1x512_1_0 (.of main_v14) (.of main_v15) (.of main_v16) (.of main_v17) (.of main_v18) (.of main_v19) ++
  projB (.of main_v19) (.of main_v18) (.of main_v20) (.of main_v21) (.of main_v22) (.of main_v23)
noncomputable def w02_W : List (Ref sig .tc) :=
  [main_v14, main_v15, main_v16, main_v17, main_v18, main_v19, main_v20, main_v21, main_v22, main_v23]

def w03 : List (HloOp τ sig (Elt F)) :=
  projA (.of main_arg3) (.of main_arg4) (.of main_v0) 2 slices_S4x512x512_S1x512x512_2_0_0 slices_S4x512_S1x512_2_0 (.of main_v24) (.of main_v25) (.of main_v26) (.of main_v27) (.of main_v28) (.of main_v29) ++
  projB (.of main_v29) (.of main_v28) (.of main_v30) (.of main_v31) (.of main_v32) (.of main_v33)
noncomputable def w03_W : List (Ref sig .tc) :=
  [main_v24, main_v25, main_v26, main_v27, main_v28, main_v29, main_v30, main_v31, main_v32, main_v33]

def w04 : List (HloOp τ sig (Elt F)) :=
  projA (.of main_arg5) (.of main_arg6) (.of main_v1) 0 slices_S4x512x512_S1x512x512_0_0_0 slices_S4x512_S1x512_0_0 (.of main_v34) (.of main_v35) (.of main_v36) (.of main_v37) (.of main_v38) (.of main_v39) ++
  projB (.of main_v39) (.of main_v38) (.of main_v40) (.of main_v41) (.of main_v42) (.of main_v43)
noncomputable def w04_W : List (Ref sig .tc) :=
  [main_v34, main_v35, main_v36, main_v37, main_v38, main_v39, main_v40, main_v41, main_v42, main_v43]

def w05 : List (HloOp τ sig (Elt F)) :=
  projA (.of main_arg5) (.of main_arg6) (.of main_v1) 1 slices_S4x512x512_S1x512x512_1_0_0 slices_S4x512_S1x512_1_0 (.of main_v44) (.of main_v45) (.of main_v46) (.of main_v47) (.of main_v48) (.of main_v49) ++
  projB (.of main_v49) (.of main_v48) (.of main_v50) (.of main_v51) (.of main_v52) (.of main_v53)
noncomputable def w05_W : List (Ref sig .tc) :=
  [main_v44, main_v45, main_v46, main_v47, main_v48, main_v49, main_v50, main_v51, main_v52, main_v53]

def w06a : List (HloOp τ sig (Elt F)) :=
  projA (.of main_arg5) (.of main_arg6) (.of main_v1) 2 slices_S4x512x512_S1x512x512_2_0_0 slices_S4x512_S1x512_2_0 (.of main_v54) (.of main_v55) (.of main_v56) (.of main_v57) (.of main_v58) (.of main_v59)
noncomputable def w06a_W : List (Ref sig .tc) :=
  [main_v54, main_v55, main_v56, main_v57, main_v58, main_v59]

def w06b : List (HloOp τ sig (Elt F)) :=
  projB (.of main_v59) (.of main_v58) (.of main_v60) (.of main_v61) (.of main_v62) (.of main_v63)
noncomputable def w06b_W : List (Ref sig .tc) :=
  [main_v60, main_v61, main_v62, main_v63]

def w07 : List (HloOp τ sig (Elt F)) :=
  [ StableHlo.binary main_v13 main_v23 main_v64 (fun l r => Host.dotGeneral dot_S8x8x1024x64_S8x8x1024x64_S8x8x1024x1024_3_3_2_2_01_01 none l r),
    StableHlo.nullary main_cst (constant S_ .f32 0x3E000000#32),
    StableHlo.unary main_cst main_v65 (broadcastInDim S8x8x1024x1024 ![] bcast_S_S8x8x1024x1024),
    StableHlo.binary main_v64 main_v65 main_v66 mulf,
    StableHlo.nullary main_cst_0 (constant S_ .f32 0xFF800000#32),
    StableHlo.binary main_v66 main_cst_0 main_v67 (fun x v => Host.reduce FloatOps.maximumf x v reducesTo_S8x8x1024x1024_S8x8x1024_d3 h_S_),
    StableHlo.nullary main_cst_1 (constant S_ .f32 0xFF800000#32),
    StableHlo.unary main_cst_1 main_v68 (broadcastInDim S8x8x1024 ![] bcast_S_S8x8x1024),
    StableHlo.binary main_v68 main_v67 main_v69 maximumf,
    StableHlo.unary main_v69 main_v70 (broadcastInDim S8x8x1024x1 ![0, 1, 2] bcast_S8x8x1024_S8x8x1024x1_0_1_2),
    StableHlo.unary main_v70 main_v71 (broadcastInDim S8x8x1024x1024 ![0, 1, 2, 3] bcast_S8x8x1024x1_S8x8x1024x1024_0_1_2_3),
    StableHlo.binary main_v66 main_v71 main_v72 subf,
    StableHlo.unary main_v72 main_v73 Host.exp,
    StableHlo.nullary main_cst_2 (constant S_ .f32 0x00000000#32),
    StableHlo.binary main_v73 main_cst_2 main_v74 (fun x v => Host.reduceAdd x v reducesTo_S8x8x1024x1024_S8x8x1024_d3 h_S_),
    StableHlo.unary main_v74 main_v75 (broadcastInDim S8x8x1024x1 ![0, 1, 2] bcast_S8x8x1024_S8x8x1024x1_0_1_2),
    StableHlo.unary main_v75 main_v76 (broadcastInDim S8x8x1024x1024 ![0, 1, 2, 3] bcast_S8x8x1024x1_S8x8x1024x1024_0_1_2_3),
    StableHlo.binary main_v73 main_v76 main_v77 Host.divf ]
noncomputable def w07_W : List (Ref sig .tc) :=
  [main_v64, main_cst, main_v65, main_v66, main_cst_0, main_v67, main_cst_1, main_v68, main_v69, main_v70, main_v71, main_v72, main_v73, main_cst_2, main_v74, main_v75, main_v76, main_v77]

def w08 : List (HloOp τ sig (Elt F)) :=
  [ StableHlo.binary main_v43 main_v53 main_v78 (fun l r => Host.dotGeneral dot_S8x8x1024x64_S8x8x1024x64_S8x8x1024x1024_3_3_2_2_01_01 none l r),
    StableHlo.nullary main_cst_3 (constant S_ .f32 0x3E000000#32),
    StableHlo.unary main_cst_3 main_v79 (broadcastInDim S8x8x1024x1024 ![] bcast_S_S8x8x1024x1024),
    StableHlo.binary main_v78 main_v79 main_v80 mulf,
    StableHlo.nullary main_cst_4 (constant S_ .f32 0xFF800000#32),
    StableHlo.binary main_v80 main_cst_4 main_v81 (fun x v => Host.reduce FloatOps.maximumf x v reducesTo_S8x8x1024x1024_S8x8x1024_d3 h_S_),
    StableHlo.nullary main_cst_5 (constant S_ .f32 0xFF800000#32),
    StableHlo.unary main_cst_5 main_v82 (broadcastInDim S8x8x1024 ![] bcast_S_S8x8x1024),
    StableHlo.binary main_v82 main_v81 main_v83 maximumf,
    StableHlo.unary main_v83 main_v84 (broadcastInDim S8x8x1024x1 ![0, 1, 2] bcast_S8x8x1024_S8x8x1024x1_0_1_2),
    StableHlo.unary main_v84 main_v85 (broadcastInDim S8x8x1024x1024 ![0, 1, 2, 3] bcast_S8x8x1024x1_S8x8x1024x1024_0_1_2_3),
    StableHlo.binary main_v80 main_v85 main_v86 subf,
    StableHlo.unary main_v86 main_v87 Host.exp,
    StableHlo.nullary main_cst_6 (constant S_ .f32 0x00000000#32),
    StableHlo.binary main_v87 main_cst_6 main_v88 (fun x v => Host.reduceAdd x v reducesTo_S8x8x1024x1024_S8x8x1024_d3 h_S_),
    StableHlo.unary main_v88 main_v89 (broadcastInDim S8x8x1024x1 ![0, 1, 2] bcast_S8x8x1024_S8x8x1024x1_0_1_2),
    StableHlo.unary main_v89 main_v90 (broadcastInDim S8x8x1024x1024 ![0, 1, 2, 3] bcast_S8x8x1024x1_S8x8x1024x1024_0_1_2_3),
    StableHlo.binary main_v87 main_v90 main_v91 Host.divf ]
noncomputable def w08_W : List (Ref sig .tc) :=
  [main_v78, main_cst_3, main_v79, main_v80, main_cst_4, main_v81, main_cst_5, main_v82, main_v83, main_v84, main_v85, main_v86, main_v87, main_cst_6, main_v88, main_v89, main_v90, main_v91]

def w09 : List (HloOp τ sig (Elt F)) :=
  [ StableHlo.nullary main_cst_7 (constant S_ .f32 0x3F000000#32),
    StableHlo.unary main_cst_7 main_v92 (broadcastInDim S8x8x1024x1024 ![] bcast_S_S8x8x1024x1024),
    StableHlo.binary main_v92 main_v77 main_v93 mulf,
    StableHlo.nullary main_cst_8 (constant S_ .f32 0x3F000000#32),
    StableHlo.unary main_cst_8 main_v94 (broadcastInDim S8x8x1024x1024 ![] bcast_S_S8x8x1024x1024),
    StableHlo.binary main_v94 main_v91 main_v95 mulf,
    StableHlo.binary main_v93 main_v95 main_v96 addf,
    StableHlo.nullary main_cst_9 (constant S_ .f32 0x3F000000#32),
    StableHlo.unary main_cst_9 main_v97 (broadcastInDim S8x8x1024x1024 ![] bcast_S_S8x8x1024x1024),
    StableHlo.binary main_v97 main_v91 main_v98 mulf,
    StableHlo.nullary main_cst_10 (constant S_ .f32 0x3F000000#32),
    StableHlo.unary main_cst_10 main_v99 (broadcastInDim S8x8x1024x1024 ![] bcast_S_S8x8x1024x1024),
    StableHlo.binary main_v99 main_v77 main_v100 mulf,
    StableHlo.binary main_v98 main_v100 main_v101 addf,
    StableHlo.binary main_v96 main_v33 main_v102 (fun l r => Host.dotGeneral dot_S8x8x1024x1024_S8x8x1024x64_S8x8x1024x64_3_2_2_3_01_01 none l r),
    StableHlo.unary main_v102 main_v103 (transpose S8x1024x8x64 [0, 2, 1, 3] · transposes_S8x8x1024x64_S8x1024x8x64_0_2_1_3),
    StableHlo.reshape main_v103 main_v104 rfl shapeCasts_S8x1024x8x64_S8x1024x512,
    StableHlo.binary main_v101 main_v63 main_v105 (fun l r => Host.dotGeneral dot_S8x8x1024x1024_S8x8x1024x64_S8x8x1024x64_3_2_2_3_01_01 none l r),
    StableHlo.unary main_v105 main_v106 (transpose S8x1024x8x64 [0, 2, 1, 3] · transposes_S8x8x1024x64_S8x1024x8x64_0_2_1_3),
    StableHlo.reshape main_v106 main_v107 rfl shapeCasts_S8x1024x8x64_S8x1024x512 ]
noncomputable def w09_W : List (Ref sig .tc) :=
  [main_cst_7, main_v92, main_v93, main_cst_8, main_v94, main_v95, main_v96, main_cst_9, main_v97, main_v98, main_cst_10, main_v99, main_v100, main_v101, main_v102, main_v103, main_v104, main_v105, main_v106, main_v107]

def w10 : List (HloOp τ sig (Elt F)) :=
  [ StableHlo.unary main_arg3 main_v108 (extractStridedSlice S1x512x512 ![3, 0, 0] · slices_S4x512x512_S1x512x512_3_0_0),
    StableHlo.reshape main_v108 main_v109 rfl shapeCasts_S1x512x512_S512x512,
    StableHlo.binary main_v104 main_v109 main_v110 (fun l r => Host.dotGeneral dot_S8x1024x512_S512x512_S8x1024x512_2_1_01_0_n_n none l r),
    StableHlo.unary main_arg4 main_v111 (extractStridedSlice S1x512 ![3, 0] · slices_S4x512_S1x512_3_0),
    StableHlo.reshape main_v111 main_v112 rfl shapeCasts_S1x512_S512,
    StableHlo.unary main_v112 main_v113 (broadcastInDim S1x1x512 ![2] bcast_S512_S1x1x512_2),
    StableHlo.unary main_v113 main_v114 (broadcastInDim S8x1024x512 ![0, 1, 2] bcast_S1x1x512_S8x1024x512_0_1_2),
    StableHlo.binary main_v110 main_v114 main_v115 addf,
    StableHlo.unary main_arg5 main_v116 (extractStridedSlice S1x512x512 ![3, 0, 0] · slices_S4x512x512_S1x512x512_3_0_0),
    StableHlo.reshape main_v116 main_v117 rfl shapeCasts_S1x512x512_S512x512,
    StableHlo.binary main_v107 main_v117 main_v118 (fun l r => Host.dotGeneral dot_S8x1024x512_S512x512_S8x1024x512_2_1_01_0_n_n none l r),
    StableHlo.unary main_arg6 main_v119 (extractStridedSlice S1x512 ![3, 0] · slices_S4x512_S1x512_3_0),
    StableHlo.reshape main_v119 main_v120 rfl shapeCasts_S1x512_S512,
    StableHlo.unary main_v120 main_v121 (broadcastInDim S1x1x512 ![2] bcast_S512_S1x1x512_2),
    StableHlo.unary main_v121 main_v122 (broadcastInDim S8x1024x512 ![0, 1, 2] bcast_S1x1x512_S8x1024x512_0_1_2),
    StableHlo.binary main_v118 main_v122 main_v123 addf ]
noncomputable def w10_W : List (Ref sig .tc) :=
  [main_v108, main_v109, main_v110, main_v111, main_v112, main_v113, main_v114, main_v115, main_v116, main_v117, main_v118, main_v119, main_v120, main_v121, main_v122, main_v123]

def w11 : List (HloOp τ sig (Elt F)) :=
  StableHlo.binary main_v0 main_v115 main_v124 addf ::
  (lnA (.of main_arg15) 0 1 slices_S4x512_S1x512_0_0 slices_S4x512_S1x512_1_0 (.of main_v125) (.of main_v126) (.of main_v127) (.of main_v128) ++
  (lnB (.of main_v124) (.of main_cst_11) (.of main_v129) (.of main_v130) ++
  lnC (.of main_v130) (.of main_v124) (.of main_v126) (.of main_v128) main_call0 (.of main_cst_12) (.of main_v131) (.of main_v132) (.of main_c) (.of main_v134) (.of main_v135) (.of main_cst_13) (.of main_v136) (.of main_v137) (.of main_v138) (.of main_v139) (.of main_v140) (.of main_v141) (.of main_v142) (.of main_v143) (.of main_v144) (.of main_v145) (.of main_v146)))
noncomputable def w11_W : List (Ref sig .tc) :=
  [main_v124, main_v125, main_v126, main_v127, main_v128, main_cst_11, main_v129, main_v130, main_cst_12, main_v131, main_v132, main_c] ++ (varW main_call0 ++ [main_v134, main_v135, main_cst_13, main_v136, main_v137, main_v138, main_v139, main_v140, main_v141, main_v142, main_v143, main_v144, main_v145, main_v146])

def w12 : List (HloOp τ sig (Elt F)) :=
  [ StableHlo.binary main_v146 main_arg7 main_v147 (fun l r => Host.dotGeneral dot_S8x1024x512_S2048x512_S8x1024x2048_2_1_01_0_n_n none l r),
    StableHlo.unary main_arg8 main_v148 (broadcastInDim S1x1x2048 ![2] bcast_S2048_S1x1x2048_2),
    StableHlo.unary main_v148 main_v149 (broadcastInDim S8x1024x2048 ![0, 1, 2] bcast_S1x1x2048_S8x1024x2048_0_1_2),
    StableHlo.binary main_v147 main_v149 main_v150 addf,
    StableHlo.TRef.nullary main_call1.cst (constant S_ .f32 0x00000000#32),
    StableHlo.TRef.unary main_call1.cst main_call1.v0 (broadcastInDim S8x1024x2048 ![] bcast_S_S8x1024x2048),
    StableHlo.TRef.binary (.of main_v150 : StableHlo.TRef sig ⟨S8x1024x2048, .f32⟩) main_call1.v0 main_call1.v1 maximumf,
    StableHlo.binary main_v151 main_arg9 main_v152 (fun l r => Host.dotGeneral dot_S8x1024x2048_S512x2048_S8x1024x512_2_1_01_0_n_n none l r),
    StableHlo.unary main_arg10 main_v153 (broadcastInDim S1x1x512 ![2] bcast_S512_S1x1x512_2),
    StableHlo.unary main_v153 main_v154 (broadcastInDim S8x1024x512 ![0, 1, 2] bcast_S1x1x512_S8x1024x512_0_1_2),
    StableHlo.binary main_v152 main_v154 main_v155 addf,
    StableHlo.binary main_v146 main_v155 main_v156 addf ]
noncomputable def w12_W : List (Ref sig .tc) :=
  [main_v147, main_v148, main_v149, main_v150, main_call1_cst, main_call1_v0, main_v151, main_v152, main_v153, main_v154, main_v155, main_v156]

def w13a : List (HloOp τ sig (Elt F)) :=
  lnA (.of main_arg15) 2 3 slices_S4x512_S1x512_2_0 slices_S4x512_S1x512_3_0 (.of main_v157) (.of main_v158) (.of main_v159) (.of main_v160) ++
  lnB (.of main_v156) (.of main_cst_14) (.of main_v161) (.of main_v162)
noncomputable def w13a_W : List (Ref sig .tc) :=
  [main_v157, main_v158, main_v159, main_v160, main_cst_14, main_v161, main_v162]

def w13b : List (HloOp τ sig (Elt F)) :=
  lnC (.of main_v162) (.of main_v156) (.of main_v158) (.of main_v160) main_call2 (.of main_cst_15) (.of main_v163) (.of main_v164) (.of main_c_16) (.of main_v166) (.of main_v167) (.of main_cst_17) (.of main_v168) (.of main_v169) (.of main_v170) (.of main_v171) (.of main_v172) (.of main_v173) (.of main_v174) (.of main_v175) (.of main_v176) (.of main_v177) (.of main_v178)
noncomputable def w13b_W : List (Ref sig .tc) :=
  [main_cst_15, main_v163, main_v164, main_c_16] ++ (varW main_call2 ++ [main_v166, main_v167, main_cst_17, main_v168, main_v169, main_v170, main_v171, main_v172, main_v173, main_v174, main_v175, main_v176, main_v177, main_v178])

def w14 : List (HloOp τ sig (Elt F)) :=
  StableHlo.binary main_v1 main_v123 main_v179 addf ::
  (lnA (.of main_arg16) 0 1 slices_S4x512_S1x512_0_0 slices_S4x512_S1x512_1_0 (.of main_v180) (.of main_v181) (.of main_v182) (.of main_v183) ++
  (lnB (.of main_v179) (.of main_cst_18) (.of main_v184) (.of main_v185) ++
  lnC (.of main_v185) (.of main_v179) (.of main_v181) (.of main_v183) main_call3 (.of main_cst_19) (.of main_v186) (.of main_v187) (.of main_c_20) (.of main_v189) (.of main_v190) (.of main_cst_21) (.of main_v191) (.of main_v192) (.of main_v193) (.of main_v194) (.of main_v195) (.of main_v196) (.of main_v197) (.of main_v198) (.of main_v199) (.of main_v200) (.of main_v201)))
noncomputable def w14_W : List (Ref sig .tc) :=
  [main_v179, main_v180, main_v181, main_v182, main_v183, main_cst_18, main_v184, main_v185, main_cst_19, main_v186, main_v187, main_c_20] ++ (varW main_call3 ++ [main_v189, main_v190, main_cst_21, main_v191, main_v192, main_v193, main_v194, main_v195, main_v196, main_v197, main_v198, main_v199, main_v200, main_v201])

def w15 : List (HloOp τ sig (Elt F)) :=
  [ StableHlo.binary main_v201 main_arg11 main_v202 (fun l r => Host.dotGeneral dot_S8x1024x512_S2048x512_S8x1024x2048_2_1_01_0_n_n none l r),
    StableHlo.unary main_arg12 main_v203 (broadcastInDim S1x1x2048 ![2] bcast_S2048_S1x1x2048_2),
    StableHlo.unary main_v203 main_v204 (broadcastInDim S8x1024x2048 ![0, 1, 2] bcast_S1x1x2048_S8x1024x2048_0_1_2),
    StableHlo.binary main_v202 main_v204 main_v205 addf,
    StableHlo.TRef.nullary main_call4.cst (constant S_ .f32 0x00000000#32),
    StableHlo.TRef.unary main_call4.cst main_call4.v0 (broadcastInDim S8x1024x2048 ![] bcast_S_S8x1024x2048),
    StableHlo.TRef.binary (.of main_v205 : StableHlo.TRef sig ⟨S8x1024x2048, .f32⟩) main_call4.v0 main_call4.v1 maximumf,
    StableHlo.binary main_v206 main_arg13 main_v207 (fun l r => Host.dotGeneral dot_S8x1024x2048_S512x2048_S8x1024x512_2_1_01_0_n_n none l r),
    StableHlo.unary main_arg14 main_v208 (broadcastInDim S1x1x512 ![2] bcast_S512_S1x1x512_2),
    StableHlo.unary main_v208 main_v209 (broadcastInDim S8x1024x512 ![0, 1, 2] bcast_S1x1x512_S8x1024x512_0_1_2),
    StableHlo.binary main_v207 main_v209 main_v210 addf,
    StableHlo.binary main_v201 main_v210 main_v211 addf ]
noncomputable def w15_W : List (Ref sig .tc) :=
  [main_v202, main_v203, main_v204, main_v205, main_call4_cst, main_call4_v0, main_v206, main_v207, main_v208, main_v209, main_v210, main_v211]

def w16a : List (HloOp τ sig (Elt F)) :=
  lnA (.of main_arg16) 2 3 slices_S4x512_S1x512_2_0 slices_S4x512_S1x512_3_0 (.of main_v212) (.of main_v213) (.of main_v214) (.of main_v215)
noncomputable def w16a_W : List (Ref sig .tc) :=
  [main_v212, main_v213, main_v214, main_v215]

def w16b : List (HloOp τ sig (Elt F)) :=
  lnB (.of main_v211) (.of main_cst_22) (.of main_v216) (.of main_v217) ++
  lnC (.of main_v217) (.of main_v211) (.of main_v213) (.of main_v215) main_call5 (.of main_cst_23) (.of main_v218) (.of main_v219) (.of main_c_24) (.of main_v221) (.of main_v222) (.of main_cst_25) (.of main_v223) (.of main_v224) (.of main_v225) (.of main_v226) (.of main_v227) (.of main_v228) (.of main_v229) (.of main_v230) (.of main_v231) (.of main_v232) (.of main_v233)
noncomputable def w16b_W : List (Ref sig .tc) :=
  [main_cst_22, main_v216, main_v217, main_cst_23, main_v218, main_v219, main_c_24] ++ (varW main_call5 ++ [main_v221, main_v222, main_cst_25, main_v223, main_v224, main_v225, main_v226, main_v227, main_v228, main_v229, main_v230, main_v231, main_v232, main_v233])

def w17 : List (HloOp τ sig (Elt F)) :=
  [ StableHlo.unary main_v178 main_v234 (transpose S1024x8x512 [1, 0, 2] · transposes_S8x1024x512_S1024x8x512_1_0_2),
    StableHlo.unary main_v233 main_v235 (transpose S1024x8x512 [1, 0, 2] · transposes_S8x1024x512_S1024x8x512_1_0_2) ]
noncomputable def w17_W : List (Ref sig .tc) :=
  [main_v234, main_v235]

def p0 : List (HloOp τ sig (Elt F)) := w00 ++ (w01 ++ (w02 ++ (w03 ++ (w04 ++ (w05 ++ w06a)))))

def p1 : List (HloOp τ sig (Elt F)) := w06b ++ (w07 ++ (w08 ++ w09))

def p2 : List (HloOp τ sig (Elt F)) := w10 ++ (w11 ++ (w12 ++ w13a))

def p3 : List (HloOp τ sig (Elt F)) := w13b ++ (w14 ++ (w15 ++ w16a))

def p4 : List (HloOp τ sig (Elt F)) := w16b ++ w17

def ops : List (HloOp τ sig (Elt F)) := p0 ++ (p1 ++ (p2 ++ (p3 ++ p4)))

end Cert.ReferenceIdeal.RefOps

end
-- ==== Proof.RefRun.lean ====
import proofs.«400912_j69947837382775_3_alg».proof.Proof.RefTerm
import proofs.«400912_j69947837382775_3_alg».proof.Proof.RefOps

noncomputable section

namespace Cert.ReferenceIdeal.RefRun

open Cert.ReferenceIdeal Cert.ReferenceIdeal.Facts₀ Cert.ReferenceIdeal.Facts Cert.ReferenceIdeal.RefOps
  Idealize.ShloMosaic Idealize.ShloMosaic.TcCoe Idealize.SL.Sem Idealize.ShloMosaic.StableHlo

variable [Facts]

section Lines

variable {F : FTy → Type} [FloatOps F]

theorem after_append (l₁ l₂ : List (HloOp τ sig (Elt F))) (V : Valuation τ sig (Elt F)) :
    after (l₁ ++ l₂) V = after l₂ (after l₁ V) := by
  induction l₁ generalizing V with
  | nil => rfl
  | cons op l ih => exact ih _

-- Every operation of the line `l` writes inside `W` and determines what it writes.
structure Good (l : List (HloOp τ sig (Elt F))) (W : List (Ref sig .tc)) : Prop where
  sub : ∀ op ∈ l, op.bufs ⊆ tcRefs τ sig
  writes : ∀ op ∈ l, op.writes ⊆ (W.map (Proc.devRef (τ := τ) .tc)).toFinset
  fresh : ∀ op ∈ l, op.fresh = ∅

theorem Good.append {l₁ l₂ : List (HloOp τ sig (Elt F))} {W₁ W₂ : List (Ref sig .tc)} (h₁ : Good l₁ W₁) (h₂ : Good l₂ W₂) :
    Good (l₁ ++ l₂) (W₁ ++ W₂) := by
  refine ⟨fun op h => (List.mem_append.mp h).elim (h₁.sub op) (h₂.sub op), fun op h => ?_,
    fun op h => (List.mem_append.mp h).elim (h₁.fresh op) (h₂.fresh op)⟩
  rw [List.map_append, List.toFinset_append]
  exact (List.mem_append.mp h).elim (fun h => (h₁.writes op h).trans Finset.subset_union_left)
    fun h => (h₂.writes op h).trans Finset.subset_union_right

theorem Good.keep {l : List (HloOp τ sig (Elt F))} {W : List (Ref sig .tc)} (h : Good l W)
    (V : Valuation τ sig (Elt F)) (r : Ref sig .tc) (hr : r ∉ W) :
    after l V (no_index (Proc.devRef .tc r)) = V (Proc.devRef .tc r) :=
  after_of_writes_sub l V (List.forall_iff_forall_mem.mpr h.writes) hr

macro "blocks" : tactic =>
  `(tactic| simp only [projA, projB, lnA, lnB, lnC, varOps, List.cons_append, List.nil_append])

macro "good_window " w:ident : tactic => `(tactic| (
  unfold $w
  try blocks
  refine ⟨List.forall_iff_forall_mem.mp ?_, List.forall_iff_forall_mem.mp ?_, ?_⟩
  · simp only [List.Forall, nullary_bufs_sub, unary_bufs_sub, binary_bufs_sub, ternary_bufs_sub, reshape_bufs_sub, and_self]
  · simp only [List.Forall, nullary_writes, unary_writes, binary_writes, ternary_writes, reshape_writes,
      Finset.singleton_subset_iff, List.mem_toFinset]
    repeat' (first | exact List.mem_map_of_mem (by decide) | constructor)
  · intro _ h
    (repeat (cases h with | head => rfl | tail _ h => ?_))
    exact nomatch h))

theorem w00_good : Good (w00 (F := F)) w00_W := by good_window w00
theorem w01_good : Good (w01 (F := F)) w01_W := by good_window w01
theorem w02_good : Good (w02 (F := F)) w02_W := by good_window w02
theorem w03_good : Good (w03 (F := F)) w03_W := by good_window w03
theorem w04_good : Good (w04 (F := F)) w04_W := by good_window w04
theorem w05_good : Good (w05 (F := F)) w05_W := by good_window w05
theorem w06a_good : Good (w06a (F := F)) w06a_W := by good_window w06a
theorem w06b_good : Good (w06b (F := F)) w06b_W := by good_window w06b
theorem w07_good : Good (w07 (F := F)) w07_W := by good_window w07
theorem w08_good : Good (w08 (F := F)) w08_W := by good_window w08
theorem w09_good : Good (w09 (F := F)) w09_W := by good_window w09
theorem w10_good : Good (w10 (F := F)) w10_W := by good_window w10
theorem w11_good : Good (w11 (F := F)) w11_W := by good_window w11
theorem w12_good : Good (w12 (F := F)) w12_W := by good_window w12
theorem w13a_good : Good (w13a (F := F)) w13a_W := by good_window w13a
theorem w13b_good : Good (w13b (F := F)) w13b_W := by good_window w13b
theorem w14_good : Good (w14 (F := F)) w14_W := by good_window w14
theorem w15_good : Good (w15 (F := F)) w15_W := by good_window w15
theorem w16a_good : Good (w16a (F := F)) w16a_W := by good_window w16a
theorem w16b_good : Good (w16b (F := F)) w16b_W := by good_window w16b
theorem w17_good : Good (w17 (F := F)) w17_W := by good_window w17

-- Every buffer some window writes.
def allW : List (Ref sig .tc) :=
  (w00_W ++ (w01_W ++ (w02_W ++ (w03_W ++ (w04_W ++ (w05_W ++ w06a_W)))))) ++ ((w06b_W ++ (w07_W ++ (w08_W ++ w09_W))) ++ ((w10_W ++ (w11_W ++ (w12_W ++ w13a_W))) ++ ((w13b_W ++ (w14_W ++ (w15_W ++ w16a_W))) ++ ((w16b_W ++ w17_W)))))

theorem ops_good : Good (ops (F := F)) allW :=
  (w00_good.append (w01_good.append (w02_good.append (w03_good.append (w04_good.append (w05_good.append w06a_good)))))).append ((w06b_good.append (w07_good.append (w08_good.append w09_good))).append ((w10_good.append (w11_good.append (w12_good.append w13a_good))).append ((w13b_good.append (w14_good.append (w15_good.append w16a_good))).append ((w16b_good.append w17_good)))))

theorem main_part0_eq (c : Dev nD) : main_part0 (F := F) c = seq p0 := rfl
theorem main_part1_eq (c : Dev nD) : main_part1 (F := F) c = seq p1 := rfl
theorem main_part2_eq (c : Dev nD) : main_part2 (F := F) c = seq p2 := rfl
theorem main_part3_eq (c : Dev nD) : main_part3 (F := F) c = seq p3 := rfl
theorem main_part4_eq (c : Dev nD) : main_part4 (F := F) c = seq p4 := rfl

theorem main_eq (c : Dev nD) : main (F := F) c = seq ops := by
  simp only [ops, seq_append, ← main_part0_eq c, ← main_part1_eq c, ← main_part2_eq c, ← main_part3_eq c, ← main_part4_eq c]
  rfl

end Lines

variable (V : Valuation τ sig (Elt Ideal))

theorem w00_v0 :
    after w00 V (no_index (Proc.devRef .tc main_v0)) = RefTerm.toBatch (V (Proc.devRef .tc main_arg0)) := by
  unfold w00; after_results_simp <;> rfl
theorem w00_v1 :
    after w00 V (no_index (Proc.devRef .tc main_v1)) = RefTerm.toBatch (V (Proc.devRef .tc main_arg1)) := by
  unfold w00; after_results_simp <;> rfl
theorem w00_v3 :
    after w00 V (no_index (Proc.devRef .tc main_v3)) = addf (RefTerm.toBatch (V (Proc.devRef .tc main_arg0))) (RefTerm.toBatch (V (Proc.devRef .tc main_arg2))) := by
  unfold w00; after_results_simp <;> rfl
theorem w01_v13 :
    after w01 V (no_index (Proc.devRef .tc main_v13)) = RefTerm.proj (V (Proc.devRef .tc main_v3)) (V (Proc.devRef .tc main_arg3)) (V (Proc.devRef .tc main_arg4)) 0 slices_S4x512x512_S1x512x512_0_0_0 slices_S4x512_S1x512_0_0 := by
  unfold w01; blocks; after_results_simp <;> rfl
theorem w02_v23 :
    after w02 V (no_index (Proc.devRef .tc main_v23)) = RefTerm.proj (V (Proc.devRef .tc main_v3)) (V (Proc.devRef .tc main_arg3)) (V (Proc.devRef .tc main_arg4)) 1 slices_S4x512x512_S1x512x512_1_0_0 slices_S4x512_S1x512_1_0 := by
  unfold w02; blocks; after_results_simp <;> rfl
theorem w03_v33 :
    after w03 V (no_index (Proc.devRef .tc main_v33)) = RefTerm.proj (V (Proc.devRef .tc main_v0)) (V (Proc.devRef .tc main_arg3)) (V (Proc.devRef .tc main_arg4)) 2 slices_S4x512x512_S1x512x512_2_0_0 slices_S4x512_S1x512_2_0 := by
  unfold w03; blocks; after_results_simp <;> rfl
theorem w04_v43 :
    after w04 V (no_index (Proc.devRef .tc main_v43)) = RefTerm.proj (V (Proc.devRef .tc main_v1)) (V (Proc.devRef .tc main_arg5)) (V (Proc.devRef .tc main_arg6)) 0 slices_S4x512x512_S1x512x512_0_0_0 slices_S4x512_S1x512_0_0 := by
  unfold w04; blocks; after_results_simp <;> rfl
theorem w05_v53 :
    after w05 V (no_index (Proc.devRef .tc main_v53)) = RefTerm.proj (V (Proc.devRef .tc main_v1)) (V (Proc.devRef .tc main_arg5)) (V (Proc.devRef .tc main_arg6)) 1 slices_S4x512x512_S1x512x512_1_0_0 slices_S4x512_S1x512_1_0 := by
  unfold w05; blocks; after_results_simp <;> rfl
theorem w06_v63 :
    after w06b (after w06a V) (no_index (Proc.devRef .tc main_v63)) = RefTerm.proj (V (Proc.devRef .tc main_v1)) (V (Proc.devRef .tc main_arg5)) (V (Proc.devRef .tc main_arg6)) 2 slices_S4x512x512_S1x512x512_2_0_0 slices_S4x512_S1x512_2_0 := by
  unfold w06a w06b; blocks; after_results_simp <;> rfl
theorem w07_v77 :
    after w07 V (no_index (Proc.devRef .tc main_v77)) = RefTerm.softmax (RefTerm.scores (V (Proc.devRef .tc main_v13)) (V (Proc.devRef .tc main_v23))) := by
  unfold w07; after_results_simp <;> rfl
theorem w08_v91 :
    after w08 V (no_index (Proc.devRef .tc main_v91)) = RefTerm.softmax (RefTerm.scores (V (Proc.devRef .tc main_v43)) (V (Proc.devRef .tc main_v53))) := by
  unfold w08; after_results_simp <;> rfl
theorem w09_v104 :
    after w09 V (no_index (Proc.devRef .tc main_v104)) = RefTerm.attend (RefTerm.mix (V (Proc.devRef .tc main_v77)) (V (Proc.devRef .tc main_v91))) (V (Proc.devRef .tc main_v33)) := by
  unfold w09; after_results_simp <;> rfl
theorem w09_v107 :
    after w09 V (no_index (Proc.devRef .tc main_v107)) = RefTerm.attend (RefTerm.mix (V (Proc.devRef .tc main_v91)) (V (Proc.devRef .tc main_v77))) (V (Proc.devRef .tc main_v63)) := by
  unfold w09; after_results_simp <;> rfl
theorem w10_v115 :
    after w10 V (no_index (Proc.devRef .tc main_v115)) = RefTerm.lin (V (Proc.devRef .tc main_v104)) (RefTerm.wMat (V (Proc.devRef .tc main_arg3)) 3 slices_S4x512x512_S1x512x512_3_0_0) (RefTerm.bVec (V (Proc.devRef .tc main_arg4)) 3 slices_S4x512_S1x512_3_0) := by
  unfold w10; after_results_simp <;> rfl
theorem w10_v123 :
    after w10 V (no_index (Proc.devRef .tc main_v123)) = RefTerm.lin (V (Proc.devRef .tc main_v107)) (RefTerm.wMat (V (Proc.devRef .tc main_arg5)) 3 slices_S4x512x512_S1x512x512_3_0_0) (RefTerm.bVec (V (Proc.devRef .tc main_arg6)) 3 slices_S4x512_S1x512_3_0) := by
  unfold w10; after_results_simp <;> rfl
theorem w11_v146 :
    after w11 V (no_index (Proc.devRef .tc main_v146)) = RefTerm.layerNorm (addf (V (Proc.devRef .tc main_v0)) (V (Proc.devRef .tc main_v115))) (RefTerm.bVec (V (Proc.devRef .tc main_arg15)) 0 slices_S4x512_S1x512_0_0) (RefTerm.bVec (V (Proc.devRef .tc main_arg15)) 1 slices_S4x512_S1x512_1_0) := by
  unfold w11; blocks; after_results_simp <;> rfl
theorem w12_v156 :
    after w12 V (no_index (Proc.devRef .tc main_v156)) = addf (V (Proc.devRef .tc main_v146)) (RefTerm.ffn (V (Proc.devRef .tc main_v146)) (V (Proc.devRef .tc main_arg7)) (V (Proc.devRef .tc main_arg8)) (V (Proc.devRef .tc main_arg9)) (V (Proc.devRef .tc main_arg10))) := by
  unfold w12; after_results_simp <;> rfl
theorem w13_v178 :
    after w13b (after w13a V) (no_index (Proc.devRef .tc main_v178)) = RefTerm.layerNorm (V (Proc.devRef .tc main_v156)) (RefTerm.bVec (V (Proc.devRef .tc main_arg15)) 2 slices_S4x512_S1x512_2_0) (RefTerm.bVec (V (Proc.devRef .tc main_arg15)) 3 slices_S4x512_S1x512_3_0) := by
  unfold w13a w13b; blocks; after_results_simp <;> rfl
theorem w14_v201 :
    after w14 V (no_index (Proc.devRef .tc main_v201)) = RefTerm.layerNorm (addf (V (Proc.devRef .tc main_v1)) (V (Proc.devRef .tc main_v123))) (RefTerm.bVec (V (Proc.devRef .tc main_arg16)) 0 slices_S4x512_S1x512_0_0) (RefTerm.bVec (V (Proc.devRef .tc main_arg16)) 1 slices_S4x512_S1x512_1_0) := by
  unfold w14; blocks; after_results_simp <;> rfl
theorem w15_v211 :
    after w15 V (no_index (Proc.devRef .tc main_v211)) = addf (V (Proc.devRef .tc main_v201)) (RefTerm.ffn (V (Proc.devRef .tc main_v201)) (V (Proc.devRef .tc main_arg11)) (V (Proc.devRef .tc main_arg12)) (V (Proc.devRef .tc main_arg13)) (V (Proc.devRef .tc main_arg14))) := by
  unfold w15; after_results_simp <;> rfl
theorem w16_v233 :
    after w16b (after w16a V) (no_index (Proc.devRef .tc main_v233)) = RefTerm.layerNorm (V (Proc.devRef .tc main_v211)) (RefTerm.bVec (V (Proc.devRef .tc main_arg16)) 2 slices_S4x512_S1x512_2_0) (RefTerm.bVec (V (Proc.devRef .tc main_arg16)) 3 slices_S4x512_S1x512_3_0) := by
  unfold w16a w16b; blocks; after_results_simp <;> rfl
theorem w17_v234 :
    after w17 V (no_index (Proc.devRef .tc main_v234)) = RefTerm.fromBatch (V (Proc.devRef .tc main_v178)) := by
  unfold w17; after_results_simp <;> rfl
theorem w17_v235 :
    after w17 V (no_index (Proc.devRef .tc main_v235)) = RefTerm.fromBatch (V (Proc.devRef .tc main_v233)) := by
  unfold w17; after_results_simp <;> rfl

def argsOf (m : (ℓ : Loc nD τ sig) → Buf (Elt Ideal) ℓ) (c : Dev nD) : EncSpec.Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16)⟩

-- The two results after all the operations, as terms of the contents at the start.
theorem out (m : (ℓ : Loc nD τ sig) → Buf (Elt Ideal) ℓ) (c : Dev nD) :
    after (ops (F := Ideal)) (launchContents m c) (Proc.devRef .tc main_v234) = RefTerm.t234 (argsOf m c)
      ∧ after (ops (F := Ideal)) (launchContents m c) (Proc.devRef .tc main_v235) = RefTerm.t235 (argsOf m c) := by
  simp only [ops, p0, p1, p2, p3, p4, after_append]
  simp (disch := decide) only [w00_v0, w00_v1, w00_v3, w01_v13, w02_v23, w03_v33, w04_v43, w05_v53, w06_v63, w07_v77, w08_v91, w09_v104, w09_v107, w10_v115, w10_v123, w11_v146, w12_v156, w13_v178, w14_v201, w15_v211, w16_v233, w17_v234, w17_v235,
    w00_good.keep, w01_good.keep, w02_good.keep, w03_good.keep, w04_good.keep, w05_good.keep, w06a_good.keep, w06b_good.keep, w07_good.keep, w08_good.keep, w09_good.keep, w10_good.keep, w11_good.keep, w12_good.keep, w13a_good.keep, w13b_good.keep, w14_good.keep, w15_good.keep, w16a_good.keep, w16b_good.keep, w17_good.keep]
  exact ⟨rfl, rfl⟩

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v234) = RefTerm.t234 (argsOf m c)
        ∧ r.2.mem ((c.tc : Thread nD τ).loc main_v235) = RefTerm.t235 (argsOf m c))
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16))) :=
  (θ_run defs _ _).mono (fun x h c =>
      have k (r : Ref sig .tc) (hr : r ∉ allW) : x.2.mem ((c.tc : Thread nD τ).loc r) = m ((c.tc : Thread nD τ).loc r) :=
        (h c r).trans (ops_good.keep _ r hr)
      ⟨⟨(h c main_v234).trans (out m c).1, (h c main_v235).trans (out m c).2⟩, k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide), k main_arg12 (by decide), k main_arg13 (by decide), k main_arg14 (by decide), k main_arg15 (by decide), k main_arg16 (by decide)⟩)
    (run_seq (by decide) (by decide) defs main (fun _ => ops) main_eq (fun _ => List.forall_iff_forall_mem.mpr ops_good.sub) m ρ
      fun _ => ops_good.fresh)

end Cert.ReferenceIdeal.RefRun

end
-- ==== Proof.RefValueA.lean ====
import Idealize.ShloMosaic.Lib.ValueLayout
import Idealize.ShloMosaic.Lib.IdealHost
import Idealize.ShloMosaic.PureOps.Ideal.Laws
import proofs.«400912_j69947837382775_3_alg».proof.Proof.Spec

noncomputable section

namespace Cert.ReferenceIdeal.RefValue

open Idealize.ShloMosaic Idealize.ShloMosaic.ValueIdx
open scoped BigOperators

section Layout
variable {α : Type}

theorem transpose_102_apply {n0 n1 n2 : Nat} (x : (⟨3, ![n0, n1, n2]⟩ : Shape).Idx → α)
    (h : (⟨3, ![n0, n1, n2]⟩ : Shape).Transposes [1, 0, 2] ⟨3, ![n1, n0, n2]⟩) (i : Fin n1) (j : Fin n0) (k : Fin n2) :
    transpose ⟨3, ![n1, n0, n2]⟩ [1, 0, 2] x h (ix3 i j k) = x (ix3 j i k) :=
  transpose_apply _ _ _ _ _ fun b => match b with
    | ⟨0, _⟩ => rfl
    | ⟨1, _⟩ => rfl
    | ⟨2, _⟩ => rfl

theorem transpose_0213_apply {n0 n1 n2 n3 : Nat} (x : (⟨4, ![n0, n1, n2, n3]⟩ : Shape).Idx → α)
    (h : (⟨4, ![n0, n1, n2, n3]⟩ : Shape).Transposes [0, 2, 1, 3] ⟨4, ![n0, n2, n1, n3]⟩)
    (i : Fin n0) (j : Fin n2) (k : Fin n1) (l : Fin n3) :
    transpose ⟨4, ![n0, n2, n1, n3]⟩ [0, 2, 1, 3] x h (ix4 i j k l) = x (ix4 i k j l) :=
  transpose_apply _ _ _ _ _ fun b => match b with
    | ⟨0, _⟩ => rfl
    | ⟨1, _⟩ => rfl
    | ⟨2, _⟩ => rfl
    | ⟨3, _⟩ => rfl

theorem matSlice_apply {K m n : Nat} (k : Fin K) (w : (⟨3, ![K, m, n]⟩ : Shape).Idx → α)
    (hs : (⟨3, ![K, m, n]⟩ : Shape).Slices ![k.val, 0, 0] ⟨3, ![1, m, n]⟩)
    (hc : (⟨3, ![1, m, n]⟩ : Shape).ShapeCasts ⟨2, ![m, n]⟩) (e : Fin m) (d : Fin n) :
    shapeCast ⟨2, ![m, n]⟩ (extractStridedSlice ⟨3, ![1, m, n]⟩ ![k.val, 0, 0] w hs) hc (ix2 e d) = w (ix3 k e d) := by
  rw [shapeCast_1ab_ab_apply]
  exact extractStridedSlice_apply _ _ _ _ _ fun a => match a with
    | ⟨0, _⟩ => by show k.val = k.val + 0; omega
    | ⟨1, _⟩ => by show e.val = 0 + e.val; omega
    | ⟨2, _⟩ => by show d.val = 0 + d.val; omega

theorem rowSlice_apply {K n : Nat} (k : Fin K) (w : (⟨2, ![K, n]⟩ : Shape).Idx → α)
    (hs : (⟨2, ![K, n]⟩ : Shape).Slices ![k.val, 0] ⟨2, ![1, n]⟩)
    (hc : (⟨2, ![1, n]⟩ : Shape).ShapeCasts ⟨1, ![n]⟩) (e : Fin n) :
    shapeCast ⟨1, ![n]⟩ (extractStridedSlice ⟨2, ![1, n]⟩ ![k.val, 0] w hs) hc (ix1 e) = w (ix2 k e) := by
  rw [shapeCast_1a_a_apply]
  exact extractStridedSlice_apply _ _ _ _ _ fun a => match a with
    | ⟨0, _⟩ => by show k.val = k.val + 0; omega
    | ⟨1, _⟩ => by show e.val = 0 + e.val; omega

end Layout

section Dots

theorem dot_rows_apply {B S K N : Nat}
    (w : DotDims.WF ⟨3, ![B, S, K]⟩ ⟨2, ![N, K]⟩ ⟨3, ![B, S, N]⟩ [2] [1] [0, 1] [0] [] [])
    (prec : Option ContractPrecision) (x : FVec Ideal ⟨3, ![B, S, K]⟩ .f32) (W : FVec Ideal ⟨2, ![N, K]⟩ .f32)
    (b : Fin B) (s : Fin S) (e : Fin N) :
    Host.dotGeneral (⟨[2], [1], [0, 1], [0], [], [], w⟩ : DotDims _ _ _) prec x W (ix3 b s e)
      = ∑ d : Fin K, x (ix3 b s d) * W (ix2 e d) := by
  show FloatOps.dotGeneral _ prec _ x W (ix3 b s e) = _
  rw [Ideal.dotGeneral_apply,
    ← Equiv.sum_comp (contrEquiv1 (⟨[2], [1], [0, 1], [0], [], [], w⟩ : DotDims _ _ _) K rfl rfl).symm]
  refine Finset.sum_congr rfl fun c _ => ?_
  have c3 := contrEquiv1_symm_val
    (⟨[2], [1], [0, 1], [0], [], [], w⟩ : DotDims ⟨3, ![B, S, K]⟩ ⟨2, ![N, K]⟩ ⟨3, ![B, S, N]⟩) K rfl rfl c
  have l3 : (⟨[2], [1], [0, 1], [0], [], [], w⟩ : DotDims ⟨3, ![B, S, K]⟩ ⟨2, ![N, K]⟩ ⟨3, ![B, S, N]⟩).lhsIdx (ix3 b s e)
      ((contrEquiv1 _ K rfl rfl).symm c) = ix3 b s c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![B, S, K]⟩ ⟨2, ![N, K]⟩ ⟨3, ![B, S, N]⟩).rhsIdx (ix3 b s e)
      ((contrEquiv1 _ K rfl rfl).symm c) = ix2 e c := by
    funext ax; apply Fin.ext
    match ax with
    | ⟨0, _⟩ => simp [DotDims.rhsIdx]; rfl
    | ⟨1, _⟩ => simp [DotDims.rhsIdx]; exact c3
  rw [l3, r3]

theorem dot_scores_apply {B H L S D : Nat}
    (w : DotDims.WF ⟨4, ![B, H, L, D]⟩ ⟨4, ![B, H, S, D]⟩ ⟨4, ![B, H, L, S]⟩ [3] [3] [2] [2] [0, 1] [0, 1])
    (prec : Option ContractPrecision) (q : FVec Ideal ⟨4, ![B, H, L, D]⟩ .f32) (k : FVec Ideal ⟨4, ![B, H, S, D]⟩ .f32)
    (b : Fin B) (h : Fin H) (l : Fin L) (s : Fin S) :
    Host.dotGeneral (⟨[3], [3], [2], [2], [0, 1], [0, 1], w⟩ : DotDims _ _ _) prec q k (ix4 b h l s)
      = ∑ d : Fin D, q (ix4 b h l d) * k (ix4 b h s d) := by
  show FloatOps.dotGeneral _ prec _ q k (ix4 b h l s) = _
  rw [Ideal.dotGeneral_apply,
    ← Equiv.sum_comp (contrEquiv1 (⟨[3], [3], [2], [2], [0, 1], [0, 1], w⟩ : DotDims _ _ _) D rfl rfl).symm]
  refine Finset.sum_congr rfl fun c _ => ?_
  have c3 := contrEquiv1_symm_val
    (⟨[3], [3], [2], [2], [0, 1], [0, 1], w⟩ : DotDims ⟨4, ![B, H, L, D]⟩ ⟨4, ![B, H, S, D]⟩ ⟨4, ![B, H, L, S]⟩) D rfl rfl c
  have l3 : (⟨[3], [3], [2], [2], [0, 1], [0, 1], w⟩ : DotDims ⟨4, ![B, H, L, D]⟩ ⟨4, ![B, H, S, D]⟩ ⟨4, ![B, H, L, S]⟩).lhsIdx (ix4 b h l s)
      ((contrEquiv1 _ D rfl rfl).symm c) = ix4 b h l c := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact c3
  have r3 : (⟨[3], [3], [2], [2], [0, 1], [0, 1], w⟩ : DotDims ⟨4, ![B, H, L, D]⟩ ⟨4, ![B, H, S, D]⟩ ⟨4, ![B, H, L, S]⟩).rhsIdx (ix4 b h l s)
      ((contrEquiv1 _ D rfl rfl).symm c) = ix4 b h s c := by
    funext ax; apply Fin.ext
    match ax with
    | ⟨0, _⟩ => simp [DotDims.rhsIdx]; rfl
    | ⟨1, _⟩ => simp [DotDims.rhsIdx]; rfl
    | ⟨2, _⟩ => simp [DotDims.rhsIdx]; rfl
    | ⟨3, _⟩ => simp [DotDims.rhsIdx]; exact c3
  rw [l3, r3]

theorem dot_pv_apply {B H L S D : Nat}
    (w : DotDims.WF ⟨4, ![B, H, L, S]⟩ ⟨4, ![B, H, S, D]⟩ ⟨4, ![B, H, L, D]⟩ [3] [2] [2] [3] [0, 1] [0, 1])
    (prec : Option ContractPrecision) (p : FVec Ideal ⟨4, ![B, H, L, S]⟩ .f32) (v : FVec Ideal ⟨4, ![B, H, S, D]⟩ .f32)
    (b : Fin B) (h : Fin H) (l : Fin L) (d : Fin D) :
    Host.dotGeneral (⟨[3], [2], [2], [3], [0, 1], [0, 1], w⟩ : DotDims _ _ _) prec p v (ix4 b h l d)
      = ∑ s : Fin S, p (ix4 b h l s) * v (ix4 b h s d) := by
  show FloatOps.dotGeneral _ prec _ p v (ix4 b h l d) = _
  rw [Ideal.dotGeneral_apply,
    ← Equiv.sum_comp (contrEquiv1 (⟨[3], [2], [2], [3], [0, 1], [0, 1], w⟩ : DotDims _ _ _) S rfl rfl).symm]
  refine Finset.sum_congr rfl fun c _ => ?_
  have c3 := contrEquiv1_symm_val
    (⟨[3], [2], [2], [3], [0, 1], [0, 1], w⟩ : DotDims ⟨4, ![B, H, L, S]⟩ ⟨4, ![B, H, S, D]⟩ ⟨4, ![B, H, L, D]⟩) S rfl rfl c
  have l3 : (⟨[3], [2], [2], [3], [0, 1], [0, 1], w⟩ : DotDims ⟨4, ![B, H, L, S]⟩ ⟨4, ![B, H, S, D]⟩ ⟨4, ![B, H, L, D]⟩).lhsIdx (ix4 b h l d)
      ((contrEquiv1 _ S rfl rfl).symm c) = ix4 b h l c := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact c3
  have r3 : (⟨[3], [2], [2], [3], [0, 1], [0, 1], w⟩ : DotDims ⟨4, ![B, H, L, S]⟩ ⟨4, ![B, H, S, D]⟩ ⟨4, ![B, H, L, D]⟩).rhsIdx (ix4 b h l d)
      ((contrEquiv1 _ S rfl rfl).symm c) = ix4 b h c d := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
    | ⟨3, _⟩ => simp [DotDims.rhsIdx]; rfl
  rw [l3, r3]

end Dots

section Bcast
variable {α : Type}

-- A coordinate read through a broadcast along its own extent.
theorem bc_val {n : Nat} (i : Fin n) : i.val = if n = 1 then 0 else i.val := by
  split
  · have := i.isLt; omega
  · rfl

theorem bcast_bias_apply {B S N : Nat} (bias : (⟨1, ![N]⟩ : Shape).Idx → α)
    (h1 : (⟨1, ![N]⟩ : Shape).BroadcastsInDim ⟨3, ![1, 1, N]⟩ (![2] : Fin 1 → Fin (⟨3, ![1, 1, N]⟩ : Shape).rank))
    (h2 : (⟨3, ![1, 1, N]⟩ : Shape).BroadcastsInDim ⟨3, ![B, S, N]⟩ (![0, 1, 2] : Fin 3 → Fin (⟨3, ![B, S, N]⟩ : Shape).rank))
    (b : Fin B) (s : Fin S) (e : Fin N) :
    broadcastInDim ⟨3, ![B, S, N]⟩ ![0, 1, 2] h2 (broadcastInDim ⟨3, ![1, 1, N]⟩ ![2] h1 bias) (ix3 b s e) = bias (ix1 e) := by
  rw [broadcastInDim_apply _ h2 _ _ (ix3 (0 : Fin 1) (0 : Fin 1) e) (fun a => match a with
    | ⟨0, _⟩ => rfl
    | ⟨1, _⟩ => rfl
    | ⟨2, _⟩ => by exact bc_val e)]
  exact broadcastInDim_apply _ h1 _ _ (ix1 e) (fun a => match a with
    | ⟨0, _⟩ => bc_val e)

theorem bcast_row_apply {B S N : Nat} (y : (⟨3, ![B, S, 1]⟩ : Shape).Idx → α)
    (h : (⟨3, ![B, S, 1]⟩ : Shape).BroadcastsInDim ⟨3, ![B, S, N]⟩ (![0, 1, 2] : Fin 3 → Fin (⟨3, ![B, S, N]⟩ : Shape).rank))
    (b : Fin B) (s : Fin S) (d : Fin N) :
    broadcastInDim ⟨3, ![B, S, N]⟩ ![0, 1, 2] h y (ix3 b s d) = y (ix3 b s (0 : Fin 1)) :=
  broadcastInDim_apply _ h _ _ _ (fun a => match a with
    | ⟨0, _⟩ => bc_val b
    | ⟨1, _⟩ => bc_val s
    | ⟨2, _⟩ => rfl)

theorem bcast_unit3_apply {B S : Nat} (y : (⟨2, ![B, S]⟩ : Shape).Idx → α)
    (h : (⟨2, ![B, S]⟩ : Shape).BroadcastsInDim ⟨3, ![B, S, 1]⟩ (![0, 1] : Fin 2 → Fin (⟨3, ![B, S, 1]⟩ : Shape).rank))
    (b : Fin B) (s : Fin S) (u : Fin 1) :
    broadcastInDim ⟨3, ![B, S, 1]⟩ ![0, 1] h y (ix3 b s u) = y (ix2 b s) :=
  broadcastInDim_apply _ h _ _ _ (fun a => match a with
    | ⟨0, _⟩ => bc_val b
    | ⟨1, _⟩ => bc_val s)

theorem bcast_row4_apply {B H L S : Nat} (y : (⟨3, ![B, H, L]⟩ : Shape).Idx → α)
    (h1 : (⟨3, ![B, H, L]⟩ : Shape).BroadcastsInDim ⟨4, ![B, H, L, 1]⟩ (![0, 1, 2] : Fin 3 → Fin (⟨4, ![B, H, L, 1]⟩ : Shape).rank))
    (h2 : (⟨4, ![B, H, L, 1]⟩ : Shape).BroadcastsInDim ⟨4, ![B, H, L, S]⟩ (![0, 1, 2, 3] : Fin 4 → Fin (⟨4, ![B, H, L, S]⟩ : Shape).rank))
    (b : Fin B) (hh : Fin H) (l : Fin L) (s : Fin S) :
    broadcastInDim ⟨4, ![B, H, L, S]⟩ ![0, 1, 2, 3] h2 (broadcastInDim ⟨4, ![B, H, L, 1]⟩ ![0, 1, 2] h1 y) (ix4 b hh l s)
      = y (ix3 b hh l) := by
  rw [broadcastInDim_apply _ h2 _ _ (ix4 b hh l (0 : Fin 1)) (fun a => match a with
    | ⟨0, _⟩ => by exact bc_val b
    | ⟨1, _⟩ => by exact bc_val hh
    | ⟨2, _⟩ => by exact bc_val l
    | ⟨3, _⟩ => rfl)]
  exact broadcastInDim_apply _ h1 _ _ (ix3 b hh l) (fun a => match a with
    | ⟨0, _⟩ => bc_val b
    | ⟨1, _⟩ => bc_val hh
    | ⟨2, _⟩ => bc_val l)

end Bcast

section Reduce

theorem sum_last4_apply {B H L S : Nat} (x : FVec Ideal ⟨4, ![B, H, L, S]⟩ .f32) (init : FVec Ideal ⟨0, ![]⟩ .f32)
    (h' : (⟨4, ![B, H, L, S]⟩ : Shape).ReducesTo [3] ⟨3, ![B, H, L]⟩)
    (h : (⟨4, ![B, H, L, S]⟩ : Shape).Reduces [3] ⟨3, ![B, H, L]⟩) (hu : 0 < (⟨0, ![]⟩ : Shape).numel)
    (b : Fin B) (hh : Fin H) (l : Fin L) :
    Host.reduceAdd x init h' hu (ix3 b hh l) = init ix0 + ∑ s : Fin S, x (ix4 b hh l s) := by
  rw [hostReduceAdd_apply, Ideal.hostReduceAdd_single h' h]
  congr 1
  · exact congrArg init (eq_ix0 _)
  · refine Finset.sum_congr rfl fun s _ => congrArg x ?_
    funext c; apply Fin.ext
    match c with
    | ⟨0, _⟩ => rfl
    | ⟨1, _⟩ => rfl
    | ⟨2, _⟩ => rfl
    | ⟨3, _⟩ => rfl

theorem max_last4_apply {B H L S : Nat} (x : FVec Ideal ⟨4, ![B, H, L, S]⟩ .f32)
    (h' : (⟨4, ![B, H, L, S]⟩ : Shape).ReducesTo [3] ⟨3, ![B, H, L]⟩)
    (h : (⟨4, ![B, H, L, S]⟩ : Shape).Reduces [3] ⟨3, ![B, H, L]⟩) (hu : 0 < (⟨0, ![]⟩ : Shape).numel)
    (hb : (⟨0, ![]⟩ : Shape).BroadcastsInDim ⟨3, ![B, H, L]⟩ (![] : Fin 0 → Fin (⟨3, ![B, H, L]⟩ : Shape).rank))
    (b : Fin B) (hh : Fin H) (l : Fin L) :
    maximumf (broadcastInDim ⟨3, ![B, H, L]⟩ ![] hb (constant (F := Ideal) ⟨0, ![]⟩ .f32 0xFF800000#32))
        (Host.reduce FloatOps.maximumf x (constant (F := Ideal) ⟨0, ![]⟩ .f32 0xFF800000#32) h' hu) (ix3 b hh l)
      = Finset.univ.sup fun s : Fin S => x (ix4 b hh l s) := by
  rw [maximumf_apply, broadcastInDim_scalar_apply, constant_apply, Host.reduce_eq_fold_single FloatOps.maximumf x _ h' h hu,
    constant_apply]
  have hbot : Ideal.ofBits .f32 0xFF800000#32 = ⊥ := by simp [Ideal.ofBits, Ideal.ieee]
  rw [hbot]
  have hf : (x ∘ h.lift (ix3 b hh l)) = fun s : Fin S => x (ix4 b hh l s) := by
    funext s
    refine congrArg x ?_
    funext c; apply Fin.ext
    match c with
    | ⟨0, _⟩ => rfl
    | ⟨1, _⟩ => rfl
    | ⟨2, _⟩ => rfl
    | ⟨3, _⟩ => rfl
  have hfold : (Finset.univ : Finset (Fin S)).fold (FloatOps.maximumf : Ideal .f32 → Ideal .f32 → Ideal .f32) ⊥ (fun s : Fin S => x (ix4 b hh l s))
      = Finset.univ.sup fun s : Fin S => x (ix4 b hh l s) := rfl
  have e : (Finset.univ : Finset (Fin ((⟨4, ![B, H, L, S]⟩ : Shape).size 3))).fold (FloatOps.maximumf : Ideal .f32 → Ideal .f32 → Ideal .f32) ⊥ (x ∘ h.lift (ix3 b hh l))
      = Finset.univ.sup fun s : Fin S => x (ix4 b hh l s) := by
    rw [hf]; exact hfold
  rw [e]
  exact max_eq_right bot_le

end Reduce

end Cert.ReferenceIdeal.RefValue

end
-- ==== Proof.RefValueB.lean ====
import proofs.«400912_j69947837382775_3_alg».proof.Proof.RefValueA
import proofs.«400912_j69947837382775_3_alg».proof.Proof.RefTerm

noncomputable section

namespace Cert.ReferenceIdeal.RefValue

open Idealize.ShloMosaic Idealize.ShloMosaic.ValueIdx Cert.ReferenceIdeal Cert.ReferenceIdeal.Facts₀
open scoped BigOperators

variable [Facts₀]

theorem toBatch_rd (x : RefTerm.T S1024x8x512) (b : Fin 8) (s : Fin 1024) (d : Fin 512) :
    RefTerm.toBatch x (ix3 b s d) = x (ix3 s b d) :=
  transpose_102_apply x _ b s d

theorem fromBatch_rd (y : RefTerm.T S8x1024x512) (s : Fin 1024) (b : Fin 8) (d : Fin 512) :
    RefTerm.fromBatch y (ix3 s b d) = y (ix3 b s d) :=
  transpose_102_apply y _ s b d

theorem wMat_rd (w : RefTerm.T S4x512x512) (k : Fin 4) (h : S4x512x512.Slices ![k.val, 0, 0] S1x512x512)
    (e d : Fin 512) : RefTerm.wMat w k.val h (ix2 e d) = w (ix3 k e d) :=
  matSlice_apply k w h _ e d

theorem bVec_rd (v : RefTerm.T S4x512) (k : Fin 4) (h : S4x512.Slices ![k.val, 0] S1x512) (e : Fin 512) :
    RefTerm.bVec v k.val h (ix1 e) = v (ix2 k e) :=
  rowSlice_apply k v h _ e

theorem bcRow_rd (v : RefTerm.T S512) (b : Fin 8) (s : Fin 1024) (e : Fin 512) :
    RefTerm.bcRow v (ix3 b s e) = v (ix1 e) :=
  bcast_bias_apply v _ _ b s e

def lowOf (c : Fin 512) : Fin 64 := ⟨c.val % 64, Nat.mod_lt _ (by decide)⟩

theorem hcol_headOf_lowOf (c : Fin 512) : EncSpec.hcol (EncSpec.headOf c) (lowOf c) = c := by
  apply Fin.ext
  show 64 * (c.val / 64) + c.val % 64 = c.val
  omega

theorem heads_rd (y : RefTerm.T S8x1024x512) (b : Fin 8) (h : Fin 8) (s : Fin 1024) (d : Fin 64) :
    RefTerm.heads y (ix4 b h s d) = y (ix3 b s (EncSpec.hcol h d)) := by
  unfold RefTerm.heads
  rw [transpose_0213_apply]
  refine shapeCast_apply y _ _ _ ?_
  rw [Shape.rowMajor_val_three, Shape.rowMajor_val_four]
  show (b.val * 1024 + s.val) * 512 + (64 * h.val + d.val) = ((b.val * 1024 + s.val) * 8 + h.val) * 64 + d.val
  omega

theorem unheads_rd (z : RefTerm.T S8x8x1024x64) (b : Fin 8) (l : Fin 1024) (c : Fin 512) :
    RefTerm.unheads z (ix3 b l c) = z (ix4 b (EncSpec.headOf c) l (lowOf c)) := by
  unfold RefTerm.unheads
  rw [shapeCast_apply _ _ (ix3 b l c) (ix4 b l (EncSpec.headOf c) (lowOf c)) (by
    rw [Shape.rowMajor_val_three, Shape.rowMajor_val_four]
    show ((b.val * 1024 + l.val) * 8 + c.val / 64) * 64 + c.val % 64 = (b.val * 1024 + l.val) * 512 + c.val
    omega)]
  exact transpose_0213_apply z _ b l (EncSpec.headOf c) (lowOf c)

theorem lin_rd (x : RefTerm.T S8x1024x512) (W : RefTerm.T S512x512) (v : RefTerm.T S512)
    (X : EncSpec.A3 8 1024 512) (Wm : EncSpec.A2 512 512) (bv : Fin 512 → EReal)
    (hx : ∀ b s d, x (ix3 b s d) = X b s d) (hW : ∀ e d, W (ix2 e d) = Wm e d) (hv : ∀ e, v (ix1 e) = bv e)
    (b : Fin 8) (s : Fin 1024) (e : Fin 512) :
    RefTerm.lin x W v (ix3 b s e) = EncSpec.linear X Wm bv b s e := by
  unfold RefTerm.lin EncSpec.linear
  rw [addf_apply, bcRow_rd, hv]
  refine congrArg (· + bv e) ?_
  refine (dot_rows_apply dot_S8x1024x512_S512x512_S8x1024x512_2_1_01_0_n_n_wf none x W b s e).trans ?_
  exact Finset.sum_congr rfl fun d _ => by rw [hx, hW]

theorem scores_rd (q k : RefTerm.T S8x8x1024x64) (Q K : EncSpec.A3 8 1024 512)
    (hq : ∀ b h s d, q (ix4 b h s d) = Q b s (EncSpec.hcol h d))
    (hk : ∀ b h s d, k (ix4 b h s d) = K b s (EncSpec.hcol h d))
    (b h : Fin 8) (l s : Fin 1024) :
    RefTerm.scores q k (ix4 b h l s) = EncSpec.score Q K b h l s := by
  unfold RefTerm.scores EncSpec.score
  rw [mulf_apply, broadcastInDim_scalar_apply]
  refine congrArg₂ (· * ·) ?_ rfl
  refine (dot_scores_apply dot_S8x8x1024x64_S8x8x1024x64_S8x8x1024x1024_3_3_2_2_01_01_wf none q k b h l s).trans ?_
  exact Finset.sum_congr rfl fun d _ => by rw [hq, hk]

theorem smMax_rd (s : RefTerm.T S8x8x1024x1024) (Sc : Fin 8 → Fin 8 → Fin 1024 → Fin 1024 → EReal)
    (hs : ∀ b h l s', s (ix4 b h l s') = Sc b h l s') (b h : Fin 8) (l : Fin 1024) :
    RefTerm.smMax s (ix3 b h l) = EncSpec.rowMax (Sc b h l) := by
  unfold RefTerm.smMax RefTerm.negInf EncSpec.rowMax
  refine (max_last4_apply s _ (by decide) _ _ b h l).trans ?_
  exact congrArg (Finset.univ.sup) (funext fun s' => hs b h l s')

theorem bcKeys_rd (r : RefTerm.T S8x8x1024) (b h : Fin 8) (l s : Fin 1024) :
    RefTerm.bcKeys r (ix4 b h l s) = r (ix3 b h l) :=
  bcast_row4_apply r _ _ b h l s

theorem smExp_rd (s : RefTerm.T S8x8x1024x1024) (Sc : Fin 8 → Fin 8 → Fin 1024 → Fin 1024 → EReal)
    (hs : ∀ b h l s', s (ix4 b h l s') = Sc b h l s') (b h : Fin 8) (l s' : Fin 1024) :
    RefTerm.smExp s (ix4 b h l s') = EncSpec.expo (Sc b h l) s' := by
  unfold RefTerm.smExp EncSpec.expo
  show Ideal.exp (subf s (RefTerm.bcKeys (RefTerm.smMax s)) (ix4 b h l s')) = _
  rw [subf_apply, bcKeys_rd, smMax_rd s Sc hs, hs]

theorem softmax_rd (s : RefTerm.T S8x8x1024x1024) (Sc : Fin 8 → Fin 8 → Fin 1024 → Fin 1024 → EReal)
    (hs : ∀ b h l s', s (ix4 b h l s') = Sc b h l s') (b h : Fin 8) (l s' : Fin 1024) :
    RefTerm.softmax s (ix4 b h l s') = EncSpec.softmax (Sc b h l) s' := by
  unfold RefTerm.softmax EncSpec.softmax
  rw [hostDivf_apply, smExp_rd s Sc hs, bcKeys_rd, sum_last4_apply _ _ _ (by decide)]
  have h0 : RefTerm.zero ix0 = (0 : EReal) := Ideal.ofBits_zero_f32
  rw [h0, zero_add]
  exact congrArg (Ideal.div _) (Finset.sum_congr rfl fun s'' _ => smExp_rd s Sc hs b h l s'')

theorem mix_rd (p p' : RefTerm.T S8x8x1024x1024) (b h : Fin 8) (l s : Fin 1024) :
    RefTerm.mix p p' (ix4 b h l s) = EncSpec.half * p (ix4 b h l s) + EncSpec.half * p' (ix4 b h l s) := by
  unfold RefTerm.mix RefTerm.half EncSpec.half
  rw [addf_apply, mulf_apply, mulf_apply, broadcastInDim_scalar_apply, constant_apply]

theorem attend_rd (p : RefTerm.T S8x8x1024x1024) (v : RefTerm.T S8x8x1024x64)
    (P : Fin 8 → Fin 8 → Fin 1024 → Fin 1024 → EReal) (V : EncSpec.A3 8 1024 512)
    (hp : ∀ b h l s, p (ix4 b h l s) = P b h l s) (hv : ∀ b h s d, v (ix4 b h s d) = V b s (EncSpec.hcol h d))
    (b : Fin 8) (l : Fin 1024) (c : Fin 512) :
    RefTerm.attend p v (ix3 b l c) = ∑ s : Fin 1024, P b (EncSpec.headOf c) l s * V b s c := by
  unfold RefTerm.attend
  rw [unheads_rd]
  refine (dot_pv_apply dot_S8x8x1024x1024_S8x8x1024x64_S8x8x1024x64_3_2_2_3_01_01_wf none p v b (EncSpec.headOf c) l (lowOf c)).trans ?_
  exact Finset.sum_congr rfl fun s _ => by rw [hp, hv, hcol_headOf_lowOf]

variable (a : EncSpec.Args)

theorem xI_rd (b : Fin 8) (s : Fin 1024) (d : Fin 512) : RefTerm.xI a (ix3 b s d) = EncSpec.xI a b s d :=
  toBatch_rd a.src b s d

theorem xD_rd (b : Fin 8) (s : Fin 1024) (d : Fin 512) : RefTerm.xD a (ix3 b s d) = EncSpec.xD a b s d :=
  toBatch_rd a.srcd b s d

theorem xP_rd (b : Fin 8) (s : Fin 1024) (d : Fin 512) : RefTerm.xP a (ix3 b s d) = EncSpec.xP a b s d := by
  unfold RefTerm.xP EncSpec.xP
  rw [addf_apply, xI_rd, toBatch_rd]
  rfl

theorem proj_rd (x : RefTerm.T S8x1024x512) (w : RefTerm.T S4x512x512) (v : RefTerm.T S4x512) (k : Fin 4)
    (hw : S4x512x512.Slices ![k.val, 0, 0] S1x512x512) (hb : S4x512.Slices ![k.val, 0] S1x512)
    (X : EncSpec.A3 8 1024 512) (hx : ∀ b s d, x (ix3 b s d) = X b s d) (b h : Fin 8) (s : Fin 1024) (d : Fin 64) :
    RefTerm.proj x w v k.val hw hb (ix4 b h s d)
      = EncSpec.linear X (fun e d => w (ix3 k e d)) (fun e => v (ix2 k e)) b s (EncSpec.hcol h d) := by
  unfold RefTerm.proj
  rw [heads_rd]
  exact lin_rd _ _ _ X _ _ hx (wMat_rd w k hw) (bVec_rd v k hb) b s _

-- A stream's attention probabilities, from a reading of its rows.
theorem probs_rd (x : RefTerm.T S8x1024x512) (w : RefTerm.T S4x512x512) (v : RefTerm.T S4x512) (X : EncSpec.A3 8 1024 512)
    (hx : ∀ b s d, x (ix3 b s d) = X b s d) (b h : Fin 8) (l s : Fin 1024) :
    RefTerm.probs x w v (ix4 b h l s)
      = EncSpec.softmax (EncSpec.score (EncSpec.linear X (fun e d => w (ix3 0 e d)) fun e => v (ix2 0 e))
          (EncSpec.linear X (fun e d => w (ix3 1 e d)) fun e => v (ix2 1 e)) b h l) s :=
  softmax_rd _ _ (scores_rd _ _ _ _ (proj_rd x w v 0 _ _ X hx) (proj_rd x w v 1 _ _ X hx)) b h l s

theorem pI_rd (b h : Fin 8) (l s : Fin 1024) :
    RefTerm.pI a (ix4 b h l s) = EncSpec.softmax (EncSpec.scI a b h l) s :=
  probs_rd _ _ _ _ (xP_rd a) b h l s
theorem pD_rd (b h : Fin 8) (l s : Fin 1024) :
    RefTerm.pD a (ix4 b h l s) = EncSpec.softmax (EncSpec.scD a b h l) s :=
  probs_rd _ _ _ _ (xD_rd a) b h l s

end Cert.ReferenceIdeal.RefValue

end
-- ==== Proof.RefValueN.lean ====
import Idealize.ShloMosaic.Lib.Pipeline.Value
import proofs.«400912_j69947837382775_3_alg».proof.Proof.Consts
import proofs.«400912_j69947837382775_3_alg».proof.Proof.RefValueB

noncomputable section

namespace Cert.ReferenceIdeal.RefValueN

open Idealize.ShloMosaic Idealize.ShloMosaic.ValueIdx Cert.ReferenceIdeal Cert.ReferenceIdeal.Facts₀
open Cert.ReferenceIdeal.RefTerm (T)
open scoped BigOperators

variable [Facts₀]

theorem bcRow2048_apply (v : T S2048) (b : Fin 8) (s : Fin 1024) (f : Fin 2048) :
    RefTerm.bcRow2048 v (ix3 b s f) = v (ix1 f) :=
  RefValue.bcast_bias_apply v bcast_S2048_S1x1x2048_2 bcast_S1x1x2048_S8x1024x2048_0_1_2 b s f

theorem bcFeat_apply (r : T S8x1024x1) (b : Fin 8) (s : Fin 1024) (d : Fin 512) :
    RefTerm.bcFeat r (ix3 b s d) = r (ix3 b s (0 : Fin 1)) :=
  RefValue.bcast_row_apply r bcast_S8x1024x1_S8x1024x512_0_1_2 b s d

theorem zero_apply (i : S_.Idx) : RefTerm.zero i = 0 := EncConsts.zero_eq
theorem c512_apply (i : S_.Idx) : RefTerm.c512 i = EncSpec.c512 := rfl
theorem eps_apply (i : S_.Idx) : RefTerm.eps i = EncSpec.epsLit := rfl

theorem divisor_apply (i : S_.Idx) : RefTerm.divisor i = EncSpec.c512 := by
  show EncSpec.c512 - (((0#32 : BitVec 32).toInt : ℝ) : EReal) = EncSpec.c512
  have h0 : (((0#32 : BitVec 32).toInt : ℝ) : EReal) = 0 := by simp
  rw [h0, sub_zero]

theorem divisor_gt (i : S_.Idx) : cmpf .ogt RefTerm.divisor RefTerm.zero i = 1#1 := by
  show Ideal.cmp .ogt (RefTerm.divisor i) (RefTerm.zero i) = 1#1
  rw [divisor_apply, zero_apply, EncConsts.c512_eq]
  simp only [Ideal.cmp]
  have h : (0 : EReal) < ((512 : ℝ) : EReal) := by exact_mod_cast (by norm_num : (0 : ℝ) < 512)
  simp [h]

theorem rowSum_apply (x : T S8x1024x512) (b : Fin 8) (s : Fin 1024) :
    RefTerm.rowSum x (ix3 b s (0 : Fin 1)) = ∑ d : Fin 512, x (ix3 b s d) := by
  unfold RefTerm.rowSum
  rw [RefValue.bcast_unit3_apply _ bcast_S8x1024_S8x1024x1_0_1 b s 0, hostReduceAdd_apply,
    Ideal.hostReduceAdd_single reducesTo_S8x1024x512_S8x1024_d2 (by decide : S8x1024x512.Reduces [2] S8x1024),
    zero_apply, zero_add]
  refine Finset.sum_congr rfl fun d _ => congrArg x ?_
  funext c; apply Fin.ext
  match c with
  | ⟨0, _⟩ => rfl
  | ⟨1, _⟩ => rfl
  | ⟨2, _⟩ => rfl

theorem rowMean_apply (x : T S8x1024x512) (b : Fin 8) (s : Fin 1024) :
    RefTerm.rowMean x (ix3 b s (0 : Fin 1)) = EncSpec.mean (fun d => x (ix3 b s d)) := by
  unfold RefTerm.rowMean EncSpec.mean
  rw [hostDivf_apply, rowSum_apply, broadcastInDim_scalar_apply, c512_apply]

theorem centered_apply (x : T S8x1024x512) (b : Fin 8) (s : Fin 1024) (d : Fin 512) :
    RefTerm.centered x (ix3 b s d) = x (ix3 b s d) - EncSpec.mean (fun d' => x (ix3 b s d')) := by
  unfold RefTerm.centered
  rw [subf_apply, bcFeat_apply, rowMean_apply]

theorem rowVar_apply (x : T S8x1024x512) (b : Fin 8) (s : Fin 1024) :
    RefTerm.rowVar x (ix3 b s (0 : Fin 1))
      = EncSpec.mean (fun d' => (x (ix3 b s d') - EncSpec.mean (fun e => x (ix3 b s e)))
          * (x (ix3 b s d') - EncSpec.mean (fun e => x (ix3 b s e)))) := by
  unfold RefTerm.rowVar
  rw [select_apply, broadcastInDim_scalar_apply, divisor_gt, select_one, hostDivf_apply, rowSum_apply,
    broadcastInDim_scalar_apply, divisor_apply]
  unfold EncSpec.mean
  congr 1
  refine Finset.sum_congr rfl fun d _ => ?_
  rw [mulf_apply, centered_apply]
  rfl

theorem layerNorm_rd (x : T S8x1024x512) (g o : T S512) (X : EncSpec.A3 8 1024 512) (G O : Fin 512 → EReal)
    (hx : ∀ b s d, x (ix3 b s d) = X b s d) (hg : ∀ e, g (ix1 e) = G e) (ho : ∀ e, o (ix1 e) = O e) :
    ∀ b s d, RefTerm.layerNorm x g o (ix3 b s d) = EncSpec.layerNorm X G O b s d := by
  intro b s d
  obtain rfl : (fun b s d => x (ix3 b s d)) = X := by funext b s d; exact hx b s d
  obtain rfl : (fun e => g (ix1 e)) = G := funext hg
  obtain rfl : (fun e => o (ix1 e)) = O := funext ho
  unfold RefTerm.layerNorm EncSpec.layerNorm
  rw [addf_apply, mulf_apply, mulf_apply, centered_apply, bcFeat_apply, RefValue.bcRow_rd, RefValue.bcRow_rd]
  show _ * Ideal.rsqrt (addf (RefTerm.rowVar x) _ (ix3 b s (0 : Fin 1))) * _ + _ = _
  rw [addf_apply, rowVar_apply, broadcastInDim_scalar_apply, eps_apply]

theorem ffn_rd (y : T S8x1024x512) (w1 : T S2048x512) (b1 : T S2048) (w2 : T S512x2048) (b2 : T S512)
    (Y : EncSpec.A3 8 1024 512) (W1 : EncSpec.A2 2048 512) (B1 : Fin 2048 → EReal) (W2 : EncSpec.A2 512 2048)
    (B2 : Fin 512 → EReal)
    (hy : ∀ b s d, y (ix3 b s d) = Y b s d) (hw1 : ∀ f d, w1 (ix2 f d) = W1 f d) (hb1 : ∀ f, b1 (ix1 f) = B1 f)
    (hw2 : ∀ e f, w2 (ix2 e f) = W2 e f) (hb2 : ∀ e, b2 (ix1 e) = B2 e) :
    ∀ b s e, RefTerm.ffn y w1 b1 w2 b2 (ix3 b s e) = EncSpec.ffn Y W1 B1 W2 B2 b s e := by
  intro b s e
  unfold RefTerm.ffn EncSpec.ffn EncSpec.linear EncSpec.relu
  rw [addf_apply, RefValue.bcRow_rd, hb2]
  rw [show Host.dotGeneral (F := Ideal) dot_S8x1024x2048_S512x2048_S8x1024x512_2_1_01_0_n_n none _ w2 (ix3 b s e) = _ from
    RefValue.dot_rows_apply dot_S8x1024x2048_S512x2048_S8x1024x512_2_1_01_0_n_n_wf none _ w2 b s e]
  refine congrArg (· + B2 e) (Finset.sum_congr rfl fun f _ => ?_)
  rw [maximumf_apply, addf_apply, bcRow2048_apply, hb1, hw2, broadcastInDim_scalar_apply, zero_apply]
  rw [show Host.dotGeneral (F := Ideal) dot_S8x1024x512_S2048x512_S8x1024x2048_2_1_01_0_n_n none y w1 (ix3 b s f) = _ from
    RefValue.dot_rows_apply dot_S8x1024x512_S2048x512_S8x1024x2048_2_1_01_0_n_n_wf none y w1 b s f]
  have hs : (∑ d : Fin 512, y (ix3 b s d) * w1 (ix2 f d)) = ∑ d : Fin 512, Y b s d * W1 f d :=
    Finset.sum_congr rfl fun d _ => by rw [hy, hw1]
  rw [hs]

theorem stage2_rd (y : T S8x1024x512) (w1 : T S2048x512) (b1 : T S2048) (w2 : T S512x2048) (b2 : T S512) (g o : T S512)
    (Y : EncSpec.A3 8 1024 512) (W1 : EncSpec.A2 2048 512) (B1 : Fin 2048 → EReal) (W2 : EncSpec.A2 512 2048)
    (B2 : Fin 512 → EReal) (G O : Fin 512 → EReal)
    (hy : ∀ b s d, y (ix3 b s d) = Y b s d) (hw1 : ∀ f d, w1 (ix2 f d) = W1 f d) (hb1 : ∀ f, b1 (ix1 f) = B1 f)
    (hw2 : ∀ e f, w2 (ix2 e f) = W2 e f) (hb2 : ∀ e, b2 (ix1 e) = B2 e)
    (hg : ∀ e, g (ix1 e) = G e) (ho : ∀ e, o (ix1 e) = O e) :
    ∀ b s d, RefTerm.stage2 y w1 b1 w2 b2 g o (ix3 b s d) = EncSpec.stage2 Y W1 B1 W2 B2 G O b s d := by
  unfold RefTerm.stage2 EncSpec.stage2
  refine layerNorm_rd _ g o _ G O (fun b s d => ?_) hg ho
  rw [addf_apply, hy, ffn_rd y w1 b1 w2 b2 Y W1 B1 W2 B2 hy hw1 hb1 hw2 hb2]

end Cert.ReferenceIdeal.RefValueN

end
-- ==== Proof.RefValue.lean ====
import proofs.«400912_j69947837382775_3_alg».proof.Proof.RefValueB
import proofs.«400912_j69947837382775_3_alg».proof.Proof.RefValueN

noncomputable section

namespace Cert.ReferenceIdeal.RefValue

open Idealize.ShloMosaic Idealize.ShloMosaic.ValueIdx Cert.ReferenceIdeal Cert.ReferenceIdeal.Facts₀
open scoped BigOperators

variable [Facts₀]

-- A stream's result at an entry: attention output plus the rows, normalised, then the perceptron stage, normalised.
theorem stream_rd (x : RefTerm.T S8x1024x512) (p p' : RefTerm.T S8x8x1024x1024) (w : RefTerm.T S4x512x512)
    (v ln : RefTerm.T S4x512) (w1 : RefTerm.T S2048x512) (b1 : RefTerm.T S2048) (w2 : RefTerm.T S512x2048) (b2 : RefTerm.T S512)
    (X : EncSpec.A3 8 1024 512) (Sc Sc' : Fin 8 → Fin 8 → Fin 1024 → Fin 1024 → EReal)
    (hx : ∀ b s d, x (ix3 b s d) = X b s d)
    (hp : ∀ b h l s, p (ix4 b h l s) = EncSpec.softmax (Sc b h l) s)
    (hp' : ∀ b h l s, p' (ix4 b h l s) = EncSpec.softmax (Sc' b h l) s) (s : Fin 1024) (b : Fin 8) (d : Fin 512) :
    RefTerm.stream x p p' w v ln w1 b1 w2 b2 (ix3 s b d)
      = EncSpec.stage2
          (EncSpec.layerNorm
            (fun b s d => X b s d + EncSpec.linear
              (EncSpec.mixedAttn Sc Sc' (EncSpec.linear X (fun e d => w (ix3 2 e d)) fun e => v (ix2 2 e)))
              (fun e d => w (ix3 3 e d)) (fun e => v (ix2 3 e)) b s d)
            (fun e => ln (ix2 0 e)) fun e => ln (ix2 1 e))
          (fun f d => w1 (ix2 f d)) (fun f => b1 (ix1 f)) (fun e f => w2 (ix2 e f)) (fun e => b2 (ix1 e))
          (fun e => ln (ix2 2 e)) (fun e => ln (ix2 3 e)) b s d := by
  unfold RefTerm.stream
  rw [fromBatch_rd]
  refine RefValueN.stage2_rd _ _ _ _ _ _ _ _ _ _ _ _ _ _
    (RefValueN.layerNorm_rd _ _ _ _ _ _ (fun b s d => ?_) (bVec_rd ln 0 _) (bVec_rd ln 1 _))
    (fun _ _ => rfl) (fun _ => rfl) (fun _ _ => rfl) (fun _ => rfl) (bVec_rd ln 2 _) (bVec_rd ln 3 _) b s d
  rw [addf_apply, hx]
  refine congrArg (X b s d + ·) (lin_rd _ _ _ _ _ _ (fun b l c => ?_) (wMat_rd w 3 _) (bVec_rd v 3 _) b s d)
  unfold EncSpec.mixedAttn
  exact attend_rd _ _ (fun b h l s => EncSpec.half * EncSpec.softmax (Sc b h l) s + EncSpec.half * EncSpec.softmax (Sc' b h l) s) _
    (fun b h l s => by rw [mix_rd, hp, hp']) (proj_rd x w v 2 _ _ X hx) b l c

variable (a : EncSpec.Args)

theorem t234_eq : RefTerm.t234 a = EncSpec.res0 a := by
  funext i
  obtain ⟨s, b, d, rfl⟩ : ∃ (s : Fin 1024) (b : Fin 8) (d : Fin 512), i = ix3 s b d := ⟨i 0, i 1, i 2, eq_ix3 i⟩
  exact stream_rd _ _ _ _ _ _ _ _ _ _ (EncSpec.xI a) (EncSpec.scI a) (EncSpec.scD a) (xI_rd a) (pI_rd a) (pD_rd a) s b d

theorem t235_eq : RefTerm.t235 a = EncSpec.res1 a := by
  funext i
  obtain ⟨s, b, d, rfl⟩ : ∃ (s : Fin 1024) (b : Fin 8) (d : Fin 512), i = ix3 s b d := ⟨i 0, i 1, i 2, eq_ix3 i⟩
  exact stream_rd _ _ _ _ _ _ _ _ _ _ (EncSpec.xD a) (EncSpec.scD a) (EncSpec.scI a) (xD_rd a) (pD_rd a) (pI_rd a) s b d

end Cert.ReferenceIdeal.RefValue

end
-- ==== Proof.Finite.lean ====
import Idealize.ShloMosaic.Lib.StableHlo
import Idealize.ShloMosaic.PureOps
import Idealize.ShloMosaic.PureOps.Ideal
import Idealize.ShloMosaic.PureOps.Ideal.Laws
import Idealize.ShloMosaic.Lib.ReduceAll
import Idealize.ShloMosaic.Lib.ValueIdx
import proofs.«400912_j69947837382775_3_alg».proof.Pre_finite_inputs
import proofs.«400912_j69947837382775_3_alg».proof.Defs
import proofs.«400912_j69947837382775_3_alg».proof.Proof.Spec

noncomputable section

namespace Cert.Finite

open Idealize.ShloMosaic
open Cert.Pre_finite_inputs (S_)

instance : Subsingleton S_.Idx := ⟨fun a b => funext fun d => d.elim0⟩

theorem pinf_eq : Ideal.ofBits .f32 0x7F800000#32 = ⊤ := by
  simp [Ideal.ofBits, Ideal.ieee]

-- An extended real whose absolute value is below +∞ is a real number.
theorem real_of_abs_lt (x : Ideal .f32)
    (h : FloatOps.cmpf .olt (FloatOps.hostAbsf x) (FloatOps.ofBits (F := Ideal) .f32 0x7F800000#32) = 1#1) :
    ∃ r : ℝ, x = r := by
  have h' : Ideal.cmp .olt (max x (-x)) (Ideal.ofBits .f32 0x7F800000#32) = 1#1 := h
  rw [pinf_eq] at h'
  simp only [Ideal.cmp] at h'
  induction x using EReal.rec with
  | bot => simp at h'
  | coe r => exact ⟨r, rfl⟩
  | top => simp at h'

theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
          (constantI S_ 1 1#1) hr hu ValueIdx.ix0 = 1#1) (i : s.Idx) : ∃ r : ℝ, x i = r :=
  real_of_abs_lt (x i) (Host.reduce_andi_all _ _ hr hu ValueIdx.ix0 e i)

-- A conjunction that is 1 has every conjunct 1, and a reduction by `and` that is 1 has every entry 1: the seven arrays the algebra needs have real entries.
theorem finite_of_pre [Cert.Pre_finite_inputs.Facts]
    (a0 : (⟨⟨3, ![1024, 8, 512]⟩, .f32⟩ : BufTy).Contents (Elt Ideal))
    (a1 : (⟨⟨3, ![1024, 8, 512]⟩, .f32⟩ : BufTy).Contents (Elt Ideal))
    (a2 : (⟨⟨3, ![1024, 8, 512]⟩, .f32⟩ : BufTy).Contents (Elt Ideal))
    (a3 : (⟨⟨3, ![4, 512, 512]⟩, .f32⟩ : BufTy).Contents (Elt Ideal))
    (a4 : (⟨⟨2, ![4, 512]⟩, .f32⟩ : BufTy).Contents (Elt Ideal))
    (a5 : (⟨⟨3, ![4, 512, 512]⟩, .f32⟩ : BufTy).Contents (Elt Ideal))
    (a6 : (⟨⟨2, ![4, 512]⟩, .f32⟩ : BufTy).Contents (Elt Ideal))
    (a7 : (⟨⟨2, ![2048, 512]⟩, .f32⟩ : BufTy).Contents (Elt Ideal))
    (a8 : (⟨⟨1, ![2048]⟩, .f32⟩ : BufTy).Contents (Elt Ideal))
    (a9 : (⟨⟨2, ![512, 2048]⟩, .f32⟩ : BufTy).Contents (Elt Ideal))
    (a10 : (⟨⟨1, ![512]⟩, .f32⟩ : BufTy).Contents (Elt Ideal))
    (a11 : (⟨⟨2, ![2048, 512]⟩, .f32⟩ : BufTy).Contents (Elt Ideal))
    (a12 : (⟨⟨1, ![2048]⟩, .f32⟩ : BufTy).Contents (Elt Ideal))
    (a13 : (⟨⟨2, ![512, 2048]⟩, .f32⟩ : BufTy).Contents (Elt Ideal))
    (a14 : (⟨⟨1, ![512]⟩, .f32⟩ : BufTy).Contents (Elt Ideal))
    (a15 : (⟨⟨2, ![4, 512]⟩, .f32⟩ : BufTy).Contents (Elt Ideal))
    (a16 : (⟨⟨2, ![4, 512]⟩, .f32⟩ : BufTy).Contents (Elt Ideal))
    (h : Cert.Pre_finite_inputs.fn (F := Ideal) a0 a1 a2 a3 a4 a5 a6 a7 a8 a9 a10 a11 a12 a13 a14 a15 a16 = fun _ => 1#1) :
    EncSpec.Args.Finite ⟨a0, a1, a2, a3, a4, a5, a6, a7, a8, a9, a10, a11, a12, a13, a14, a15, a16⟩ := by
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  simp only [andi, IntOp.andi_eq_one] at h0
  obtain ⟨h0, -⟩ := h0
  obtain ⟨h0, -⟩ := h0
  obtain ⟨h0, -⟩ := h0
  obtain ⟨h0, -⟩ := h0
  obtain ⟨h0, -⟩ := h0
  obtain ⟨h0, -⟩ := h0
  obtain ⟨h0, -⟩ := h0
  obtain ⟨h0, -⟩ := h0
  obtain ⟨h0, -⟩ := h0
  obtain ⟨h0, -⟩ := h0
  obtain ⟨⟨⟨⟨⟨⟨e0, e1⟩, e2⟩, e3⟩, e4⟩, e5⟩, e6⟩ := h0
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6⟩

theorem finite_of_Pre_KernelIdeal [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    EncSpec.Args.Finite ⟨m ((c.tc : Thread Cert.KernelIdeal.nD Cert.KernelIdeal.τ).loc Cert.KernelIdeal.main_arg0),
      m ((c.tc : Thread Cert.KernelIdeal.nD Cert.KernelIdeal.τ).loc Cert.KernelIdeal.main_arg1),
      m ((c.tc : Thread Cert.KernelIdeal.nD Cert.KernelIdeal.τ).loc Cert.KernelIdeal.main_arg2),
      m ((c.tc : Thread Cert.KernelIdeal.nD Cert.KernelIdeal.τ).loc Cert.KernelIdeal.main_arg3),
      m ((c.tc : Thread Cert.KernelIdeal.nD Cert.KernelIdeal.τ).loc Cert.KernelIdeal.main_arg4),
      m ((c.tc : Thread Cert.KernelIdeal.nD Cert.KernelIdeal.τ).loc Cert.KernelIdeal.main_arg5),
      m ((c.tc : Thread Cert.KernelIdeal.nD Cert.KernelIdeal.τ).loc Cert.KernelIdeal.main_arg6),
      m ((c.tc : Thread Cert.KernelIdeal.nD Cert.KernelIdeal.τ).loc Cert.KernelIdeal.main_arg7),
      m ((c.tc : Thread Cert.KernelIdeal.nD Cert.KernelIdeal.τ).loc Cert.KernelIdeal.main_arg8),
      m ((c.tc : Thread Cert.KernelIdeal.nD Cert.KernelIdeal.τ).loc Cert.KernelIdeal.main_arg9),
      m ((c.tc : Thread Cert.KernelIdeal.nD Cert.KernelIdeal.τ).loc Cert.KernelIdeal.main_arg10),
      m ((c.tc : Thread Cert.KernelIdeal.nD Cert.KernelIdeal.τ).loc Cert.KernelIdeal.main_arg11),
      m ((c.tc : Thread Cert.KernelIdeal.nD Cert.KernelIdeal.τ).loc Cert.KernelIdeal.main_arg12),
      m ((c.tc : Thread Cert.KernelIdeal.nD Cert.KernelIdeal.τ).loc Cert.KernelIdeal.main_arg13),
      m ((c.tc : Thread Cert.KernelIdeal.nD Cert.KernelIdeal.τ).loc Cert.KernelIdeal.main_arg14),
      m ((c.tc : Thread Cert.KernelIdeal.nD Cert.KernelIdeal.τ).loc Cert.KernelIdeal.main_arg15),
      m ((c.tc : Thread Cert.KernelIdeal.nD Cert.KernelIdeal.τ).loc Cert.KernelIdeal.main_arg16)⟩ :=
  finite_of_pre _ _ _ _ _ _ _ _ _ _ _ _ _ _ _ _ _ (h c)

end Cert.Finite

end
-- ==== Proof.lean ====
import proofs.«400912_j69947837382775_3_alg».proof.Defs
import proofs.«400912_j69947837382775_3_alg».proof.Proof.Gen.Kernel
import proofs.«400912_j69947837382775_3_alg».proof.Proof.Gen.KernelIdeal
import proofs.«400912_j69947837382775_3_alg».proof.Proof.Gen.ReferenceIdeal
import proofs.«400912_j69947837382775_3_alg».proof.Proof.Gen.Pre_finite_inputs
import proofs.«400912_j69947837382775_3_alg».proof.Proof.WRun
import proofs.«400912_j69947837382775_3_alg».proof.Proof.KRun
import proofs.«400912_j69947837382775_3_alg».proof.Proof.KValue
import proofs.«400912_j69947837382775_3_alg».proof.Proof.RefRun
import proofs.«400912_j69947837382775_3_alg».proof.Proof.RefValue
import proofs.«400912_j69947837382775_3_alg».proof.Proof.Finite

noncomputable section

namespace Cert.Proof

open Idealize.ShloMosaic Idealize.SL.Sem

section Claims

variable [hK : Cert.Kernel.Facts] [hKI : Cert.KernelIdeal.Facts] [hR : Cert.ReferenceIdeal.Facts]
  [hP : Cert.Pre_finite_inputs.Facts]

theorem frame_k : Cert.frame_Kernel := fun m ρ _ =>
  (θ_run (Cert.Kernel.defs (F := Bits)) _ _).mono (fun r h c => Cert.Kernel.Run.post_args m r.2 c (h c)) (Cert.Kernel.Run.run_main m ρ)

theorem frame_ki : Cert.frame_KernelIdeal := fun m ρ _ =>
  (θ_run (Cert.KernelIdeal.defs (F := Ideal)) _ _).mono (fun r h c => Cert.KernelIdeal.Run.post_args m r.2 c (h c)) (Cert.KernelIdeal.Run.run_main m ρ)

-- The reference's frame is its run with the two results dropped.
theorem frame_r : Cert.frame_ReferenceIdeal := fun m ρ _ =>
  (θ_run (Cert.ReferenceIdeal.defs (F := Ideal)) _ _).mono (fun _ h c => (h c).2) (Cert.ReferenceIdeal.RefRun.run m ρ)

-- From memories agreeing on the arguments both programs end with the specification's two arrays: the kernel program by its run and the value of its last contents (finiteness from the precondition), the reference by its run and the reading of its result terms.
theorem algebraic : Cert.algebraic_KernelIdeal_ReferenceIdeal := by
  intro m ρ m' ρ' hpre hagree
  have hfin : ∀ c, (Cert.KernelIdeal.Value.argsOf m c).Finite :=
    fun c => Cert.Finite.finite_of_Pre_KernelIdeal m hpre c
  have hargs : ∀ c, Cert.ReferenceIdeal.RefRun.argsOf m' c = Cert.KernelIdeal.Value.argsOf m c := fun c => by
    obtain ⟨h0, h1, h2, h3, h4, h5, h6, h7, h8, h9, h10, h11, h12, h13, h14, h15, h16⟩ := hagree c
    unfold Cert.ReferenceIdeal.RefRun.argsOf Cert.KernelIdeal.Value.argsOf
    rw [h0, h1, h2, h3, h4, h5, h6, h7, h8, h9, h10, h11, h12, h13, h14, h15, h16]
  refine ⟨fun c => EncSpec.res0 (Cert.KernelIdeal.Value.argsOf m c),
    fun c => EncSpec.res1 (Cert.KernelIdeal.Value.argsOf m c), ?_, ?_⟩
  · refine (θ_run (Cert.KernelIdeal.defs (F := Ideal)) _ _).mono (fun r h c => ⟨?_, ?_, ?_⟩)
      (Cert.KernelIdeal.Run.run_main m ρ)
    · exact (h c _ (Cert.KernelIdeal.Run.mem_uc Cert.KernelIdeal.main_v45 (by decide))).trans
        (Cert.KernelIdeal.Value.v45_eq m c (hfin c))
    · exact (h c _ (Cert.KernelIdeal.Run.mem_uc Cert.KernelIdeal.main_v46 (by decide))).trans
        (Cert.KernelIdeal.Value.v46_eq m c (hfin c))
    · exact Cert.KernelIdeal.Run.post_args m r.2 c (h c)
  · exact (θ_run (Cert.ReferenceIdeal.defs (F := Ideal)) _ _).mono
      (fun _ h c => ⟨(h c).1.1.trans (by rw [Cert.ReferenceIdeal.RefValue.t234_eq, hargs c]),
        (h c).1.2.trans (by rw [Cert.ReferenceIdeal.RefValue.t235_eq, hargs c]), (h c).2⟩)
      (Cert.ReferenceIdeal.RefRun.run m' ρ')

end Claims

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
